-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x300000 : Shape := ⟨2, ![2, 300000]⟩
abbrev S50000 : Shape := ⟨1, ![50000]⟩
abbrev S300000x16 : Shape := ⟨2, ![300000, 16]⟩
abbrev S32x256 : Shape := ⟨2, ![32, 256]⟩
abbrev S256 : Shape := ⟨1, ![256]⟩
abbrev S16x256 : Shape := ⟨2, ![16, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x12 : Shape := ⟨2, ![128, 12]⟩
abbrev S12 : Shape := ⟨1, ![12]⟩
abbrev S_ : Shape := ⟨0, ![]⟩
abbrev S1x300000 : Shape := ⟨2, ![1, 300000]⟩
abbrev S300000 : Shape := ⟨1, ![300000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S300000x16 : S_.BroadcastsInDim S300000x16 (![] : Fin 0 → Fin S300000x16.rank)
  reducesTo_S300000x16_S_d0_1 : S300000x16.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  reducesTo_S300000_S_d0 : S300000.ReducesTo [0] S_

variable [Facts]

def fn_part5 {F : FTy → Type} [FloatOps F] (main_v84 : IVec S_ 1) (main_v85 : IVec S1x300000 32) : IVec S_ 1 :=
  let main_v86 : IVec S300000 32 := shapeCast S300000 main_v85 shapeCasts_S1x300000_S300000
  let main_c_32 : IVec S_ 32 := constantI S_ 32 50000#32
  let main_v87 : IVec S300000 32 := broadcastInDim S300000 ![] bcast_S_S300000 main_c_32
  let main_v88 : IVec S300000 1 := cmpi .slt main_v86 main_v87
  let main_c_33 : IVec S_ 1 := constantI S_ 1 1#1
  let main_v89 : IVec S_ 1 := (fun x v => Host.reduce IntOp.andi x v reducesTo_S300000_S_d0 h_S_) main_v88 main_c_33
  let main_v90 : IVec S_ 1 := andi main_v84 main_v89
  main_v90

def fn_part4 {F : FTy → Type} [FloatOps F] (main_arg1 : IVec S2x300000 32) (main_arg16 : FVec F S128x12 .f32) (main_arg17 : FVec F S12 .f32) (main_v63 : IVec S_ 1) (main_v67 : IVec S_ 1) : IVec S_ 1 :=
  let main_v68 : IVec S_ 1 := andi main_v63 main_v67
  let main_v69 : FVec F S128x12 .f32 := Host.absf main_arg16
  let main_cst_26 : FVec F S_ .f32 := constant S_ .f32 0x7F800000#32
  let main_v70 : FVec F S128x12 .f32 := broadcastInDim S128x12 ![] bcast_S_S128x12 main_cst_26
  let main_v71 : IVec S128x12 1 := cmpf .olt main_v69 main_v70
  let main_c_27 : IVec S_ 1 := constantI S_ 1 1#1
  let main_v72 : IVec S_ 1 := (fun x v => Host.reduce IntOp.andi x v reducesTo_S128x12_S_d0_1 h_S_) main_v71 main_c_27
  let main_v73 : IVec S_ 1 := andi main_v68 main_v72
  let main_v74 : FVec F S12 .f32 := Host.absf main_arg17
  let main_cst_28 : FVec F S_ .f32 := constant S_ .f32 0x7F800000#32
  let main_v75 : FVec F S12 .f32 := broadcastInDim S12 ![] bcast_S_S12 main_cst_28
  let main_v76 : IVec S12 1 := cmpf .olt main_v74 main_v75
  let main_c_29 : IVec S_ 1 := constantI S_ 1 1#1
  let main_v77 : IVec S_ 1 := (fun x v => Host.reduce IntOp.andi x v reducesTo_S12_S_d0 h_S_) main_v76 main_c_29
  let main_v78 : IVec S_ 1 := andi main_v73 main_v77
  let main_v79 : IVec S1x300000 32 := (extractStridedSlice S1x300000 ![0, 0] · slices_S2x300000_S1x300000_0_0) main_arg1
  let main_v80 : IVec S300000 32 := shapeCast S300000 main_v79 shapeCasts_S1x300000_S300000
  let main_c_30 : IVec S_ 32 := constantI S_ 32 0#32
  let main_v81 : IVec S300000 32 := broadcastInDim S300000 ![] bcast_S_S300000 main_c_30
  let main_v82 : IVec S300000 1 := cmpi .sge main_v80 main_v81
  let main_c_31 : IVec S_ 1 := constantI S_ 1 1#1
  let main_v83 : IVec S_ 1 := (fun x v => Host.reduce IntOp.andi x v reducesTo_S300000_S_d0 h_S_) main_v82 main_c_31
  let main_v84 : IVec S_ 1 := andi main_v78 main_v83
  let main_v85 : IVec S1x300000 32 := (extractStridedSlice S1x300000 ![0, 0] · slices_S2x300000_S1x300000_0_0) main_arg1
  fn_part5 (F := F) main_v84 main_v85

def fn_part3 {F : FTy → Type} [FloatOps F] (main_arg1 : IVec S2x300000 32) (main_arg13 : FVec F S4x256 .f32) (main_arg14 : FVec F S256x128 .f32) (main_arg15 : FVec F S128 .f32) (main_arg16 : FVec F S128x12 .f32) (main_arg17 : FVec F S12 .f32) (main_v48 : IVec S_ 1) (main_v49 : FVec F S4x256 .f32) (main_v50 : FVec F S4x256 .f32) : IVec S_ 1 :=
  let main_v51 : IVec S4x256 1 := cmpf .olt main_v49 main_v50
  let main_c_19 : IVec S_ 1 := constantI S_ 1 1#1
  let main_v52 : IVec S_ 1 := (fun x v => Host.reduce IntOp.andi x v reducesTo_S4x256_S_d0_1 h_S_) main_v51 main_c_19
  let main_v53 : IVec S_ 1 := andi main_v48 main_v52
  let main_v54 : FVec F S4x256 .f32 := Host.absf main_arg13
  let main_cst_20 : FVec F S_ .f32 := constant S_ .f32 0x7F800000#32
  let main_v55 : FVec F S4x256 .f32 := broadcastInDim S4x256 ![] bcast_S_S4x256 main_cst_20
  let main_v56 : IVec S4x256 1 := cmpf .olt main_v54 main_v55
  let main_c_21 : IVec S_ 1 := constantI S_ 1 1#1
  let main_v57 : IVec S_ 1 := (fun x v => Host.reduce IntOp.andi x v reducesTo_S4x256_S_d0_1 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_v63 main_v67

def fn_part2 {F : FTy → Type} [FloatOps F] (main_arg1 : IVec S2x300000 32) (main_arg9 : FVec F S4x256 .f32) (main_arg10 : FVec F S4x256x256 .f32) (main_arg11 : FVec F S4x256 .f32) (main_arg12 : FVec F S4x256 .f32) (main_arg13 : FVec F S4x256 .f32) (main_arg14 : FVec F S256x128 .f32) (main_arg15 : FVec F S128 .f32) (main_arg16 : FVec F S128x12 .f32) (main_arg17 : FVec F S12 .f32) (main_v33 : IVec S_ 1) : IVec S_ 1 :=
  let main_v34 : FVec F S4x256 .f32 := Host.absf main_arg9
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256x256 .f32 := Host.absf main_arg10
  let main_cst_14 : FVec F S_ .f32 := constant S_ .f32 0x7F800000#32
  let main_v40 : FVec F S4x256x256 .f32 := broadcastInDim S4x256x256 ![] bcast_S_S4x256x256 main_cst_14
  let main_v41 : IVec S4x256x256 1 := cmpf .olt main_v39 main_v40
  let main_c_15 : IVec S_ 1 := constantI S_ 1 1#1
  let main_v42 : IVec S_ 1 := (fun x v => Host.reduce IntOp.andi x v reducesTo_S4x256x256_S_d0_1_2 h_S_) main_v41 main_c_15
  let main_v43 : IVec S_ 1 := andi main_v38 main_v42
  let main_v44 : FVec F S4x256 .f32 := Host.absf main_arg11
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  let main_v49 : FVec F S4x256 .f32 := Host.absf main_arg12
  let main_cst_18 : FVec F S_ .f32 := constant S_ .f32 0x7F800000#32
  let main_v50 : FVec F S4x256 .f32 := broadcastInDim S4x256 ![] bcast_S_S4x256 main_cst_18
  fn_part3 (F := F) main_arg1 main_arg13 main_arg14 main_arg15 main_arg16 main_arg17 main_v48 main_v49 main_v50

def fn_part1 {F : FTy → Type} [FloatOps F] (main_arg1 : IVec S2x300000 32) (main_arg6 : FVec F S16x256 .f32) (main_arg7 : FVec F S256 .f32) (main_arg8 : FVec F S4x256x256 .f32) (main_arg9 : FVec F S4x256 .f32) (main_arg10 : FVec F S4x256x256 .f32) (main_arg11 : FVec F S4x256 .f32) (main_arg12 : FVec F S4x256 .f32) (main_arg13 : FVec F S4x256 .f32) (main_arg14 : FVec F S256x128 .f32) (main_arg15 : FVec F S128 .f32) (main_arg16 : FVec F S128x12 .f32) (main_arg17 : FVec F S12 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S16x256 .f32 := Host.absf main_arg6
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x256x256 .f32 := Host.absf main_arg8
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S50000x32 .f32) (main_arg1 : IVec S2x300000 32) (main_arg2 : IVec S50000 32) (main_arg3 : FVec F S300000x16 .f32) (main_arg4 : FVec F S32x256 .f32) (main_arg5 : FVec F S256 .f32) (main_arg6 : FVec F S16x256 .f32) (main_arg7 : FVec F S256 .f32) (main_arg8 : FVec F S4x256x256 .f32) (main_arg9 : FVec F S4x256 .f32) (main_arg10 : FVec F S4x256x256 .f32) (main_arg11 : FVec F S4x256 .f32) (main_arg12 : FVec F S4x256 .f32) (main_arg13 : FVec F S4x256 .f32) (main_arg14 : FVec F S256x128 .f32) (main_arg15 : FVec F S128 .f32) (main_arg16 : FVec F S128x12 .f32) (main_arg17 : FVec F S12 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S300000x16 .f32 := Host.absf main_arg3
  let main_cst_0 : FVec F S_ .f32 := constant S_ .f32 0x7F800000#32
  let main_v5 : FVec F S300000x16 .f32 := broadcastInDim S300000x16 ![] bcast_S_S300000x16 main_cst_0
  let main_v6 : IVec S300000x16 1 := cmpf .olt main_v4 main_v5
  let main_c_1 : IVec S_ 1 := constantI S_ 1 1#1
  let main_v7 : IVec S_ 1 := (fun x v => Host.reduce IntOp.andi x v reducesTo_S300000x16_S_d0_1 h_S_) main_v6 main_c_1
  let main_v8 : IVec S_ 1 := andi main_v3 main_v7
  let main_v9 : FVec F S32x256 .f32 := Host.absf main_arg4
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S50000x32 : Shape := ⟨2, ![50000, 32]⟩
abbrev S2x300000 : Shape := ⟨2, ![2, 300000]⟩
abbrev S50000 : Shape := ⟨1, ![50000]⟩
abbrev S300000x16 : Shape := ⟨2, ![300000, 16]⟩
abbrev S32x256 : Shape := ⟨2, ![32, 256]⟩
abbrev S256 : Shape := ⟨1, ![256]⟩
abbrev S16x256 : Shape := ⟨2, ![16, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x12 : Shape := ⟨2, ![128, 12]⟩
abbrev S12 : Shape := ⟨1, ![12]⟩
abbrev S1x300000 : Shape := ⟨2, ![1, 300000]⟩
abbrev S300000 : Shape := ⟨1, ![300000]⟩
abbrev S1x256 : Shape := ⟨2, ![1, 256]⟩
abbrev S50000x256 : Shape := ⟨2, ![50000, 256]⟩
abbrev S2000x32 : Shape := ⟨2, ![2000, 32]⟩
abbrev S2000x256 : Shape := ⟨2, ![2000, 256]⟩
abbrev S300000x256 : Shape := ⟨2, ![300000, 256]⟩
abbrev S4000x16 : Shape := ⟨2, ![4000, 16]⟩
abbrev S4000x256 : Shape := ⟨2, ![4000, 256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S1x256x256 : Shape := ⟨3, ![1, 256, 256]⟩
abbrev S256x256 : Shape := ⟨2, ![256, 256]⟩
abbrev S128x256 : Shape := ⟨2, ![128, 256]⟩
abbrev S50000x1 : Shape := ⟨2, ![50000, 1]⟩
abbrev S128x128 : Shape := ⟨2, ![128, 128]⟩
abbrev S1x128 : Shape := ⟨2, ![1, 128]⟩
abbrev S1x12 : Shape := ⟨2, ![1, 12]⟩

abbrev nBuf : Space → Nat
  | .hbm => 265
  | .vmem => 116
  | .smem => 0
  | _ => 0

abbrev hbmTy0_0 (i : Nat) : BufTy := match i % 128 with
  | 0 => ⟨S50000x32, .f32⟩
  | 1 => ⟨S2x300000, .i32⟩
  | 2 => ⟨S50000, .i32⟩
  | 3 => ⟨S300000x16, .f32⟩
  | 4 => ⟨S32x256, .f32⟩
  | 5 => ⟨S256, .f32⟩
  | 6 => ⟨S16x256, .f32⟩
  | 7 => ⟨S256, .f32⟩
  | 8 => ⟨S4x256x256, .f32⟩
  | 9 => ⟨S4x256, .f32⟩
  | 10 => ⟨S4x256x256, .f32⟩
  | 11 => ⟨S4x256, .f32⟩
  | 12 => ⟨S4x256, .f32⟩
  | 13 => ⟨S4x256, .f32⟩
  | 14 => ⟨S256x128, .f32⟩
  | 15 => ⟨S128, .f32⟩
  | 16 => ⟨S128x12, .f32⟩
  | 17 => ⟨S12, .f32⟩
  | 18 => ⟨S1x300000, .i32⟩
  | 19 => ⟨S300000, .i32⟩
  | 20 => ⟨S1x300000, .i32⟩
  | 21 => ⟨S300000, .i32⟩
  | 22 => ⟨S1x256, .f32⟩
  | 23 => ⟨S50000x256, .f32⟩
  | 24 => ⟨S1x256, .f32⟩
  | 25 => ⟨S300000x256, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S1, .i32⟩
  | 35 => ⟨S_, .i32⟩
  | 36 => ⟨S300000x1, .i32⟩
  | 37 => ⟨S300000x1, .i1⟩
  | 38 => ⟨S1x1, .i32⟩
  | 39 => ⟨S300000x1, .i32⟩
  | 40 => ⟨S300000x1, .i1⟩
  | 41 => ⟨S300000x1, .i1⟩
  | 42 => ⟨S_, .i1⟩
  | 43 => ⟨S300000, .i1⟩
  | 44 => ⟨S300000x256, .f32⟩
  | 45 => ⟨S300000x256, .i1⟩
  | 46 => ⟨S_, .f32⟩
  | 47 => ⟨S300000x256, .f32⟩
  | 48 => ⟨S300000x256, .f32⟩
  | 49 => ⟨S300000x256, .f32⟩
  | 50 => ⟨S_, .f32⟩
  | 51 => ⟨S50000x256, .f32⟩
  | 52 => ⟨S300000x1, .i32⟩
  | 53 => ⟨S50000x256, .f32⟩
  | 54 => ⟨S1x256x256, .f32⟩
  | 55 => ⟨S256x256, .f32⟩
  | 56 => ⟨S1x256, .f32⟩
  | 57 => ⟨S256, .f32⟩
  | 58 => ⟨S1x256x256, .f32⟩
  | 59 => ⟨S256x256, .f32⟩
  | 60 => ⟨S1x256, .f32⟩
  | 61 => ⟨S256, .f32⟩
  | 62 => ⟨S1x256, .f32⟩
  | 63 => ⟨S1x256, .f32⟩
  | 64 => ⟨S50000x256, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S1x256, .f32⟩
  | 74 => ⟨S1x256, .f32⟩
  | 75 => ⟨S1x256, .f32⟩
  | 76 => ⟨S256, .f32⟩
  | 77 => ⟨S1x256, .f32⟩
  | 78 => ⟨S256, .f32⟩
  | 79 => ⟨S1x256, .f32⟩
  | 80 => ⟨S1x256, .f32⟩
  | 81 => ⟨S50000x256, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S1, .i32⟩
  | 91 => ⟨S_, .i32⟩
  | 92 => ⟨S300000x1, .i32⟩
  | 93 => ⟨S300000x1, .i1⟩
  | 94 => ⟨S1x1, .i32⟩
  | 95 => ⟨S300000x1, .i32⟩
  | 96 => ⟨S300000x1, .i1⟩
  | 97 => ⟨S300000x1, .i1⟩
  | 98 => ⟨S_, .i1⟩
  | 99 => ⟨S300000, .i1⟩
  | 100 => ⟨S300000x256, .f32⟩
  | 101 => ⟨S300000x256, .i1⟩
  | 102 => ⟨S_, .f32⟩
  | 103 => ⟨S300000x256, .f32⟩
  | 104 => ⟨S300000x256, .f32⟩
  | 105 => ⟨S300000x256, .f32⟩
  | 106 => ⟨S_, .f32⟩
  | 107 => ⟨S50000x256, .f32⟩
  | 108 => ⟨S300000x1, .i32⟩
  | 109 => ⟨S50000x256, .f32⟩
  | 110 => ⟨S1x256x256, .f32⟩
  | 111 => ⟨S256x256, .f32⟩
  | 112 => ⟨S1x256, .f32⟩
  | 113 => ⟨S256, .f32⟩
  | 114 => ⟨S1x256x256, .f32⟩
  | 115 => ⟨S256x256, .f32⟩
  | 116 => ⟨S1x256, .f32⟩
  | 117 => ⟨S256, .f32⟩
  | 118 => ⟨S1x256, .f32⟩
  | 119 => ⟨S1x256, .f32⟩
  | 120 => ⟨S50000x256, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S_, .f32⟩
  | 127 => ⟨S1x256, .f32⟩
  | _ => ⟨S50000x32, .f32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S256, .f32⟩
  | 5 => ⟨S1x256, .f32⟩
  | 6 => ⟨S256, .f32⟩
  | 7 => ⟨S1x256, .f32⟩
  | 8 => ⟨S1x256, .f32⟩
  | 9 => ⟨S50000x256, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S1, .i32⟩
  | 19 => ⟨S_, .i32⟩
  | 20 => ⟨S300000x1, .i32⟩
  | 21 => ⟨S300000x1, .i1⟩
  | 22 => ⟨S1x1, .i32⟩
  | 23 => ⟨S300000x1, .i32⟩
  | 24 => ⟨S300000x1, .i1⟩
  | 25 => ⟨S300000x1, .i1⟩
  | 26 => ⟨S_, .i1⟩
  | 27 => ⟨S300000, .i1⟩
  | 28 => ⟨S300000x256, .f32⟩
  | 29 => ⟨S300000x256, .i1⟩
  | 30 => ⟨S_, .f32⟩
  | 31 => ⟨S300000x256, .f32⟩
  | 32 => ⟨S300000x256, .f32⟩
  | 33 => ⟨S300000x256, .f32⟩
  | 34 => ⟨S_, .f32⟩
  | 35 => ⟨S50000x256, .f32⟩
  | 36 => ⟨S300000x1, .i32⟩
  | 37 => ⟨S50000x256, .f32⟩
  | 38 => ⟨S1x256x256, .f32⟩
  | 39 => ⟨S256x256, .f32⟩
  | 40 => ⟨S1x256, .f32⟩
  | 41 => ⟨S256, .f32⟩
  | 42 => ⟨S1x256x256, .f32⟩
  | 43 => ⟨S256x256, .f32⟩
  | 44 => ⟨S1x256, .f32⟩
  | 45 => ⟨S256, .f32⟩
  | 46 => ⟨S1x256, .f32⟩
  | 47 => ⟨S1x256, .f32⟩
  | 48 => ⟨S50000x256, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S_, .f32⟩
  | 55 => ⟨S1x256, .f32⟩
  | 56 => ⟨S1x256, .f32⟩
  | 57 => ⟨S1x256, .f32⟩
  | 58 => ⟨S1x256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S1x256, .f32⟩
  | 65 => ⟨S50000x256, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S1, .i32⟩
  | 75 => ⟨S_, .i32⟩
  | 76 => ⟨S300000x1, .i32⟩
  | 77 => ⟨S300000x1, .i1⟩
  | 78 => ⟨S1x1, .i32⟩
  | 79 => ⟨S300000x1, .i32⟩
  | 80 => ⟨S300000x1, .i1⟩
  | 81 => ⟨S300000x1, .i1⟩
  | 82 => ⟨S_, .i1⟩
  | 83 => ⟨S300000, .i1⟩
  | 84 => ⟨S300000x256, .f32⟩
  | 85 => ⟨S300000x256, .i1⟩
  | 86 => ⟨S_, .f32⟩
  | 87 => ⟨S300000x256, .f32⟩
  | 88 => ⟨S300000x256, .f32⟩
  | 89 => ⟨S300000x256, .f32⟩
  | 90 => ⟨S_, .f32⟩
  | 91 => ⟨S50000x256, .f32⟩
  | 92 => ⟨S300000x1, .i32⟩
  | 93 => ⟨S50000x256, .f32⟩
  | 94 => ⟨S1x256x256, .f32⟩
  | 95 => ⟨S256x256, .f32⟩
  | 96 => ⟨S1x256, .f32⟩
  | 97 => ⟨S256, .f32⟩
  | 98 => ⟨S1x256x256, .f32⟩
  | 99 => ⟨S256x256, .f32⟩
  | 100 => ⟨S1x256, .f32⟩
  | 101 => ⟨S256, .f32⟩
  | 102 => ⟨S1x256, .f32⟩
  | 103 => ⟨S1x256, .f32⟩
  | 104 => ⟨S50000x256, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S_, .f32⟩
  | 111 => ⟨S1x256, .f32⟩
  | 112 => ⟨S1x256, .f32⟩
  | 113 => ⟨S1x256, .f32⟩
  | 114 => ⟨S1x256, .f32⟩
  | 115 => ⟨S1x256, .f32⟩
  | 116 => ⟨S256, .f32⟩
  | 117 => ⟨S1x256, .f32⟩
  | 118 => ⟨S256, .f32⟩
  | 119 => ⟨S1x256, .f32⟩
  | 120 => ⟨S1x256, .f32⟩
  | 121 => ⟨S50000x256, .f32⟩
  | 122 => ⟨S_, .f32⟩
  | 123 => ⟨S128x256, .f32⟩
  | 124 => ⟨S50000x1, .i32⟩
  | 125 => ⟨S128x256, .f32⟩
  | 126 => ⟨S128x128, .f32⟩
  | 127 => ⟨S1x128, .f32⟩
  | _ => ⟨S50000x32, .f32⟩

abbrev hbmTy0_2 (i : Nat) : BufTy := match i % 128 with
  | 0 => ⟨S128x128, .f32⟩
  | 1 => ⟨S128x128, .f32⟩
  | 2 => ⟨S_, .f32⟩
  | 3 => ⟨S128x128, .f32⟩
  | 4 => ⟨S128x128, .f32⟩
  | 5 => ⟨S128x12, .f32⟩
  | 6 => ⟨S1x12, .f32⟩
  | 7 => ⟨S128x12, .f32⟩
  | 8 => ⟨S128x12, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S4000x16, .f32⟩
  | .local _ .vmem, ⟨7, _⟩ => ⟨S4000x16, .f32⟩
  | .local _ .vmem, ⟨8, _⟩ => ⟨S16x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S4000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S4000x256, .f32⟩
  | .local _ .vmem, ⟨39, _⟩ => ⟨S4000x256, .f32⟩
  | .local _ .vmem, ⟨40, _⟩ => ⟨S4000x256, .f32⟩
  | .local _ .vmem, ⟨41, _⟩ => ⟨S4000x256, .f32⟩
  | .local _ .vmem, ⟨42, _⟩ => ⟨S4000x256, .f32⟩
  | .local _ .vmem, ⟨43, _⟩ => ⟨S4000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S1x256, .f32⟩
  | .local _ .vmem, ⟨50, _⟩ => ⟨S256x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S1x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S2000x256, .f32⟩
  | .local _ .vmem, ⟨63, _⟩ => ⟨S2000x256, .f32⟩
  | .local _ .vmem, ⟨64, _⟩ => ⟨S4000x256, .f32⟩
  | .local _ .vmem, ⟨65, _⟩ => ⟨S4000x256, .f32⟩
  | .local _ .vmem, ⟨66, _⟩ => ⟨S4000x256, .f32⟩
  | .local _ .vmem, ⟨67, _⟩ => ⟨S4000x256, .f32⟩
  | .local _ .vmem, ⟨68, _⟩ => ⟨S4000x256, .f32⟩
  | .local _ .vmem, ⟨69, _⟩ => ⟨S4000x256, .f32⟩
  | .local _ .vmem, ⟨70, _⟩ => ⟨S2000x256, .f32⟩
  | .local _ .vmem, ⟨71, _⟩ => ⟨S2000x256, .f32⟩
  | .local _ .vmem, ⟨72, _⟩ => ⟨S2000x256, .f32⟩
  | .local _ .vmem, ⟨73, _⟩ => ⟨S2000x256, .f32⟩
  | .local _ .vmem, ⟨74, _⟩ => ⟨S256x256, .f32⟩
  | .local _ .vmem, ⟨75, _⟩ => ⟨S1x256, .f32⟩
  | .local _ .vmem, ⟨76, _⟩ => ⟨S256x256, .f32⟩
  | .local _ .vmem, ⟨77, _⟩ => ⟨S1x256, .f32⟩
  | .local _ .vmem, ⟨78, _⟩ => ⟨S2000x256, .f32⟩
  | .local _ .vmem, ⟨79, _⟩ => ⟨S2000x256, .f32⟩
  | .local _ .vmem, ⟨80, _⟩ => ⟨S1x256, .f32⟩
  | .local _ .vmem, ⟨81, _⟩ => ⟨S1x256, .f32⟩
  | .local _ .vmem, ⟨82, _⟩ => ⟨S2000x256, .f32⟩
  | .local _ .vmem, ⟨83, _⟩ => ⟨S2000x256, .f32⟩
  | .local _ .vmem, ⟨84, _⟩ => ⟨S1x256, .f32⟩
  | .local _ .vmem, ⟨85, _⟩ => ⟨S1x256, .f32⟩
  | .local _ .vmem, ⟨86, _⟩ => ⟨S1x256, .f32⟩
  | .local _ .vmem, ⟨87, _⟩ => ⟨S1x256, .f32⟩
  | .local _ .vmem, ⟨88, _⟩ => ⟨S2000x256, .f32⟩
  | .local _ .vmem, ⟨89, _⟩ => ⟨S2000x256, .f32⟩
  | .local _ .vmem, ⟨90, _⟩ => ⟨S4000x256, .f32⟩
  | .local _ .vmem, ⟨91, _⟩ => ⟨S4000x256, .f32⟩
  | .local _ .vmem, ⟨92, _⟩ => ⟨S4000x256, .f32⟩
  | .local _ .vmem, ⟨93, _⟩ => ⟨S4000x256, .f32⟩
  | .local _ .vmem, ⟨94, _⟩ => ⟨S4000x256, .f32⟩
  | .local _ .vmem, ⟨95, _⟩ => ⟨S4000x256, .f32⟩
  | .local _ .vmem, ⟨96, _⟩ => ⟨S2000x256, .f32⟩
  | .local _ .vmem, ⟨97, _⟩ => ⟨S2000x256, .f32⟩
  | .local _ .vmem, ⟨98, _⟩ => ⟨S2000x256, .f32⟩
  | .local _ .vmem, ⟨99, _⟩ => ⟨S2000x256, .f32⟩
  | .local _ .vmem, ⟨100, _⟩ => ⟨S256x256, .f32⟩
  | .local _ .vmem, ⟨101, _⟩ => ⟨S1x256, .f32⟩
  | .local _ .vmem, ⟨102, _⟩ => ⟨S256x256, .f32⟩
  | .local _ .vmem, ⟨103, _⟩ => ⟨S1x256, .f32⟩
  | .local _ .vmem, ⟨104, _⟩ => ⟨S2000x256, .f32⟩
  | .local _ .vmem, ⟨105, _⟩ => ⟨S2000x256, .f32⟩
  | .local _ .vmem, ⟨106, _⟩ => ⟨S1x256, .f32⟩
  | .local _ .vmem, ⟨107, _⟩ => ⟨S1x256, .f32⟩
  | .local _ .vmem, ⟨108, _⟩ => ⟨S2000x256, .f32⟩
  | .local _ .vmem, ⟨109, _⟩ => ⟨S2000x256, .f32⟩
  | .local _ .vmem, ⟨110, _⟩ => ⟨S1x256, .f32⟩
  | .local _ .vmem, ⟨111, _⟩ => ⟨S1x256, .f32⟩
  | .local _ .vmem, ⟨112, _⟩ => ⟨S1x256, .f32⟩
  | .local _ .vmem, ⟨113, _⟩ => ⟨S1x256, .f32⟩
  | .local _ .vmem, ⟨114, _⟩ => ⟨S2000x256, .f32⟩
  | .local _ .vmem, ⟨115, _⟩ => ⟨S2000x256, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23_0 : Ref sig .tc := ⟨.hbm, 64, rfl⟩
abbrev main_v23_1 : Ref sig .tc := ⟨.hbm, 65, rfl⟩
abbrev main_v23_2 : Ref sig .tc := ⟨.hbm, 66, rfl⟩
abbrev main_cst_0 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v37 : Ref sig .tc := ⟨.hbm, 104, rfl⟩
abbrev main_v38 : Ref sig .tc := ⟨.hbm, 105, rfl⟩
abbrev main_cst_2 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52_0 : Ref sig .tc := ⟨.hbm, 120, rfl⟩
abbrev main_v52_1 : Ref sig .tc := ⟨.hbm, 121, rfl⟩
abbrev main_v52_2 : Ref sig .tc := ⟨.hbm, 122, rfl⟩
abbrev main_cst_3 : Ref sig .tc := ⟨.hbm, 123, rfl⟩
abbrev main_v53 : Ref sig .tc := ⟨.hbm, 124, rfl⟩
abbrev main_v54 : Ref sig .tc := ⟨.hbm, 125, rfl⟩
abbrev main_cst_4 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_c_1 : Ref sig .tc := ⟨.hbm, 146, rfl⟩
abbrev main_call2_c_2 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_c_3 : Ref sig .tc := ⟨.hbm, 154, rfl⟩
abbrev main_call2_v12 : Ref sig .tc := ⟨.hbm, 155, rfl⟩
abbrev main_call2_v13 : Ref sig .tc := ⟨.hbm, 156, rfl⟩
abbrev main_call2_v14 : Ref sig .tc := ⟨.hbm, 157, rfl⟩
abbrev main_call2_cst : Ref sig .tc := ⟨.hbm, 158, rfl⟩
abbrev main_call2_v15 : Ref sig .tc := ⟨.hbm, 159, rfl⟩
abbrev main_v66 : Ref sig .tc := ⟨.hbm, 160, rfl⟩
abbrev main_v67 : Ref sig .tc := ⟨.hbm, 161, rfl⟩
abbrev main_cst_5 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81_0 : Ref sig .tc := ⟨.hbm, 176, rfl⟩
abbrev main_v81_1 : Ref sig .tc := ⟨.hbm, 177, rfl⟩
abbrev main_v81_2 : Ref sig .tc := ⟨.hbm, 178, rfl⟩
abbrev main_cst_6 : Ref sig .tc := ⟨.hbm, 179, rfl⟩
abbrev main_v82 : Ref sig .tc := ⟨.hbm, 180, rfl⟩
abbrev main_v83 : Ref sig .tc := ⟨.hbm, 181, rfl⟩
abbrev main_cst_7 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_call3_c : Ref sig .tc := ⟨.hbm, 194, rfl⟩
abbrev main_call3_v0 : Ref sig .tc := ⟨.hbm, 195, rfl⟩
abbrev main_call3_v1 : Ref sig .tc := ⟨.hbm, 196, rfl⟩
abbrev main_call3_c_0 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_v5 : Ref sig .tc := ⟨.hbm, 201, rfl⟩
abbrev main_call3_c_1 : Ref sig .tc := ⟨.hbm, 202, rfl⟩
abbrev main_call3_c_2 : Ref sig .tc := ⟨.hbm, 203, rfl⟩
abbrev main_call3_v6 : Ref sig .tc := ⟨.hbm, 204, rfl⟩
abbrev main_call3_v7 : Ref sig .tc := ⟨.hbm, 205, rfl⟩
abbrev main_call3_v8 : Ref sig .tc := ⟨.hbm, 206, rfl⟩
abbrev main_call3_v9 : Ref sig .tc := ⟨.hbm, 207, rfl⟩
abbrev main_call3_v10 : Ref sig .tc := ⟨.hbm, 208, rfl⟩
abbrev main_call3_v11 : Ref sig .tc := ⟨.hbm, 209, rfl⟩
abbrev main_call3_c_3 : Ref sig .tc := ⟨.hbm, 210, rfl⟩
abbrev main_call3_v12 : Ref sig .tc := ⟨.hbm, 211, rfl⟩
abbrev main_call3_v13 : Ref sig .tc := ⟨.hbm, 212, rfl⟩
abbrev main_call3_v14 : Ref sig .tc := ⟨.hbm, 213, rfl⟩
abbrev main_call3_cst : Ref sig .tc := ⟨.hbm, 214, rfl⟩
abbrev main_call3_v15 : Ref sig .tc := ⟨.hbm, 215, rfl⟩
abbrev main_v95 : Ref sig .tc := ⟨.hbm, 216, rfl⟩
abbrev main_v96 : Ref sig .tc := ⟨.hbm, 217, rfl⟩
abbrev main_cst_8 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_v110_0 : Ref sig .tc := ⟨.hbm, 232, rfl⟩
abbrev main_v110_1 : Ref sig .tc := ⟨.hbm, 233, rfl⟩
abbrev main_v110_2 : Ref sig .tc := ⟨.hbm, 234, rfl⟩
abbrev main_cst_9 : Ref sig .tc := ⟨.hbm, 235, rfl⟩
abbrev main_v111 : Ref sig .tc := ⟨.hbm, 236, rfl⟩
abbrev main_v112 : Ref sig .tc := ⟨.hbm, 237, rfl⟩
abbrev main_cst_10 : Ref sig .tc := ⟨.hbm, 238, rfl⟩
abbrev main_v113 : Ref sig .tc := ⟨.hbm, 239, rfl⟩
abbrev main_v114 : Ref sig .tc := ⟨.hbm, 240, rfl⟩
abbrev main_v115 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_cst_11 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_call4_cst : Ref sig .tc := ⟨.hbm, 258, rfl⟩
abbrev main_call4_v0 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg8_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg8_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg6_1 : Ref sig .tc := ⟨.vmem, 79, rfl⟩
abbrev cc9_stg7_0 : Ref sig .tc := ⟨.vmem, 80, rfl⟩
abbrev cc9_stg8_0 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg5_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg1_1 : Ref sig .tc := ⟨.vmem, 93, rfl⟩
abbrev cc11_stg2_0 : Ref sig .tc := ⟨.vmem, 94, rfl⟩
abbrev cc11_stg2_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg5_0 : Ref sig .tc := ⟨.vmem, 103, rfl⟩
abbrev cc12_stg6_0 : Ref sig .tc := ⟨.vmem, 104, rfl⟩
abbrev cc12_stg6_1 : Ref sig .tc := ⟨.vmem, 105, rfl⟩
abbrev cc12_stg7_0 : Ref sig .tc := ⟨.vmem, 106, rfl⟩
abbrev cc12_stg8_0 : Ref sig .tc := ⟨.vmem, 107, rfl⟩
abbrev cc13_stg0_0 : Ref sig .tc := ⟨.vmem, 108, rfl⟩
abbrev cc13_stg0_1 : Ref sig .tc := ⟨.vmem, 109, rfl⟩
abbrev cc13_stg1_0 : Ref sig .tc := ⟨.vmem, 110, rfl⟩
abbrev cc13_stg2_0 : Ref sig .tc := ⟨.vmem, 111, rfl⟩
abbrev cc13_stg3_0 : Ref sig .tc := ⟨.vmem, 112, rfl⟩
abbrev cc13_stg4_0 : Ref sig .tc := ⟨.vmem, 113, rfl⟩
abbrev cc13_stg5_0 : Ref sig .tc := ⟨.vmem, 114, rfl⟩
abbrev cc13_stg5_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem8_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc6_sem7_0 : DmaSem sig := 54
abbrev cc6_sem8_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79
abbrev cc9_sem7_0 : DmaSem sig := 80
abbrev cc9_sem8_0 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem5_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem2_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem3_0 : DmaSem sig := 101
abbrev cc12_sem4_0 : DmaSem sig := 102
abbrev cc12_sem5_0 : DmaSem sig := 103
abbrev cc12_sem6_0 : DmaSem sig := 104
abbrev cc12_sem6_1 : DmaSem sig := 105
abbrev cc12_sem7_0 : DmaSem sig := 106
abbrev cc12_sem8_0 : DmaSem sig := 107
abbrev cc13_sem0_0 : DmaSem sig := 108
abbrev cc13_sem0_1 : DmaSem sig := 109
abbrev cc13_sem1_0 : DmaSem sig := 110
abbrev cc13_sem2_0 : DmaSem sig := 111
abbrev cc13_sem3_0 : DmaSem sig := 112
abbrev cc13_sem4_0 : DmaSem sig := 113
abbrev cc13_sem5_0 : DmaSem sig := 114
abbrev cc13_sem5_1 : DmaSem sig := 115

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![75], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x256 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![75], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 1 → Memref sig .tc .vmem S1x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x256 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![75], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4000x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S256x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S2000x256 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 1 → Memref sig .tc .vmem S1x256 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x256 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x256 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  shapeCasts_S256_S1x256 : S256.ShapeCasts S1x256
  inb_S2000x32_S2000x32_0_0 : ∀ a, (![0, 0] : Fin 2 → Nat) a + S2000x32.size a ≤ S2000x32.size a
  h_S2000x32 : 0 < S2000x32.numel
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S4000x16_S4000x16_0_0 : ∀ a, (![0, 0] : Fin 2 → Nat) a + S4000x16.size a ≤ S4000x16.size a
  h_S4000x16 : 0 < S4000x16.numel
  inb_S16x256_S16x256_0_0 : ∀ a, (![0, 0] : Fin 2 → Nat) a + S16x256.size a ≤ S16x256.size a
  h_S16x256 : 0 < S16x256.numel
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  shapeCasts_S4000x256_S4000x256 : S4000x256.ShapeCasts S4000x256
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S256 : S2000x256.Reduces [0] S256
  bcast_S_S1x256 : S_.BroadcastsInDim S1x256 (![] : Fin 0 → Fin S1x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S12_S1x12_1 : S12.BroadcastsInDim S1x12 (![1] : Fin 1 → Fin S1x12.rank)
  bcast_S1x12_S128x12_0_1 : S1x12.BroadcastsInDim S128x12 (![0, 1] : Fin 2 → Fin S128x12.rank)
  dot_S2000x32_S32x256_S2000x256_1_0_0_1_n_n_wf : DotDims.WF S2000x32 S32x256 S2000x256 [1] [0] [0] [1] [] []
  dot_S4000x16_S16x256_S4000x256_1_0_0_1_n_n_wf : DotDims.WF S4000x16 S16x256 S4000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  scatter_S128x256_S50000x1_S50000x256_1_0_0_1_wf : ScatterDims.WF S128x256 S50000x1 S50000x256 [1] [0] [0] 1
  dot_S128x256_S256x128_S128x128_1_0_0_1_n_n_wf : DotDims.WF S128x256 S256x128 S128x128 [1] [0] [0] [1] [] []
  dot_S128x128_S128x12_S128x12_1_0_0_1_n_n_wf : DotDims.WF S128x128 S128x12 S128x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S300000x16.size a
  hwx1_0 : ∀ i : grid1.Coords, EltTy.bits .f32 = 32 ∨ (Rect.block (s := S300000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S16x256.size a
  hwx1_1 : ∀ i : grid1.Coords, EltTy.bits .f32 = 32 ∨ (Rect.block (s := S16x256) S16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S300000x256.size a
  hwx1_3 : ∀ i : grid1.Coords, EltTy.bits .f32 = 32 ∨ (Rect.block (s := S300000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S300000x256.size a
  hwx2_0 : ∀ i : grid2.Coords, EltTy.bits .f32 = 32 ∨ (Rect.block (s := S300000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S300000x256.size a
  hwx2_1 : ∀ i : grid2.Coords, EltTy.bits .f32 = 32 ∨ (Rect.block (s := S300000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S300000x256.size a
  hwx2_2 : ∀ i : grid2.Coords, EltTy.bits .f32 = 32 ∨ (Rect.block (s := S300000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S300000x256.size a
  hwx5_0 : ∀ i : grid5.Coords, EltTy.bits .f32 = 32 ∨ (Rect.block (s := S300000x256) S4000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x256.size a ≤ S300000x256.size a
  hwx5_1 : ∀ i : grid5.Coords, EltTy.bits .f32 = 32 ∨ (Rect.block (s := S300000x256) S4000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x256.size a ≤ S300000x256.size a
  hwx5_2 : ∀ i : grid5.Coords, EltTy.bits .f32 = 32 ∨ (Rect.block (s := S300000x256) S4000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S50000x256.size a
  hwx6_6 : ∀ i : grid6.Coords, EltTy.bits .f32 = 32 ∨ (Rect.block (s := S50000x256) S2000x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x256.size a ≤ S1x256.size a
  hwx6_8 : ∀ i : grid6.Coords, EltTy.bits .f32 = 32 ∨ (Rect.block (s := S1x256) S1x256.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S50000x256.size a
  hwx7_5 : ∀ i : grid7.Coords, EltTy.bits .f32 = 32 ∨ (Rect.block (s := S50000x256) S2000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x256.size a ≤ S300000x256.size a
  hwx8_0 : ∀ i : grid8.Coords, EltTy.bits .f32 = 32 ∨ (Rect.block (s := S300000x256) S4000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x256.size a ≤ S300000x256.size a
  hwx8_1 : ∀ i : grid8.Coords, EltTy.bits .f32 = 32 ∨ (Rect.block (s := S300000x256) S4000x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x256.size a ≤ S300000x256.size a
  hwx8_2 : ∀ i : grid8.Coords, EltTy.bits .f32 = 32 ∨ (Rect.block (s := S300000x256) S4000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S50000x256.size a
  hwx9_1 : ∀ i : grid9.Coords, EltTy.bits .f32 = 32 ∨ (Rect.block (s := S50000x256) S2000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256x256.size a ≤ S256x256.size a
  hwx9_4 : ∀ i : grid9.Coords, EltTy.bits .f32 = 32 ∨ (Rect.block (s := S256x256) S256x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x256.size a ≤ S1x256.size a
  hwx9_5 : ∀ i : grid9.Coords, EltTy.bits .f32 = 32 ∨ (Rect.block (s := S1x256) S1x256.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x256.size a ≤ S50000x256.size a
  hwx9_6 : ∀ i : grid9.Coords, EltTy.bits .f32 = 32 ∨ (Rect.block (s := S50000x256) S2000x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x256.size a ≤ S1x256.size a
  hwx9_7 : ∀ i : grid9.Coords, EltTy.bits .f32 = 32 ∨ (Rect.block (s := S1x256) S1x256.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x256.size a ≤ S1x256.size a
  hwx9_8 : ∀ i : grid9.Coords, EltTy.bits .f32 = 32 ∨ (Rect.block (s := S1x256) S1x256.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x256.size a ≤ S50000x256.size a
  hwx10_5 : ∀ i : grid10.Coords, EltTy.bits .f32 = 32 ∨ (Rect.block (s := S50000x256) S2000x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x256.size a ≤ S300000x256.size a
  hwx11_0 : ∀ i : grid11.Coords, EltTy.bits .f32 = 32 ∨ (Rect.block (s := S300000x256) S4000x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x256.size a ≤ S300000x256.size a
  hwx11_1 : ∀ i : grid11.Coords, EltTy.bits .f32 = 32 ∨ (Rect.block (s := S300000x256) S4000x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x256.size a ≤ S300000x256.size a
  hwx11_2 : ∀ i : grid11.Coords, EltTy.bits .f32 = 32 ∨ (Rect.block (s := S300000x256) S4000x256.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x256.size a ≤ S256x256.size a
  hwx12_2 : ∀ i : grid12.Coords, EltTy.bits .f32 = 32 ∨ (Rect.block (s := S256x256) S256x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S256x256.size a ≤ S256x256.size a
  hwx12_4 : ∀ i : grid12.Coords, EltTy.bits .f32 = 32 ∨ (Rect.block (s := S256x256) S256x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x256.size a ≤ S50000x256.size a
  hwx12_6 : ∀ i : grid12.Coords, EltTy.bits .f32 = 32 ∨ (Rect.block (s := S50000x256) S2000x256.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x256.size a ≤ S1x256.size a
  hwx12_7 : ∀ i : grid12.Coords, EltTy.bits .f32 = 32 ∨ (Rect.block (s := S1x256) S1x256.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x256.size a ≤ S1x256.size a
  hwx12_8 : ∀ i : grid12.Coords, EltTy.bits .f32 = 32 ∨ (Rect.block (s := S1x256) S1x256.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x256.size a ≤ S50000x256.size a
  hwx13_5 : ∀ i : grid13.Coords, EltTy.bits .f32 = 32 ∨ (Rect.block (s := S50000x256) S2000x256.size (cc13_transform_5 i) (hinb13_5 i)).WholeWords (EltTy.packing .f32)

variable [Facts₀]

def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S4000x16_S16x256_S4000x256_1_0_0_1_n_n : DotDims S4000x16 S16x256 S4000x256 where
  lhsContracting := [1]
  rhsContracting := [0]
  lhsNonContracting := [0]
  rhsNonContracting := [1]
  lhsBatch := []
  rhsBatch := []
  wf := dot_S4000x16_S16x256_S4000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x12_S128x12_1_0_0_1_n_n : DotDims S128x128 S128x12 S128x12 where
  lhsContracting := [1]
  rhsContracting := [0]
  lhsNonContracting := [0]
  rhsNonContracting := [1]
  lhsBatch := []
  rhsBatch := []
  wf := dot_S128x128_S128x12_S128x12_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v23_0) S2000x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v23_1) S1x256.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v23_2) S1x256.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v23_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v37) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S4000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S4000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v36) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v43) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v50) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v47) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v51) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v52_0) S2000x256.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v52_1) S1x256.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v52_2) S1x256.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v52_0) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v54) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v58) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v63) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v64) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v65) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v66) S4000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S4000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v67) S4000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v65) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v70) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v72) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v79) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v76) S256x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v80) S1x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v81_0) S2000x256.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v81_1) S1x256.size cc9_transform_7 reads9_7 true true 1 stage9_7 sem9_7
    hrank9 hreads9_7 hinb9_7 nbuf9_7 (Memref.isWhole_whole _) hwx9_7 hstage9_7

abbrev win9_8 : Pipeline.Window sig grid9 :=
  Pipeline.Window.ofSpec (Memref.whole main_v81_2) S1x256.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v81_0) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v83) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v87) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v92) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v93) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v94) S2000x256.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v95) S4000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v7) S4000x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v96) S4000x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v94) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v99) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v101) S256x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v108) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v105) S256x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v109) S1x256.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v110_0) S2000x256.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v110_1) S1x256.size cc12_transform_7 reads12_7 true true 1 stage12_7 sem12_7
    hrank12 hreads12_7 hinb12_7 nbuf12_7 (Memref.isWhole_whole _) hwx12_7 hstage12_7

abbrev win12_8 : Pipeline.Window sig grid12 :=
  Pipeline.Window.ofSpec (Memref.whole main_v110_2) S1x256.size cc12_transform_8 reads12_8 true true 1 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v110_0) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v112) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v116) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v121) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v122) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v123) S2000x256.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S50000x32 : Shape := ⟨2, ![50000, 32]⟩
abbrev S2x300000 : Shape := ⟨2, ![2, 300000]⟩
abbrev S50000 : Shape := ⟨1, ![50000]⟩
abbrev S300000x16 : Shape := ⟨2, ![300000, 16]⟩
abbrev S32x256 : Shape := ⟨2, ![32, 256]⟩
abbrev S256 : Shape := ⟨1, ![256]⟩
abbrev S16x256 : Shape := ⟨2, ![16, 256]⟩
abbrev S4x256x256 : Shape := ⟨3, ![4, 256, 256]⟩
abbrev S4x256 : Shape := ⟨2, ![4, 256]⟩
abbrev S256x128 : Shape := ⟨2, ![256, 128]⟩
abbrev S128 : Shape := ⟨1, ![128]⟩
abbrev S128x12 : Shape := ⟨2, ![128, 12]⟩
abbrev S12 : Shape := ⟨1, ![12]⟩
abbrev S1x300000 : Shape := ⟨2, ![1, 300000]⟩
abbrev S300000 : Shape := ⟨1, ![300000]⟩
abbrev S50000x256 : Shape := ⟨2, ![50000, 256]⟩
abbrev S1x256 : Shape := ⟨2, ![1, 256]⟩
abbrev S300000x256 : Shape := ⟨2, ![300000, 256]⟩
abbrev S_ : Shape := ⟨0, ![]⟩
abbrev S300000x1 : Shape := ⟨2, ![300000, 1]⟩
abbrev S1x256x256 : Shape := ⟨3, ![1, 256, 256]⟩
abbrev S256x256 : Shape := ⟨2, ![256, 256]⟩
abbrev S128x256 : Shape := ⟨2, ![128, 256]⟩
abbrev S50000x1 : Shape := ⟨2, ![50000, 1]⟩
abbrev S128x128 : Shape := ⟨2, ![128, 128]⟩
abbrev S1x128 : Shape := ⟨2, ![1, 128]⟩
abbrev S1x12 : Shape := ⟨2, ![1, 12]⟩

abbrev nBuf : Space → Nat
  | .hbm => 397
  | .vmem => 0
  | .smem => 0
  | _ => 0

abbrev hbmTy0_0 (i : Nat) : BufTy := match i % 128 with
  | 0 => ⟨S50000x32, .f32⟩
  | 1 => ⟨S2x300000, .i32⟩
  | 2 => ⟨S50000, .i32⟩
  | 3 => ⟨S300000x16, .f32⟩
  | 4 => ⟨S32x256, .f32⟩
  | 5 => ⟨S256, .f32⟩
  | 6 => ⟨S16x256, .f32⟩
  | 7 => ⟨S256, .f32⟩
  | 8 => ⟨S4x256x256, .f32⟩
  | 9 => ⟨S4x256, .f32⟩
  | 10 => ⟨S4x256x256, .f32⟩
  | 11 => ⟨S4x256, .f32⟩
  | 12 => ⟨S4x256, .f32⟩
  | 13 => ⟨S4x256, .f32⟩
  | 14 => ⟨S256x128, .f32⟩
  | 15 => ⟨S128, .f32⟩
  | 16 => ⟨S128x12, .f32⟩
  | 17 => ⟨S12, .f32⟩
  | 18 => ⟨S1x300000, .i32⟩
  | 19 => ⟨S300000, .i32⟩
  | 20 => ⟨S1x300000, .i32⟩
  | 21 => ⟨S300000, .i32⟩
  | 22 => ⟨S50000x256, .f32⟩
  | 23 => ⟨S1x256, .f32⟩
  | 24 => ⟨S50000x256, .f32⟩
  | 25 => ⟨S50000x256, .f32⟩
  | 26 => ⟨S300000x256, .f32⟩
  | 27 => ⟨S1x256, .f32⟩
  | 28 => ⟨S300000x256, .f32⟩
  | 29 => ⟨S300000x256, .f32⟩
  | 30 => ⟨S_, .i32⟩
  | 31 => ⟨S300000, .i32⟩
  | 32 => ⟨S300000, .i1⟩
  | 33 => ⟨S_, .i32⟩
  | 34 => ⟨S300000, .i32⟩
  | 35 => ⟨S300000, .i32⟩
  | 36 => ⟨S300000, .i32⟩
  | 37 => ⟨S300000x1, .i32⟩
  | 38 => ⟨S300000x256, .f32⟩
  | 39 => ⟨S300000x256, .f32⟩
  | 40 => ⟨S_, .f32⟩
  | 41 => ⟨S300000x256, .f32⟩
  | 42 => ⟨S300000x256, .f32⟩
  | 43 => ⟨S_, .f32⟩
  | 44 => ⟨S50000x256, .f32⟩
  | 45 => ⟨S300000x1, .i32⟩
  | 46 => ⟨S50000x256, .f32⟩
  | 47 => ⟨S50000x256, .f32⟩
  | 48 => ⟨S1x256x256, .f32⟩
  | 49 => ⟨S256x256, .f32⟩
  | 50 => ⟨S50000x256, .f32⟩
  | 51 => ⟨S1x256, .f32⟩
  | 52 => ⟨S256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S1x256x256, .f32⟩
  | 60 => ⟨S256x256, .f32⟩
  | 61 => ⟨S50000x256, .f32⟩
  | 62 => ⟨S1x256, .f32⟩
  | 63 => ⟨S256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S_, .f32⟩
  | 70 => ⟨S256, .f32⟩
  | 71 => ⟨S256, .f32⟩
  | 72 => ⟨S_, .i32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S50000x256, .f32⟩
  | 80 => ⟨S50000x256, .f32⟩
  | 81 => ⟨S50000x256, .f32⟩
  | 82 => ⟨S_, .f32⟩
  | 83 => ⟨S_, .f32⟩
  | 84 => ⟨S_, .f32⟩
  | 85 => ⟨S_, .f32⟩
  | 86 => ⟨S256, .f32⟩
  | 87 => ⟨S256, .f32⟩
  | 88 => ⟨S256, .f32⟩
  | 89 => ⟨S_, .f32⟩
  | 90 => ⟨S_, .i1⟩
  | 91 => ⟨S_, .f32⟩
  | 92 => ⟨S_, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S1x256, .f32⟩
  | 106 => ⟨S256, .f32⟩
  | 107 => ⟨S1x256, .f32⟩
  | 108 => ⟨S50000x256, .f32⟩
  | 109 => ⟨S50000x256, .f32⟩
  | 110 => ⟨S1x256, .f32⟩
  | 111 => ⟨S256, .f32⟩
  | 112 => ⟨S1x256, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x256, .f32⟩
  | 127 => ⟨S300000x256, .f32⟩
  | _ => ⟨S50000x32, .f32⟩

abbrev hbmTy0_1 (i : Nat) : BufTy := match i % 128 with
  | 0 => ⟨S_, .f32⟩
  | 1 => ⟨S300000x256, .f32⟩
  | 2 => ⟨S300000x256, .f32⟩
  | 3 => ⟨S_, .f32⟩
  | 4 => ⟨S50000x256, .f32⟩
  | 5 => ⟨S300000x1, .i32⟩
  | 6 => ⟨S50000x256, .f32⟩
  | 7 => ⟨S50000x256, .f32⟩
  | 8 => ⟨S1x256x256, .f32⟩
  | 9 => ⟨S256x256, .f32⟩
  | 10 => ⟨S50000x256, .f32⟩
  | 11 => ⟨S1x256, .f32⟩
  | 12 => ⟨S256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | 19 => ⟨S1x256x256, .f32⟩
  | 20 => ⟨S256x256, .f32⟩
  | 21 => ⟨S50000x256, .f32⟩
  | 22 => ⟨S1x256, .f32⟩
  | 23 => ⟨S256, .f32⟩
  | 24 => ⟨S1x256, .f32⟩
  | 25 => ⟨S50000x256, .f32⟩
  | 26 => ⟨S50000x256, .f32⟩
  | 27 => ⟨S_, .f32⟩
  | 28 => ⟨S256, .f32⟩
  | 29 => ⟨S_, .f32⟩
  | 30 => ⟨S256, .f32⟩
  | 31 => ⟨S256, .f32⟩
  | 32 => ⟨S_, .i32⟩
  | 33 => ⟨S_, .f32⟩
  | 34 => ⟨S256, .f32⟩
  | 35 => ⟨S1x256, .f32⟩
  | 36 => ⟨S_, .f32⟩
  | 37 => ⟨S1x256, .f32⟩
  | 38 => ⟨S1x256, .f32⟩
  | 39 => ⟨S50000x256, .f32⟩
  | 40 => ⟨S50000x256, .f32⟩
  | 41 => ⟨S50000x256, .f32⟩
  | 42 => ⟨S_, .f32⟩
  | 43 => ⟨S_, .f32⟩
  | 44 => ⟨S_, .f32⟩
  | 45 => ⟨S_, .f32⟩
  | 46 => ⟨S256, .f32⟩
  | 47 => ⟨S256, .f32⟩
  | 48 => ⟨S256, .f32⟩
  | 49 => ⟨S_, .f32⟩
  | 50 => ⟨S_, .i1⟩
  | 51 => ⟨S_, .f32⟩
  | 52 => ⟨S_, .f32⟩
  | 53 => ⟨S256, .f32⟩
  | 54 => ⟨S256, .f32⟩
  | 55 => ⟨S1x256, .f32⟩
  | 56 => ⟨S50000x256, .f32⟩
  | 57 => ⟨S50000x256, .f32⟩
  | 58 => ⟨S_, .f32⟩
  | 59 => ⟨S256, .f32⟩
  | 60 => ⟨S256, .f32⟩
  | 61 => ⟨S256, .f32⟩
  | 62 => ⟨S1x256, .f32⟩
  | 63 => ⟨S50000x256, .f32⟩
  | 64 => ⟨S50000x256, .f32⟩
  | 65 => ⟨S1x256, .f32⟩
  | 66 => ⟨S256, .f32⟩
  | 67 => ⟨S1x256, .f32⟩
  | 68 => ⟨S50000x256, .f32⟩
  | 69 => ⟨S50000x256, .f32⟩
  | 70 => ⟨S1x256, .f32⟩
  | 71 => ⟨S256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x256, .f32⟩
  | 87 => ⟨S300000x256, .f32⟩
  | 88 => ⟨S_, .f32⟩
  | 89 => ⟨S300000x256, .f32⟩
  | 90 => ⟨S300000x256, .f32⟩
  | 91 => ⟨S_, .f32⟩
  | 92 => ⟨S50000x256, .f32⟩
  | 93 => ⟨S300000x1, .i32⟩
  | 94 => ⟨S50000x256, .f32⟩
  | 95 => ⟨S50000x256, .f32⟩
  | 96 => ⟨S1x256x256, .f32⟩
  | 97 => ⟨S256x256, .f32⟩
  | 98 => ⟨S50000x256, .f32⟩
  | 99 => ⟨S1x256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S1x256x256, .f32⟩
  | 108 => ⟨S256x256, .f32⟩
  | 109 => ⟨S50000x256, .f32⟩
  | 110 => ⟨S1x256, .f32⟩
  | 111 => ⟨S256, .f32⟩
  | 112 => ⟨S1x256, .f32⟩
  | 113 => ⟨S50000x256, .f32⟩
  | 114 => ⟨S50000x256, .f32⟩
  | 115 => ⟨S_, .f32⟩
  | 116 => ⟨S256, .f32⟩
  | 117 => ⟨S_, .f32⟩
  | 118 => ⟨S256, .f32⟩
  | 119 => ⟨S256, .f32⟩
  | 120 => ⟨S_, .i32⟩
  | 121 => ⟨S_, .f32⟩
  | 122 => ⟨S256, .f32⟩
  | 123 => ⟨S1x256, .f32⟩
  | 124 => ⟨S_, .f32⟩
  | 125 => ⟨S1x256, .f32⟩
  | 126 => ⟨S1x256, .f32⟩
  | 127 => ⟨S50000x256, .f32⟩
  | _ => ⟨S50000x32, .f32⟩

abbrev hbmTy0_2 (i : Nat) : BufTy := match i % 128 with
  | 0 => ⟨S50000x256, .f32⟩
  | 1 => ⟨S50000x256, .f32⟩
  | 2 => ⟨S_, .f32⟩
  | 3 => ⟨S_, .f32⟩
  | 4 => ⟨S_, .f32⟩
  | 5 => ⟨S_, .f32⟩
  | 6 => ⟨S256, .f32⟩
  | 7 => ⟨S256, .f32⟩
  | 8 => ⟨S256, .f32⟩
  | 9 => ⟨S_, .f32⟩
  | 10 => ⟨S_, .i1⟩
  | 11 => ⟨S_, .f32⟩
  | 12 => ⟨S_, .f32⟩
  | 13 => ⟨S256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S256, .f32⟩
  | 27 => ⟨S1x256, .f32⟩
  | 28 => ⟨S50000x256, .f32⟩
  | 29 => ⟨S50000x256, .f32⟩
  | 30 => ⟨S1x256, .f32⟩
  | 31 => ⟨S256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S_, .i32⟩
  | 39 => ⟨S300000, .i32⟩
  | 40 => ⟨S300000, .i1⟩
  | 41 => ⟨S_, .i32⟩
  | 42 => ⟨S300000, .i32⟩
  | 43 => ⟨S300000, .i32⟩
  | 44 => ⟨S300000, .i32⟩
  | 45 => ⟨S300000x1, .i32⟩
  | 46 => ⟨S300000x256, .f32⟩
  | 47 => ⟨S300000x256, .f32⟩
  | 48 => ⟨S_, .f32⟩
  | 49 => ⟨S300000x256, .f32⟩
  | 50 => ⟨S300000x256, .f32⟩
  | 51 => ⟨S_, .f32⟩
  | 52 => ⟨S50000x256, .f32⟩
  | 53 => ⟨S300000x1, .i32⟩
  | 54 => ⟨S50000x256, .f32⟩
  | 55 => ⟨S50000x256, .f32⟩
  | 56 => ⟨S1x256x256, .f32⟩
  | 57 => ⟨S256x256, .f32⟩
  | 58 => ⟨S50000x256, .f32⟩
  | 59 => ⟨S1x256, .f32⟩
  | 60 => ⟨S256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S1x256x256, .f32⟩
  | 68 => ⟨S256x256, .f32⟩
  | 69 => ⟨S50000x256, .f32⟩
  | 70 => ⟨S1x256, .f32⟩
  | 71 => ⟨S256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S_, .f32⟩
  | 107 => ⟨S256, .f32⟩
  | 108 => ⟨S256, .f32⟩
  | 109 => ⟨S256, .f32⟩
  | 110 => ⟨S1x256, .f32⟩
  | 111 => ⟨S50000x256, .f32⟩
  | 112 => ⟨S50000x256, .f32⟩
  | 113 => ⟨S1x256, .f32⟩
  | 114 => ⟨S256, .f32⟩
  | 115 => ⟨S1x256, .f32⟩
  | 116 => ⟨S50000x256, .f32⟩
  | 117 => ⟨S50000x256, .f32⟩
  | 118 => ⟨S1x256, .f32⟩
  | 119 => ⟨S256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S_, .f32⟩
  | 127 => ⟨S128x256, .f32⟩
  | _ => ⟨S50000x32, .f32⟩

abbrev hbmTy0_3 (i : Nat) : BufTy := match i % 128 with
  | 0 => ⟨S50000x1, .i32⟩
  | 1 => ⟨S128x256, .f32⟩
  | 2 => ⟨S128x128, .f32⟩
  | 3 => ⟨S1x128, .f32⟩
  | 4 => ⟨S128x128, .f32⟩
  | 5 => ⟨S128x128, .f32⟩
  | 6 => ⟨S_, .f32⟩
  | 7 => ⟨S128x128, .f32⟩
  | 8 => ⟨S128x128, .f32⟩
  | 9 => ⟨S128x12, .f32⟩
  | 10 => ⟨S1x12, .f32⟩
  | 11 => ⟨S128x12, .f32⟩
  | 12 => ⟨S128x12, .f32⟩
  | _ => ⟨S50000x32, .f32⟩

abbrev hbmTy (i : Nat) : BufTy := match i / 128 with
  | 0 => hbmTy0_0 i
  | 1 => hbmTy0_1 i
  | 2 => hbmTy0_2 i
  | 3 => hbmTy0_3 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_cst : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_c_3 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_4 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call3_cst : Ref sig .tc := ⟨.hbm, 115, rfl⟩
abbrev main_call3_v0 : Ref sig .tc := ⟨.hbm, 116, rfl⟩
abbrev main_v65 : Ref sig .tc := ⟨.hbm, 117, rfl⟩
abbrev main_c_5 : Ref sig .tc := ⟨.hbm, 118, rfl⟩
abbrev main_v66 : Ref sig .tc := ⟨.hbm, 119, rfl⟩
abbrev main_v67 : Ref sig .tc := ⟨.hbm, 120, rfl⟩
abbrev main_c_6 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call4_cst : Ref sig .tc := ⟨.hbm, 128, rfl⟩
abbrev main_call4_v0 : Ref sig .tc := ⟨.hbm, 129, rfl⟩
abbrev main_v74 : Ref sig .tc := ⟨.hbm, 130, rfl⟩
abbrev main_cst_7 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call5_cst : Ref sig .tc := ⟨.hbm, 144, rfl⟩
abbrev main_call5_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_8 : Ref sig .tc := ⟨.hbm, 155, rfl⟩
abbrev main_v96 : Ref sig .tc := ⟨.hbm, 156, rfl⟩
abbrev main_cst_9 : Ref sig .tc := ⟨.hbm, 157, rfl⟩
abbrev main_v97 : Ref sig .tc := ⟨.hbm, 158, rfl⟩
abbrev main_v98 : Ref sig .tc := ⟨.hbm, 159, rfl⟩
abbrev main_c_10 : Ref sig .tc := ⟨.hbm, 160, rfl⟩
abbrev main_call6_cst : Ref sig .tc := ⟨.hbm, 161, rfl⟩
abbrev main_call6_v0 : Ref sig .tc := ⟨.hbm, 162, rfl⟩
abbrev main_call6_v1 : Ref sig .tc := ⟨.hbm, 163, rfl⟩
abbrev main_call6_cst_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_cst_1 : Ref sig .tc := ⟨.hbm, 171, rfl⟩
abbrev main_call6_v8 : Ref sig .tc := ⟨.hbm, 172, rfl⟩
abbrev main_call6_cst_2 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_cst_3 : Ref sig .tc := ⟨.hbm, 177, rfl⟩
abbrev main_call6_v12 : Ref sig .tc := ⟨.hbm, 178, rfl⟩
abbrev main_call6_cst_4 : Ref sig .tc := ⟨.hbm, 179, rfl⟩
abbrev main_call6_call0_v0 : Ref sig .tc := ⟨.hbm, 180, rfl⟩
abbrev main_call6_call0_v1 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_11 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_call7_cst : Ref sig .tc := ⟨.hbm, 203, rfl⟩
abbrev main_call7_v0 : Ref sig .tc := ⟨.hbm, 204, rfl⟩
abbrev main_v119 : Ref sig .tc := ⟨.hbm, 205, rfl⟩
abbrev main_c_12 : Ref sig .tc := ⟨.hbm, 206, rfl⟩
abbrev main_v120 : Ref sig .tc := ⟨.hbm, 207, rfl⟩
abbrev main_v121 : Ref sig .tc := ⟨.hbm, 208, rfl⟩
abbrev main_c_13 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_call8_cst : Ref sig .tc := ⟨.hbm, 216, rfl⟩
abbrev main_call8_v0 : Ref sig .tc := ⟨.hbm, 217, rfl⟩
abbrev main_v128 : Ref sig .tc := ⟨.hbm, 218, rfl⟩
abbrev main_cst_14 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_call9_cst : Ref sig .tc := ⟨.hbm, 232, rfl⟩
abbrev main_call9_v0 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_cst_15 : Ref sig .tc := ⟨.hbm, 243, rfl⟩
abbrev main_v150 : Ref sig .tc := ⟨.hbm, 244, rfl⟩
abbrev main_cst_16 : Ref sig .tc := ⟨.hbm, 245, rfl⟩
abbrev main_v151 : Ref sig .tc := ⟨.hbm, 246, rfl⟩
abbrev main_v152 : Ref sig .tc := ⟨.hbm, 247, rfl⟩
abbrev main_c_17 : Ref sig .tc := ⟨.hbm, 248, rfl⟩
abbrev main_call10_cst : Ref sig .tc := ⟨.hbm, 249, rfl⟩
abbrev main_call10_v0 : Ref sig .tc := ⟨.hbm, 250, rfl⟩
abbrev main_call10_v1 : Ref sig .tc := ⟨.hbm, 251, rfl⟩
abbrev main_call10_cst_0 : Ref sig .tc := ⟨.hbm, 252, rfl⟩
abbrev main_call10_v2 : Ref sig .tc := ⟨.hbm, 253, rfl⟩
abbrev main_call10_v3 : Ref sig .tc := ⟨.hbm, 254, rfl⟩
abbrev main_call10_v4 : Ref sig .tc := ⟨.hbm, 255, rfl⟩
abbrev main_call10_v5 : Ref sig .tc := ⟨.hbm, 256, rfl⟩
abbrev main_call10_v6 : Ref sig .tc := ⟨.hbm, 257, rfl⟩
abbrev main_call10_v7 : Ref sig .tc := ⟨.hbm, 258, rfl⟩
abbrev main_call10_cst_1 : Ref sig .tc := ⟨.hbm, 259, rfl⟩
abbrev main_call10_v8 : Ref sig .tc := ⟨.hbm, 260, rfl⟩
abbrev main_call10_cst_2 : Ref sig .tc := ⟨.hbm, 261, rfl⟩
abbrev main_call10_v9 : Ref sig .tc := ⟨.hbm, 262, rfl⟩
abbrev main_call10_v10 : Ref sig .tc := ⟨.hbm, 263, rfl⟩
abbrev main_call10_v11 : Ref sig .tc := ⟨.hbm, 264, rfl⟩
abbrev main_call10_cst_3 : Ref sig .tc := ⟨.hbm, 265, rfl⟩
abbrev main_call10_v12 : Ref sig .tc := ⟨.hbm, 266, rfl⟩
abbrev main_call10_cst_4 : Ref sig .tc := ⟨.hbm, 267, rfl⟩
abbrev main_call10_call0_v0 : Ref sig .tc := ⟨.hbm, 268, rfl⟩
abbrev main_call10_call0_v1 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_cst_18 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_call11_cst : Ref sig .tc := ⟨.hbm, 291, rfl⟩
abbrev main_call11_v0 : Ref sig .tc := ⟨.hbm, 292, rfl⟩
abbrev main_v173 : Ref sig .tc := ⟨.hbm, 293, rfl⟩
abbrev main_c_19 : Ref sig .tc := ⟨.hbm, 294, rfl⟩
abbrev main_v174 : Ref sig .tc := ⟨.hbm, 295, rfl⟩
abbrev main_v175 : Ref sig .tc := ⟨.hbm, 296, rfl⟩
abbrev main_c_20 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_call12_cst : Ref sig .tc := ⟨.hbm, 304, rfl⟩
abbrev main_call12_v0 : Ref sig .tc := ⟨.hbm, 305, rfl⟩
abbrev main_v182 : Ref sig .tc := ⟨.hbm, 306, rfl⟩
abbrev main_cst_21 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_call13_cst : Ref sig .tc := ⟨.hbm, 320, rfl⟩
abbrev main_call13_v0 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_cst_22 : Ref sig .tc := ⟨.hbm, 331, rfl⟩
abbrev main_v204 : Ref sig .tc := ⟨.hbm, 332, rfl⟩
abbrev main_cst_23 : Ref sig .tc := ⟨.hbm, 333, rfl⟩
abbrev main_v205 : Ref sig .tc := ⟨.hbm, 334, rfl⟩
abbrev main_v206 : Ref sig .tc := ⟨.hbm, 335, rfl⟩
abbrev main_c_24 : Ref sig .tc := ⟨.hbm, 336, rfl⟩
abbrev main_call14_cst : Ref sig .tc := ⟨.hbm, 337, rfl⟩
abbrev main_call14_v0 : Ref sig .tc := ⟨.hbm, 338, rfl⟩
abbrev main_call14_v1 : Ref sig .tc := ⟨.hbm, 339, rfl⟩
abbrev main_call14_cst_0 : Ref sig .tc := ⟨.hbm, 340, rfl⟩
abbrev main_call14_v2 : Ref sig .tc := ⟨.hbm, 341, rfl⟩
abbrev main_call14_v3 : Ref sig .tc := ⟨.hbm, 342, rfl⟩
abbrev main_call14_v4 : Ref sig .tc := ⟨.hbm, 343, rfl⟩
abbrev main_call14_v5 : Ref sig .tc := ⟨.hbm, 344, rfl⟩
abbrev main_call14_v6 : Ref sig .tc := ⟨.hbm, 345, rfl⟩
abbrev main_call14_v7 : Ref sig .tc := ⟨.hbm, 346, rfl⟩
abbrev main_call14_cst_1 : Ref sig .tc := ⟨.hbm, 347, rfl⟩
abbrev main_call14_v8 : Ref sig .tc := ⟨.hbm, 348, rfl⟩
abbrev main_call14_cst_2 : Ref sig .tc := ⟨.hbm, 349, rfl⟩
abbrev main_call14_v9 : Ref sig .tc := ⟨.hbm, 350, rfl⟩
abbrev main_call14_v10 : Ref sig .tc := ⟨.hbm, 351, rfl⟩
abbrev main_call14_v11 : Ref sig .tc := ⟨.hbm, 352, rfl⟩
abbrev main_call14_cst_3 : Ref sig .tc := ⟨.hbm, 353, rfl⟩
abbrev main_call14_v12 : Ref sig .tc := ⟨.hbm, 354, rfl⟩
abbrev main_call14_cst_4 : Ref sig .tc := ⟨.hbm, 355, rfl⟩
abbrev main_call14_call0_v0 : Ref sig .tc := ⟨.hbm, 356, rfl⟩
abbrev main_call14_call0_v1 : Ref sig .tc := ⟨.hbm, 357, rfl⟩
abbrev main_v207 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_25 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_call15_cst : Ref sig .tc := ⟨.hbm, 379, rfl⟩
abbrev main_call15_v0 : Ref sig .tc := ⟨.hbm, 380, rfl⟩
abbrev main_v227 : Ref sig .tc := ⟨.hbm, 381, rfl⟩
abbrev main_cst_26 : Ref sig .tc := ⟨.hbm, 382, rfl⟩
abbrev main_v228 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_v234 : Ref sig .tc := ⟨.hbm, 389, rfl⟩
abbrev main_call16_cst : Ref sig .tc := ⟨.hbm, 390, rfl⟩
abbrev main_call16_v0 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_v238 : Ref sig .tc := ⟨.hbm, 395, rfl⟩
abbrev main_v239 : Ref sig .tc := ⟨.hbm, 396, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1x256_S300000x256_0_1 : S1x256.BroadcastsInDim S300000x256 (![0, 1] : Fin 2 → Fin S300000x256.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S12_S1x12_1 : S12.BroadcastsInDim S1x12 (![1] : Fin 1 → Fin S1x12.rank)
  bcast_S1x12_S128x12_0_1 : S1x12.BroadcastsInDim S128x12 (![0, 1] : Fin 2 → Fin S128x12.rank)
  dot_S50000x32_S32x256_S50000x256_1_0_0_1_n_n_wf : DotDims.WF S50000x32 S32x256 S50000x256 [1] [0] [0] [1] [] []
  dot_S300000x16_S16x256_S300000x256_1_0_0_1_n_n_wf : DotDims.WF S300000x16 S16x256 S300000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  dot_S128x256_S256x128_S128x128_1_0_0_1_n_n_wf : DotDims.WF S128x256 S256x128 S128x128 [1] [0] [0] [1] [] []
  dot_S128x128_S128x12_S128x12_1_0_0_1_n_n_wf : DotDims.WF S128x128 S128x12 S128x12 [1] [0] [0] [1] [] []

variable [Facts₀]

def dot_S50000x32_S32x256_S50000x256_1_0_0_1_n_n : DotDims S50000x32 S32x256 S50000x256 where
  lhsContracting := [1]
  rhsContracting := [0]
  lhsNonContracting := [0]
  rhsNonContracting := [1]
  lhsBatch := []
  rhsBatch := []
  wf := dot_S50000x32_S32x256_S50000x256_1_0_0_1_n_n_wf
def dot_S300000x16_S16x256_S300000x256_1_0_0_1_n_n : DotDims S300000x16 S16x256 S300000x256 where
  lhsContracting := [1]
  rhsContracting := [0]
  lhsNonContracting := [0]
  rhsNonContracting := [1]
  lhsBatch := []
  rhsBatch := []
  wf := dot_S300000x16_S16x256_S300000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x12_S128x12_1_0_0_1_n_n : DotDims S128x128 S128x12 S128x12 where
  lhsContracting := [1]
  rhsContracting := [0]
  lhsNonContracting := [0]
  rhsNonContracting := [1]
  lhsBatch := []
  rhsBatch := []
  wf := dot_S128x128_S128x12_S128x12_1_0_0_1_n_n_wf

class Facts : Prop extends Facts₀ where

variable [Facts]
-- ==== Proof.LibRows.lean ====
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

abbrev Arr2 (N C : Nat) : Type := (⟨2, ![N, C]⟩ : Shape).Idx → EReal
abbrev IdxCol (R : Nat) : Type := (⟨2, ![R, 1]⟩ : Shape).Idx → BitVec 32

-- A signed index word clamped to a row of an axis of N rows.
def clampRow {N : Nat} (hN : 0 < N) (w : BitVec 32) : Fin N := ⟨min w.toInt.toNat (N - 1), by omega⟩

-- A negative index word wrapped once by the axis size.
def wrapN (n : Nat) (v : BitVec 32) : BitVec 32 := if v.toInt < 0 then v + BitVec.ofNat 32 n else v

abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

-- Of a matrix's two axes, dropping axis 0 keeps axis 1 and only it.
theorem kept0 {N C : Nat} : (0 : Fin 2) ∉ (⟨2, ![N, C]⟩ : Shape).kept [0] ∧ (1 : Fin 2) ∈ (⟨2, ![N, C]⟩ : Shape).kept [0] := by
  simp [Shape.kept]

-- Entry (r, j) of a row gather is the operand's entry (clamp idx[r, 0], j).
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  let d := rowGatherDims N C R wf
  have hb : ∀ a, d.batchCoord (ix2 r j) a = 0 := fun a => d.batchCoord_eq_zero _ a List.not_mem_nil
  have s0 : d.start (ix2 r j) idx 0 = (clampRow hN (idx (ix2 r 0))).val :=
    (dif_pos (List.mem_singleton_self _)).trans (congrArg (fun i => min (idx i).toInt.toNat (N - 1))
      (funext fun b => by match b with | ⟨0, _⟩ => rfl | ⟨1, _⟩ => rfl))
  have s1 : d.start (ix2 r j) idx 1 = 0 := dif_neg (by decide : (1 : Fin 2) ∉ [0])
  have o0 : d.offCoord (ix2 r j) 0 = 0 := dif_neg kept0.1
  have o1 : d.offCoord (ix2 r j) 1 = j.val := dif_pos kept0.2
  refine congrArg x (funext (Fin.forall_fin_two.2 ⟨Fin.ext ?_, Fin.ext ?_⟩))
  · show d.start (ix2 r j) idx 0 + d.batchCoord (ix2 r j) 0 + d.offCoord (ix2 r j) 0 = _
    rw [s0, hb, o0]; rfl
  · show d.start (ix2 r j) idx 1 + d.batchCoord (ix2 r j) 1 + d.offCoord (ix2 r j) 1 = _
    rw [s1, hb, o1, Nat.zero_add]

-- An update lands on index i exactly when its window start plus its window coordinate is i on every axis.
theorem resultIdx?_eq_some_iff {s si u : Shape} {w : Nat} (d : ScatterDims s si u) (q : u.Idx) (idx : IVec si w) (i : s.Idx) :
    d.resultIdx? q idx = some i ↔ ∀ a, d.start q idx a + d.window q a = ((i a).val : Int) := by
  unfold ScatterDims.resultIdx?
  split
  · rename_i h
    rw [Option.some.injEq, funext_iff]
    exact forall_congr' fun a => by have := (h a).1; simp only [Fin.ext_iff]; omega
  · rename_i h
    exact iff_of_false (by simp) fun h' => h fun a => by have := (i a).isLt; rw [h' a]; omega

-- Update (k, b) of a row scatter lands on (v, j) exactly when row k's index word, read signed, is v and b is j.
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have s0 : (rowScatterDims N C R wf).start (ix2 k b) idx 0 = (idx (ix2 k 0)).toInt :=
    (dif_pos (List.mem_singleton_self _)).trans (congrArg (fun i => (idx i).toInt)
      (funext fun c => by match c with | ⟨0, _⟩ => rfl | ⟨1, _⟩ => rfl))
  have s1 : (rowScatterDims N C R wf).start (ix2 k b) idx 1 = 0 := dif_neg (by decide : (1 : Fin 2) ∉ [0])
  have w0 : (rowScatterDims N C R wf).window (ix2 k b) 0 = 0 := dif_neg kept0.1
  have w1 : (rowScatterDims N C R wf).window (ix2 k b) 1 = b.val := dif_pos kept0.2
  rw [resultIdx?_eq_some_iff, Fin.forall_fin_two, s0, s1, w0, w1, Fin.ext_iff]
  show _ + ((0 : Nat) : Int) = (v.val : Int) ∧ 0 + (b.val : Int) = (j.val : Int) ↔ _
  omega

-- Entry (v, j) of a row scatter-add: the operand's entry plus the updates' column-j entries of the rows whose index word is v.
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show _ + ∑ q ∈ Finset.univ.filter (fun q => (rowScatterDims N C R wf).resultIdx? q idx = some (ix2 v j)), u q = _
  rw [Finset.sum_filter, sum_idx2]
  refine congrArg _ (Finset.sum_congr rfl fun k _ => ?_)
  simp only [resultIdx_rows wf idx k _ v j]
  by_cases h : (idx (ix2 k 0)).toInt = (v.val : Int) <;> simp [h]

-- select (v < 0) (v + n) v is the wrap of v.
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0 <;> simp [BitVec.slt, h] <;> rfl

end Cert.LibRows

end
-- ==== Proof.Spec.lean ====
import Idealize.ShloMosaic.PureOps.Ideal
import Idealize.ShloMosaic.PureOps.Ideal.Laws
import Idealize.ShloMosaic.Lib.ValueIdx
import proofs.«430164_j87205015978673_1_alg».proof.Proof.LibRows

noncomputable section

namespace Cert.Spec

open Idealize.ShloMosaic Idealize.ShloMosaic.ValueIdx Cert.LibRows

abbrev Mat (n c : Nat) : Type := (⟨2, ![n, c]⟩ : Shape).Idx → EReal
abbrev Vct (n : Nat) : Type := (⟨1, ![n]⟩ : Shape).Idx → EReal
abbrev Ten (a n c : Nat) : Type := (⟨3, ![a, n, c]⟩ : Shape).Idx → EReal
abbrev IMat (n c : Nat) : Type := (⟨2, ![n, c]⟩ : Shape).Idx → BitVec 32
abbrev IVct (n : Nat) : Type := (⟨1, ![n]⟩ : Shape).Idx → BitVec 32

def eps : EReal := Ideal.ofBits .f32 0x3727C5AC#32
def nNodes : EReal := Ideal.ofBits .f32 0x47435000#32

def relu (v : EReal) : EReal := max v 0

def row {c : Nat} (b : Vct c) : Mat 1 c := fun i => b (ix1 (i 1))
def slab {a n c : Nat} (l : Fin a) (w : Ten a n c) : Mat n c := fun i => w (ix3 l (i 0) (i 1))
def slabRow {a c : Nat} (l : Fin a) (b : Mat a c) : Mat 1 c := fun i => b (ix2 l (i 1))

def idxCol {e : Nat} (v : IVct e) : IdxCol e := fun i => v (ix1 (i 0))

-- x · w + b, the bias a one-row matrix.
def lin {n k c : Nat} (x : Mat n k) (w : Mat k c) (b : Mat 1 c) : Mat n c :=
  fun i => (∑ t : Fin k, x (ix2 (i 0) t) * w (ix2 t (i 1))) + b (ix2 0 (i 1))

def InRange (n : Nat) (w : BitVec 32) : Prop := 0 ≤ w.toInt ∧ w.toInt ≤ (n : Int) - 1

-- Rows gathered at wrapped indices: a row outside the axis is filled with ⊥ (takeFill) or the index is clamped (takeClamp).
def takeFill {n c e : Nat} (hn : 0 < n) (h : Mat n c) (idx : IdxCol e) : Mat e c :=
  fun i => open Classical in
    if InRange n (wrapN n (idx (ix2 (i 0) 0))) then h (ix2 (clampRow hn (wrapN n (idx (ix2 (i 0) 0)))) (i 1)) else ⊥

def takeClamp {n c e : Nat} (hn : 0 < n) (h : Mat n c) (idx : IdxCol e) : Mat e c :=
  fun i => h (ix2 (clampRow hn (wrapN n (idx (ix2 (i 0) 0)))) (i 1))

def msgf {e c : Nat} (hs ea : Mat e c) : Mat e c := fun i => relu (hs i + ea i)

-- Rows summed into the row their index word names, read signed; a word that names no row adds nothing.
def segsum {n e c : Nat} (idx : IdxCol e) (u : Mat e c) : Mat n c :=
  fun i => ∑ t : Fin e, if (idx (ix2 t 0)).toInt = (((i 0).val : Nat) : Int) then u (ix2 t (i 1)) else 0

def mlp {n c : Nat} (h agg : Mat n c) (w1 : Mat c c) (b1 : Mat 1 c) (w2 : Mat c c) (b2 : Mat 1 c) : Mat n c :=
  lin (fun i => relu (lin (fun j => h j + agg j) w1 b1 i)) w2 b2

def colSum {n c : Nat} (z : Mat n c) : Mat 1 c := fun i => ∑ r : Fin n, z (ix2 r (i 1))

def mean {n c : Nat} (z : Mat n c) : Mat 1 c := fun i => Ideal.div (colSum z i) nNodes

-- The variance as E[z²] − (E z)² (varK) and as E[(z − E z)²] (varR).
def varK {n c : Nat} (z : Mat n c) : Mat 1 c :=
  fun i => Ideal.div (colSum (fun j => z j * z j) i) nNodes - mean z i * mean z i

def varR {n c : Nat} (z : Mat n c) : Mat 1 c :=
  fun i => Ideal.div (colSum (fun j => (z j - mean z (ix2 0 (j 1))) * (z j - mean z (ix2 0 (j 1)))) i) nNodes

def bn {n c : Nat} (z : Mat n c) (mu var gamma beta : Mat 1 c) : Mat n c :=
  fun i => relu ((z i - mu (ix2 0 (i 1))) * Ideal.rsqrt (var (ix2 0 (i 1)) + eps) * gamma (ix2 0 (i 1)) + beta (ix2 0 (i 1)))

def layerK {n e c : Nat} (hn : 0 < n) (h : Mat n c) (ea : Mat e c) (src dst : IdxCol e)
    (w1 : Mat c c) (b1 : Mat 1 c) (w2 : Mat c c) (b2 : Mat 1 c) (gamma beta : Mat 1 c) : Mat n c :=
  let z := mlp h (segsum dst (msgf (takeFill hn h src) ea)) w1 b1 w2 b2
  bn z (mean z) (varK z) gamma beta

def layerR {n e c : Nat} (hn : 0 < n) (h : Mat n c) (ea : Mat e c) (src dst : IdxCol e)
    (w1 : Mat c c) (b1 : Mat 1 c) (w2 : Mat c c) (b2 : Mat 1 c) (gamma beta : Mat 1 c) : Mat n c :=
  let z := mlp h (segsum dst (msgf (takeClamp hn h src) ea)) w1 b1 w2 b2
  bn z (mean z) (varR z) gamma beta

def head {g c d o : Nat} (p : Mat g c) (w1 : Mat c d) (b1 : Vct d) (w2 : Mat d o) (b2 : Vct o) : Mat g o :=
  lin (fun i => relu (lin p w1 (row b1) i)) w2 (row b2)

structure Inputs where
  x : Mat 50000 32
  ei : IMat 2 300000
  batch : IVct 50000
  eattr : Mat 300000 16
  nodeW : Mat 32 256
  nodeB : Vct 256
  edgeW : Mat 16 256
  edgeB : Vct 256
  w1 : Ten 4 256 256
  b1 : Mat 4 256
  w2 : Ten 4 256 256
  b2 : Mat 4 256
  gamma : Mat 4 256
  beta : Mat 4 256
  hw1 : Mat 256 128
  hb1 : Vct 128
  hw2 : Mat 128 12
  hb2 : Vct 12

theorem nodes_pos : 0 < 50000 := by decide

def h0 (I : Inputs) : Mat 50000 256 := lin I.x I.nodeW (row I.nodeB)
def ea (I : Inputs) : Mat 300000 256 := lin I.eattr I.edgeW (row I.edgeB)

def src1 (I : Inputs) : IVct 300000 := fun i => I.ei (ix2 0 (i 0))
def dst1 (I : Inputs) : IVct 300000 := fun i => I.ei (ix2 1 (i 0))
def src (I : Inputs) : IdxCol 300000 := idxCol (src1 I)
def dst (I : Inputs) : IdxCol 300000 := idxCol (dst1 I)

def stepK (I : Inputs) (l : Fin 4) (h : Mat 50000 256) : Mat 50000 256 :=
  layerK nodes_pos h (ea I) (src I) (dst I) (slab l I.w1) (slabRow l I.b1) (slab l I.w2) (slabRow l I.b2)
    (slabRow l I.gamma) (slabRow l I.beta)
def stepR (I : Inputs) (l : Fin 4) (h : Mat 50000 256) : Mat 50000 256 :=
  layerR nodes_pos h (ea I) (src I) (dst I) (slab l I.w1) (slabRow l I.b1) (slab l I.w2) (slabRow l I.b2)
    (slabRow l I.gamma) (slabRow l I.beta)

def pool (I : Inputs) (h : Mat 50000 256) : Mat 128 256 := segsum (idxCol I.batch) h
def out (I : Inputs) (h : Mat 50000 256) : Mat 128 12 := head (pool I h) I.hw1 I.hb1 I.hw2 I.hb2

-- The network in its two readings: filled gathers with varK, clamped gathers with varR.
def Kmodel (I : Inputs) : Mat 128 12 := out I (stepK I 3 (stepK I 2 (stepK I 1 (stepK I 0 (h0 I)))))
def Rmodel (I : Inputs) : Mat 128 12 := out I (stepR I 3 (stepR I 2 (stepR I 1 (stepR I 0 (h0 I)))))

def IsReal {ι : Type} (v : ι → EReal) : Prop := ∀ i, ∃ r : ℝ, v i = (r : EReal)

structure Good (I : Inputs) : Prop where
  x : IsReal I.x
  eattr : IsReal I.eattr
  nodeW : IsReal I.nodeW
  nodeB : IsReal I.nodeB
  edgeW : IsReal I.edgeW
  edgeB : IsReal I.edgeB
  w1 : IsReal I.w1
  b1 : IsReal I.b1
  w2 : IsReal I.w2
  b2 : IsReal I.b2
  gamma : IsReal I.gamma
  beta : IsReal I.beta
  hw1 : IsReal I.hw1
  hb1 : IsReal I.hb1
  hw2 : IsReal I.hw2
  hb2 : IsReal I.hb2
  src : ∀ e : Fin 300000, 0 ≤ (I.ei (ix2 0 e)).toInt ∧ (I.ei (ix2 0 e)).toInt < 50000

end Cert.Spec

end
-- ==== Proof.KKeep.lean ====
import proofs.«430164_j87205015978673_1_alg».proof.Proof.Gen.KernelIdeal.Frame
import proofs.«430164_j87205015978673_1_alg».proof.Proof.Spec
noncomputable section
namespace Cert.KernelIdeal.Val
open Cert.KernelIdeal Cert.KernelIdeal.Gen Idealize.ShloMosaic Idealize.ShloMosaic.TcCoe Idealize.SL.Sem Idealize.ShloMosaic.ValueIdx

variable {F : FTy → Type} [FloatOps F]

def wr0 : List (Ref sig .tc) :=
  [main_v0, main_v1, main_v2, main_v3, main_v4]
def wr1 : List (Ref sig .tc) :=
  [main_v6]
def wr2 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v8]
def wr3 : List (Ref sig .tc) :=
  [main_cst, main_v10, main_v11, main_v12, main_v13, main_v14, main_v15, main_v16, main_v17, main_v18, main_v19,
   main_v20, main_v21, main_v22]
def wr4 : List (Ref sig .tc) :=
  [main_cst_0, main_v24, main_v25, main_cst_1, main_v26, main_v27, main_v28, main_v29, main_v30, main_v31, main_v32,
   main_v33, main_v34, main_v35]
def wr5 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v37]
def wr6 : List (Ref sig .tc) :=
  [main_cst_2, main_v39, main_v40, main_v41, main_v42, main_v43, main_v44, main_v45, main_v46, main_v47, main_v48,
   main_v49, main_v50, main_v51]
def wr7 : List (Ref sig .tc) :=
  [main_cst_3, main_v53, main_v54, main_cst_4, main_v55, main_v56, main_v57, main_v58, main_v59, main_v60, main_v61,
   main_v62, main_v63, main_v64]
def wr8 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v66]
def wr9 : List (Ref sig .tc) :=
  [main_cst_5, main_v68, main_v69, main_v70, main_v71, main_v72, main_v73, main_v74, main_v75, main_v76, main_v77,
   main_v78, main_v79, main_v80]
def wr10 : List (Ref sig .tc) :=
  [main_cst_6, main_v82, main_v83, main_cst_7, main_v84, main_v85, main_v86, main_v87, main_v88, main_v89, main_v90,
   main_v91, main_v92, main_v93]
def wr11 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v95]
def wr12 : List (Ref sig .tc) :=
  [main_cst_8, main_v97, main_v98, main_v99, main_v100, main_v101, main_v102, main_v103, main_v104, main_v105,
   main_v106, main_v107, main_v108, main_v109]
def wr13 : List (Ref sig .tc) :=
  [main_cst_9, main_v111, main_v112, main_cst_10, main_v113, main_v114, main_v115, main_v116, main_v117, main_v118,
   main_v119, main_v120, main_v121, main_v122]

/-- Every operation of the stretch writes into the list. -/
abbrev Listed (ops : List (HloOp τ sig (Elt F))) (wr : List (Ref sig .tc)) : Prop :=
  ops.Forall fun op => op.writes ⊆ (wr.map (Proc.devRef (τ := τ) .tc)).toFinset

local macro "writes_listed " ops:ident : tactic =>
  `(tactic| (
    simp only [Listed, $ops:ident, List.Forall, StableHlo.nullary_writes, StableHlo.unary_writes,
      StableHlo.binary_writes, StableHlo.ternary_writes, StableHlo.reshape_writes, Finset.singleton_subset_iff,
      List.mem_toFinset]
    repeat' apply And.intro
    all_goals exact List.mem_map_of_mem (by decide)))

theorem wr0_sub : Listed (F := F) hostOps0 wr0 := by writes_listed hostOps0
theorem wr1_sub : Listed (F := F) hostOps1 wr1 := by writes_listed hostOps1
theorem wr2_sub : Listed (F := F) hostOps2 wr2 := by writes_listed hostOps2
theorem wr3_sub : Listed (F := F) hostOps3 wr3 := by writes_listed hostOps3
theorem wr4_sub : Listed (F := F) hostOps4 wr4 := by writes_listed hostOps4
theorem wr5_sub : Listed (F := F) hostOps5 wr5 := by writes_listed hostOps5
theorem wr6_sub : Listed (F := F) hostOps6 wr6 := by writes_listed hostOps6
theorem wr7_sub : Listed (F := F) hostOps7 wr7 := by writes_listed hostOps7
theorem wr8_sub : Listed (F := F) hostOps8 wr8 := by writes_listed hostOps8
theorem wr9_sub : Listed (F := F) hostOps9 wr9 := by writes_listed hostOps9
theorem wr10_sub : Listed (F := F) hostOps10 wr10 := by writes_listed hostOps10
theorem wr11_sub : Listed (F := F) hostOps11 wr11 := by writes_listed hostOps11
theorem wr12_sub : Listed (F := F) hostOps12 wr12 := by writes_listed hostOps12
theorem wr13_sub : Listed (F := F) hostOps13 wr13 := by writes_listed hostOps13

/-- The buffers every layer reads and nothing after the first two regions writes. -/
def kept : List (Ref sig .tc) :=
  [main_v1, main_v3, main_v7, main_arg2, main_arg8, main_arg9, main_arg10, main_arg11, main_arg12, main_arg13, main_arg14,
   main_arg15, main_arg16, main_arg17]

variable (m : (ℓ : Loc nD τ sig) → Buf (Elt F) ℓ) (ρ : Dev nD → PrngReg)

/-- A buffer the first two stretches do not write and that is no array of the first two regions holds what the launch gave it. -/
theorem keepA (c : Dev nD) (b : Ref sig .tc)
    (h : b ∉ wr0 ∧ (∀ w, Pipeline.arrRef spec0 w ≠ b) ∧ b ∉ wr1 ∧ (∀ w, Pipeline.arrRef spec1 w ≠ b)) :
    W4 m ρ c (Proc.devRef .tc b) = m ((c : Thread nD τ).loc b) :=
  (W4_of_ne m ρ c b h.2.2.2).trans <| (StableHlo.after_of_writes_sub hostOps1 _ wr1_sub h.2.2.1).trans <|
    (W2_of_ne m ρ c b h.2.1).trans (StableHlo.after_of_writes_sub hostOps0 (W0 m ρ c) wr0_sub h.1)

/-- The kept buffers of contents `W` hold the edge indices, the edge features and the layers' and the head's weights of `I`. -/
structure Held (I : Cert.Spec.Inputs) (W : Valuation τ sig (Elt Ideal)) : Prop where
  v1 : W (Proc.devRef .tc main_v1) = Cert.Spec.src1 I
  v3 : W (Proc.devRef .tc main_v3) = Cert.Spec.dst1 I
  v7 : W (Proc.devRef .tc main_v7) = Cert.Spec.ea I
  a2 : W (Proc.devRef .tc main_arg2) = I.batch
  a8 : W (Proc.devRef .tc main_arg8) = I.w1
  a9 : W (Proc.devRef .tc main_arg9) = I.b1
  a10 : W (Proc.devRef .tc main_arg10) = I.w2
  a11 : W (Proc.devRef .tc main_arg11) = I.b2
  a12 : W (Proc.devRef .tc main_arg12) = I.gamma
  a13 : W (Proc.devRef .tc main_arg13) = I.beta
  a14 : W (Proc.devRef .tc main_arg14) = I.hw1
  a15 : W (Proc.devRef .tc main_arg15) = I.hb1
  a16 : W (Proc.devRef .tc main_arg16) = I.hw2
  a17 : W (Proc.devRef .tc main_arg17) = I.hb2

/-- Contents that agree with held contents on the kept buffers are held. -/
theorem Held.keep {I : Cert.Spec.Inputs} {X Y : Valuation τ sig (Elt Ideal)} (H : Held I X)
    (hk : ∀ b ∈ kept, Y (Proc.devRef .tc b) = X (Proc.devRef .tc b)) : Held I Y :=
  ⟨(hk _ (by decide)).trans H.v1,
   (hk _ (by decide)).trans H.v3,
   (hk _ (by decide)).trans H.v7,
   (hk _ (by decide)).trans H.a2,
   (hk _ (by decide)).trans H.a8,
   (hk _ (by decide)).trans H.a9,
   (hk _ (by decide)).trans H.a10,
   (hk _ (by decide)).trans H.a11,
   (hk _ (by decide)).trans H.a12,
   (hk _ (by decide)).trans H.a13,
   (hk _ (by decide)).trans H.a14,
   (hk _ (by decide)).trans H.a15,
   (hk _ (by decide)).trans H.a16,
   (hk _ (by decide)).trans H.a17⟩

/-- Held contents stay held across a stretch that writes no kept buffer. -/
theorem Held.after {I : Cert.Spec.Inputs} {X : Valuation τ sig (Elt Ideal)} (H : Held I X) {ops : List (HloOp τ sig (Elt Ideal))}
    {wr : List (Ref sig .tc)} (s : Listed ops wr) (h : ∀ b ∈ kept, b ∉ wr) : Held I (StableHlo.after ops X) :=
  H.keep fun b hb => StableHlo.after_of_writes_sub ops X s (h b hb)

end Cert.KernelIdeal.Val
end
-- ==== Proof.KInputs.lean ====
import proofs.«430164_j87205015978673_1_alg».proof.Proof.Gen.KernelIdeal.Frame
import proofs.«430164_j87205015978673_1_alg».proof.Proof.Spec
noncomputable section
namespace Cert.KernelIdeal.Val
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

def inputsK (c : Dev nD) : Cert.Spec.Inputs where
  x := m ((c : Thread nD τ).loc main_arg0)
  ei := m ((c : Thread nD τ).loc main_arg1)
  batch := m ((c : Thread nD τ).loc main_arg2)
  eattr := m ((c : Thread nD τ).loc main_arg3)
  nodeW := m ((c : Thread nD τ).loc main_arg4)
  nodeB := m ((c : Thread nD τ).loc main_arg5)
  edgeW := m ((c : Thread nD τ).loc main_arg6)
  edgeB := m ((c : Thread nD τ).loc main_arg7)
  w1 := m ((c : Thread nD τ).loc main_arg8)
  b1 := m ((c : Thread nD τ).loc main_arg9)
  w2 := m ((c : Thread nD τ).loc main_arg10)
  b2 := m ((c : Thread nD τ).loc main_arg11)
  gamma := m ((c : Thread nD τ).loc main_arg12)
  beta := m ((c : Thread nD τ).loc main_arg13)
  hw1 := m ((c : Thread nD τ).loc main_arg14)
  hb1 := m ((c : Thread nD τ).loc main_arg15)
  hw2 := m ((c : Thread nD τ).loc main_arg16)
  hb2 := m ((c : Thread nD τ).loc main_arg17)

end Cert.KernelIdeal.Val
end
-- ==== Proof.LibTile.lean ====
import Idealize.ShloMosaic.Lib.Pipeline.Value
import Idealize.ShloMosaic.Lib.ValueIdx
namespace Cert.LibTile
open Idealize.ShloMosaic Idealize.ShloMosaic.ValueIdx
variable {α : Type} {R C T : Nat}

/-- The zero offsets of an access to a whole matrix. -/
theorem vec00 : (![0, 0] : Fin 2 → Nat) = fun _ => 0 := funext fun a => match a with | ⟨0, _⟩ => rfl | ⟨1, _⟩ => rfl

/-- Tile t of a matrix cut into tiles of T rows: its rows tT, …, tT + T − 1. -/
def tile (t : Nat) (h : t * T + T ≤ R) (G : (⟨2, ![R, C]⟩ : Shape).Idx → α) : (⟨2, ![T, C]⟩ : Shape).Idx → α :=
  fun j => G (ix2 ⟨t * T + (j 0).val, by have := idx2_lt0 j; omega⟩ (j 1))

/-- The block of T rows at block index (t, 0), read off a matrix, is tile t of the matrix. -/
theorem ld_tile (G : (⟨2, ![R, C]⟩ : Shape).Idx → α) {idx : Fin 2 → Nat}
    (inb : ∀ a, idx a * (![T, C] : Fin 2 → Nat) a + (![T, C] : Fin 2 → Nat) a ≤ (⟨2, ![R, C]⟩ : Shape).size a)
    (t : Nat) (h : t * T + T ≤ R) (hidx : idx = ![t, 0]) (j : (⟨2, ![T, C]⟩ : Shape).Idx) :
    G ((Rect.unit (s := ⟨2, ![R, C]⟩) (fun a => idx a * (![T, C] : Fin 2 → Nat) a) ![T, C] inb).emb j) = tile t h G j := by
  subst hidx
  exact congrArg G (Shape.idx_ext₂ (by rw [Rect.emb_apply]; show t * T + 1 * (j 0).val = t * T + (j 0).val; omega)
    (by rw [Rect.emb_apply]; show 0 * C + 1 * (j 1).val = (j 1).val; omega))

/-- A block at block index (0, 0) that is all of a matrix reads the matrix. -/
theorem ld_whole (G : (⟨2, ![R, C]⟩ : Shape).Idx → α) {idx : Fin 2 → Nat}
    (inb : ∀ a, idx a * (![R, C] : Fin 2 → Nat) a + (![R, C] : Fin 2 → Nat) a ≤ (⟨2, ![R, C]⟩ : Shape).size a)
    (hidx : idx = ![0, 0]) (j : (⟨2, ![R, C]⟩ : Shape).Idx) :
    G ((Rect.unit (s := ⟨2, ![R, C]⟩) (fun a => idx a * (![R, C] : Fin 2 → Nat) a) ![R, C] inb).emb j) = G j := by
  subst hidx
  exact congrArg G (Shape.idx_ext₂ (by rw [Rect.emb_apply]; show 0 * R + 1 * (j 0).val = (j 0).val; omega)
    (by rw [Rect.emb_apply]; show 0 * C + 1 * (j 1).val = (j 1).val; omega))

/-- Every entry of a matrix lies in the block at block index (0, 0) that is all of it. -/
theorem mem_whole (i : (⟨2, ![R, C]⟩ : Shape).Idx) {idx : Fin 2 → Nat}
    (inb : ∀ a, idx a * (![R, C] : Fin 2 → Nat) a + (![R, C] : Fin 2 → Nat) a ≤ (⟨2, ![R, C]⟩ : Shape).size a)
    (hidx : idx = ![0, 0]) :
    i ∈ (Rect.unit (s := ⟨2, ![R, C]⟩) (fun a => idx a * (![R, C] : Fin 2 → Nat) a) ![R, C] inb).set := by
  subst hidx
  rw [Rect.mem_set_unit]
  intro a
  match a with
  | ⟨0, _⟩ => exact ⟨by show 0 * R ≤ _; omega, by show (i 0).val < 0 * R + R; have := idx2_lt0 i; omega⟩
  | ⟨1, _⟩ => exact ⟨by show 0 * C ≤ _; omega, by show (i 1).val < 0 * C + C; have := idx2_lt1 i; omega⟩

/-- Row r of a matrix lies in the block of T rows at block index (r / T, 0). -/
theorem mem_tile (i : (⟨2, ![R, C]⟩ : Shape).Idx) {idx : Fin 2 → Nat}
    (inb : ∀ a, idx a * (![T, C] : Fin 2 → Nat) a + (![T, C] : Fin 2 → Nat) a ≤ (⟨2, ![R, C]⟩ : Shape).size a)
    (hT : 0 < T) (hidx : idx = ![(i 0).val / T, 0]) :
    i ∈ (Rect.unit (s := ⟨2, ![R, C]⟩) (fun a => idx a * (![T, C] : Fin 2 → Nat) a) ![T, C] inb).set := by
  subst hidx
  rw [Rect.mem_set_unit]
  intro a
  match a with
  | ⟨0, _⟩ => exact ⟨Nat.div_mul_le_self _ _, Nat.lt_div_mul_add hT⟩
  | ⟨1, _⟩ => exact ⟨by show 0 * C ≤ _; omega, by show (i 1).val < 0 * C + C; have := idx2_lt1 i; omega⟩

end Cert.LibTile
-- ==== Proof.RegLin.lean ====
import proofs.«430164_j87205015978673_1_alg».proof.Proof.Gen.KernelIdeal.Frame
import proofs.«430164_j87205015978673_1_alg».proof.Proof.Spec
import proofs.«430164_j87205015978673_1_alg».proof.Proof.LibTile
import Idealize.ShloMosaic.Lib.ValueLayout
import Idealize.ShloMosaic.Lib.StackMember
noncomputable section
namespace Cert.KernelIdeal.Val
open Cert.KernelIdeal Cert.KernelIdeal.Gen Idealize.ShloMosaic Idealize.ShloMosaic.TcCoe Idealize.SL.Sem Idealize.ShloMosaic.ValueIdx Cert.LibTile Idealize.ShloMosaic.StackMember
variable (V : (c : Dev nD) → (b : Ref sig .tc) → Buf (Elt Ideal) ((c : Thread nD τ).loc b))

/-- A matrix product accumulated from zero, plus a bias row laid along every row, is the affine map x · w + b. -/
theorem lin_pay {n k c : Nat} (d : DotDims ⟨2, ![n, k]⟩ ⟨2, ![k, c]⟩ ⟨2, ![n, c]⟩) (hd : d = DotDims.plain n k c)
    (hc : (⟨2, ![1, c]⟩ : Shape).ShapeCasts ⟨2, ![1, c]⟩) (hb : (⟨2, ![1, c]⟩ : Shape).Broadcasts ⟨2, ![n, c]⟩)
    (x : FVec Ideal ⟨2, ![n, k]⟩ .f32) (w : FVec Ideal ⟨2, ![k, c]⟩ .f32) (b : FVec Ideal ⟨2, ![1, c]⟩ .f32) :
    addf (matmul d none x w (constant ⟨2, ![n, c]⟩ .f32 0x00000000#32)) (broadcastTo ⟨2, ![n, c]⟩ (shapeCast ⟨2, ![1, c]⟩ b hc) hb)
      = Cert.Spec.lin x w b := by
  subst hd
  funext j
  obtain ⟨p, q, rfl⟩ : ∃ (p : Fin n) (q : Fin c), j = ix2 p q := ⟨j 0, j 1, eq_ix2 j⟩
  rw [addf_apply, matmul_zero_eq_dotGeneral, StackMember.dotGeneral_plain_apply, broadcastTo_1b_ab_apply, shapeCast_self]
  rfl

abbrev reg0_a (c : Dev nD) (w : Fin cfg0.W) := V c (Pipeline.arrRef spec0 w)

theorem reg0_pay (x : Vec Ideal S2000x32 .f32) (w : Vec Ideal S32x256 .f32) (b : Vec Ideal S1x256 .f32) :
    k0_pay1 (F := Ideal) x w b = Cert.Spec.lin x w b := lin_pay _ rfl _ _ x w b

/-- At point t the block of the left factor and of the result is tile t; the block of the right factor and of the bias row is the array. -/
theorem reg0_idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- Row r of x · w + b is row r of x against w, plus b: tile t of the product is the product of tile t. -/
theorem reg0_flushed (c : Dev nD) (t : Fin cfg0.N) :
    (dat0 (F := Ideal) V c).flushed 3 t = ((cfg0.win 3).blk t).view.read (Elt Ideal) (Cert.Spec.lin (reg0_a V c 0) (reg0_a V c 1) (reg0_a V c 2)) := by
  obtain ⟨e0, e1, e2, e3⟩ := reg0_idx t
  have ht : t.val * 2000 + 2000 ≤ 50000 := by have := t.isLt; have hN : cfg0.N = 25 := N_0; omega
  show (cfg0.win 3).cut (grid0.coords t) ((dat0 V c).after 3 t) = _
  rw [after0_3]
  unfold out0_3
  rw [View.canon_unit_zero vec00]
  simp only [View.ld_unit_zero (S := S2000x32) vec00, View.ld_unit_zero (S := S32x256) vec00, View.ld_unit_zero (S := S1x256) vec00]
  rw [reg0_pay, show iblk0 V c 0 t = tile t.val ht (reg0_a V c 0) from funext (ld_tile (reg0_a V c 0) _ t.val ht e0),
    show iblk0 V c 1 t = reg0_a V c 1 from funext (ld_whole (reg0_a V c 1) _ e1),
    show iblk0 V c 2 t = reg0_a V c 2 from funext (ld_whole (reg0_a V c 2) _ e2)]
  exact funext fun j => (ld_tile (Cert.Spec.lin (reg0_a V c 0) (reg0_a V c 1) (reg0_a V c 2)) _ t.val ht e3 j).symm

/-- The 25 tiles of 2000 rows cover the 50000 rows. -/
theorem reg0_cover (i : S50000x256.Idx) :
    ∃ t : Fin cfg0.N, (cfg0.win 3).flush t = true ∧ i ∈ ((cfg0.win 3).blk t).view.set :=
  have ht : (i 0).val / 2000 < cfg0.N := by have := idx2_lt0 i; have hN : cfg0.N = 25 := N_0; omega
  ⟨⟨_, ht⟩, flush0_3 _, (congrArg (i ∈ ·) (View.set_slice_whole _ _)).mpr (mem_tile i _ (by decide) (reg0_idx ⟨_, ht⟩).2.2.2)⟩

theorem reg0_out (c : Dev nD) : (dat0 (F := Ideal) V c).arrAt 3 cfg0.N
    = Cert.Spec.lin (V c (Pipeline.arrRef spec0 0)) (V c (Pipeline.arrRef spec0 1)) (V c (Pipeline.arrRef spec0 2)) :=
  (dat0 (F := Ideal) V c).arrAt_eq_of_cover 3 _ (fun t _ => reg0_flushed V c t) reg0_cover

abbrev reg1_a (c : Dev nD) (w : Fin cfg1.W) := V c (Pipeline.arrRef spec1 w)

theorem reg1_pay (x : Vec Ideal S4000x16 .f32) (w : Vec Ideal S16x256 .f32) (b : Vec Ideal S1x256 .f32) :
    k1_pay1 (F := Ideal) x w b = Cert.Spec.lin x w b := lin_pay _ rfl _ _ x w b

/-- The same for the 300000 rows in 75 tiles of 4000. -/
theorem reg1_idx : ∀ t : Fin cfg1.N, win1_0.index t = ![t.val, 0] ∧ win1_1.index t = ![0, 0]
    ∧ win1_2.index t = ![0, 0] ∧ win1_3.index t = ![t.val, 0] :=
  (by decide +kernel : ∀ t : Fin grid1.N, _)

theorem reg1_flushed (c : Dev nD) (t : Fin cfg1.N) :
    (dat1 (F := Ideal) V c).flushed 3 t = ((cfg1.win 3).blk t).view.read (Elt Ideal) (Cert.Spec.lin (reg1_a V c 0) (reg1_a V c 1) (reg1_a V c 2)) := by
  obtain ⟨e0, e1, e2, e3⟩ := reg1_idx t
  have ht : t.val * 4000 + 4000 ≤ 300000 := by have := t.isLt; have hN : cfg1.N = 75 := N_1; omega
  show (cfg1.win 3).cut (grid1.coords t) ((dat1 V c).after 3 t) = _
  rw [after1_3]
  unfold out1_3
  rw [View.canon_unit_zero vec00]
  simp only [View.ld_unit_zero (S := S4000x16) vec00, View.ld_unit_zero (S := S16x256) vec00, View.ld_unit_zero (S := S1x256) vec00]
  rw [reg1_pay, show iblk1 V c 0 t = tile t.val ht (reg1_a V c 0) from funext (ld_tile (reg1_a V c 0) _ t.val ht e0),
    show iblk1 V c 1 t = reg1_a V c 1 from funext (ld_whole (reg1_a V c 1) _ e1),
    show iblk1 V c 2 t = reg1_a V c 2 from funext (ld_whole (reg1_a V c 2) _ e2)]
  exact funext fun j => (ld_tile (Cert.Spec.lin (reg1_a V c 0) (reg1_a V c 1) (reg1_a V c 2)) _ t.val ht e3 j).symm

theorem reg1_cover (i : S300000x256.Idx) :
    ∃ t : Fin cfg1.N, (cfg1.win 3).flush t = true ∧ i ∈ ((cfg1.win 3).blk t).view.set :=
  have ht : (i 0).val / 4000 < cfg1.N := by have := idx2_lt0 i; have hN : cfg1.N = 75 := N_1; omega
  ⟨⟨_, ht⟩, flush1_3 _, (congrArg (i ∈ ·) (View.set_slice_whole _ _)).mpr (mem_tile i _ (by decide) (reg1_idx ⟨_, ht⟩).2.2.2)⟩

theorem reg1_out (c : Dev nD) : (dat1 (F := Ideal) V c).arrAt 3 cfg1.N
    = Cert.Spec.lin (V c (Pipeline.arrRef spec1 0)) (V c (Pipeline.arrRef spec1 1)) (V c (Pipeline.arrRef spec1 2)) :=
  (dat1 (F := Ideal) V c).arrAt_eq_of_cover 3 _ (fun t _ => reg1_flushed V c t) reg1_cover

end Cert.KernelIdeal.Val
end
-- ==== Proof.LibLin.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import proofs.«430164_j87205015978673_1_alg».proof.Proof.Spec

noncomputable section

namespace Cert.LibLin

open Idealize.ShloMosaic Idealize.ShloMosaic.ValueIdx Cert.LibRows Cert.Spec

-- Along an axis of c entries a broadcast reads coordinate q, which is 0 when c = 1.
theorem bcast_coord {c : Nat} (q : Fin c) : q.val = if c = 1 then 0 else q.val := by
  split <;> omega

-- A matrix product plus a bias vector added to every row is lin.
theorem dot_bias_eq_lin {n k c : Nat} (d : DotDims ⟨2, ![n, k]⟩ ⟨2, ![k, c]⟩ ⟨2, ![n, c]⟩) (hd : d = DotDims.plain n k c)
    (prec : Option ContractPrecision)
    (h1 : (⟨1, ![c]⟩ : Shape).BroadcastsInDim ⟨2, ![1, c]⟩ ![1])
    (h2 : (⟨2, ![1, c]⟩ : Shape).BroadcastsInDim ⟨2, ![n, c]⟩ ![0, 1])
    (x : Mat n k) (w : Mat k c) (b : Vct c) :
    addf (F := Ideal) (φ := .f32) (Host.dotGeneral (F := Ideal) (φ₁ := .f32) (φ₂ := .f32) d prec x w)
        (broadcastInDim ⟨2, ![n, c]⟩ ![0, 1] h2 (broadcastInDim ⟨2, ![1, c]⟩ ![1] h1 b))
      = lin x w (row b) := by
  subst hd
  funext i
  obtain ⟨p, q, rfl⟩ : ∃ (p : Fin n) (q : Fin c), i = ix2 p q := ⟨i 0, i 1, eq_ix2 i⟩
  rw [addf_apply, StackMember.dotGeneral_plain_apply,
    broadcastInDim_apply ![0, 1] h2 _ _ (ix2 (0 : Fin 1) q) fun a => by
      match a with
      | ⟨0, _⟩ => rfl
      | ⟨1, _⟩ => exact bcast_coord q,
    broadcastInDim_apply ![1] h1 b _ (ix1 q) fun a => by
      match a with
      | ⟨0, _⟩ => exact bcast_coord q]
  rfl

-- Rows added into a zero matrix at the rows their index words name are the segment sum.
theorem scatter_zero_eq_segsum {N C R : Nat} (wf : ScatterDims.WF ⟨2, ![N, C]⟩ ⟨2, ![R, 1]⟩ ⟨2, ![R, C]⟩ [1] [0] [0] 1)
    (d : ScatterDims ⟨2, ![N, C]⟩ ⟨2, ![R, 1]⟩ ⟨2, ![R, C]⟩) (hd : d = rowScatterDims N C R wf)
    (h0 : (⟨0, ![]⟩ : Shape).BroadcastsInDim ⟨2, ![N, C]⟩ ![])
    (hb : (⟨1, ![R]⟩ : Shape).BroadcastsInDim ⟨2, ![R, 1]⟩ ![0])
    (v : IVct R) (u : Mat R C) :
    Host.scatterAdd (F := Ideal) (φ := .f32) d
        (broadcastInDim ⟨2, ![N, C]⟩ ![] h0 (constant (F := Ideal) ⟨0, ![]⟩ .f32 0x00000000#32))
        (broadcastInDim ⟨2, ![R, 1]⟩ ![0] hb v) u
      = segsum (idxCol v) u := by
  subst hd
  funext i
  obtain ⟨p, q, rfl⟩ : ∃ (p : Fin N) (q : Fin C), i = ix2 p q := ⟨i 0, i 1, eq_ix2 i⟩
  rw [scatterAdd_rows_apply, broadcastInDim_scalar_apply, constant_apply, Ideal.ofBits_zero_f32, zero_add]
  refine Finset.sum_congr rfl fun e _ => ?_
  rw [broadcastInDim_apply ![0] hb v (ix2 e (0 : Fin 1)) (ix1 e) fun a => by
    match a with
    | ⟨0, _⟩ => exact bcast_coord e]
  rfl

-- The maximum with zero in every entry is the rectifier.
theorem max_zero_eq_relu {s : Shape} (h : (⟨0, ![]⟩ : Shape).BroadcastsInDim s ![]) (x : s.Idx → EReal) :
    maximumf (F := Ideal) (φ := .f32) x (broadcastInDim s ![] h (constant (F := Ideal) ⟨0, ![]⟩ .f32 0x00000000#32))
      = fun i => relu (x i) := by
  funext i
  rw [maximumf_apply, broadcastInDim_scalar_apply, constant_apply, Ideal.ofBits_zero_f32]
  rfl

theorem cast_eq_row {c : Nat} (h : (⟨1, ![c]⟩ : Shape).ShapeCasts ⟨2, ![1, c]⟩) (b : Vct c) :
    shapeCast ⟨2, ![1, c]⟩ b h = row b := by
  funext i
  obtain ⟨u, q, rfl⟩ : ∃ (u : Fin 1) (q : Fin c), i = ix2 u q := ⟨i 0, i 1, eq_ix2 i⟩
  rw [shapeCast_a_1a_apply]
  rfl

-- Row r of an integer matrix, cut out as a one-row matrix and recast as a vector, holds that row's entries.
theorem slice_cast_eq_row {a e : Nat} (r : Fin a) (off : Fin 2 → Nat) (h0 : off 0 = r.val) (h1 : off 1 = 0)
    (hs : (⟨2, ![a, e]⟩ : Shape).Slices off ⟨2, ![1, e]⟩) (hc : (⟨2, ![1, e]⟩ : Shape).ShapeCasts ⟨1, ![e]⟩)
    (x : IMat a e) :
    shapeCast ⟨1, ![e]⟩ (extractStridedSlice ⟨2, ![1, e]⟩ off x hs) hc = (fun i => x (ix2 r (i 0)) : IVct e) := by
  funext i
  obtain ⟨q, rfl⟩ : ∃ q : Fin e, i = ix1 q := ⟨i 0, eq_ix1 i⟩
  rw [shapeCast_1a_a_apply]
  exact extractStridedSlice_apply off x hs (ix2 (0 : Fin 1) q) (ix2 r q) fun b => by
    match b with
    | ⟨0, _⟩ => exact h0.symm
    | ⟨1, _⟩ => exact (Nat.zero_add _).symm.trans (congrArg (· + q.val) h1.symm)

end Cert.LibLin

end
-- ==== Proof.KFoldEnds.lean ====
import proofs.«430164_j87205015978673_1_alg».proof.Proof.KKeep
import proofs.«430164_j87205015978673_1_alg».proof.Proof.KInputs
import proofs.«430164_j87205015978673_1_alg».proof.Proof.RegLin
import proofs.«430164_j87205015978673_1_alg».proof.Proof.LibLin
noncomputable section
namespace Cert.KernelIdeal.Val
open Cert.KernelIdeal Cert.KernelIdeal.Gen Idealize.ShloMosaic Idealize.ShloMosaic.TcCoe Idealize.SL.Sem Idealize.ShloMosaic.ValueIdx

section Stretches
variable (W : Valuation τ sig (Elt Ideal))

theorem pre_src :
    StableHlo.after (hostOps0 (F := Ideal)) W (Proc.devRef .tc main_v1)
      = (fun i => W (Proc.devRef .tc main_arg1) (ix2 0 (i 0)) : Cert.Spec.IVct 300000) := by
  after_results
  exact Cert.LibLin.slice_cast_eq_row (0 : Fin 2) ![0, 0] rfl rfl slices_S2x300000_S1x300000_0_0
    shapeCasts_S1x300000_S300000 (W (Proc.devRef .tc main_arg1))

theorem pre_dst :
    StableHlo.after (hostOps0 (F := Ideal)) W (Proc.devRef .tc main_v3)
      = (fun i => W (Proc.devRef .tc main_arg1) (ix2 1 (i 0)) : Cert.Spec.IVct 300000) := by
  after_results
  exact Cert.LibLin.slice_cast_eq_row (1 : Fin 2) ![1, 0] rfl rfl slices_S2x300000_S1x300000_1_0
    shapeCasts_S1x300000_S300000 (W (Proc.devRef .tc main_arg1))

theorem pre_node_bias :
    StableHlo.after (hostOps0 (F := Ideal)) W (Proc.devRef .tc main_v4)
      = Cert.Spec.row (W (Proc.devRef .tc main_arg5)) := by
  after_results
  exact Cert.LibLin.cast_eq_row shapeCasts_S256_S1x256 (W (Proc.devRef .tc main_arg5))

theorem pre_edge_bias :
    StableHlo.after (hostOps1 (F := Ideal)) W (Proc.devRef .tc main_v6)
      = Cert.Spec.row (W (Proc.devRef .tc main_arg7)) := by
  after_results
  exact Cert.LibLin.cast_eq_row shapeCasts_S256_S1x256 (W (Proc.devRef .tc main_arg7))

theorem tail_pool_lin :
    StableHlo.after (hostOps14 (F := Ideal)) W (Proc.devRef .tc main_v130)
      = Cert.Spec.lin (Cert.Spec.segsum (Cert.Spec.idxCol (W (Proc.devRef .tc main_arg2))) (W (Proc.devRef .tc main_v123)))
          (W (Proc.devRef .tc main_arg14)) (Cert.Spec.row (W (Proc.devRef .tc main_arg15))) := by
  after_results
  rw [Cert.LibLin.scatter_zero_eq_segsum scatter_S128x256_S50000x1_S50000x256_1_0_0_1_wf
    scatter_S128x256_S50000x1_S50000x256_1_0_0_1 rfl bcast_S_S128x256 bcast_S50000_S50000x1_0
    (W (Proc.devRef .tc main_arg2)) (W (Proc.devRef .tc main_v123))]
  exact Cert.LibLin.dot_bias_eq_lin dot_S128x256_S256x128_S128x128_1_0_0_1_n_n rfl none bcast_S128_S1x128_1
    bcast_S1x128_S128x128_0_1 _ (W (Proc.devRef .tc main_arg14)) (W (Proc.devRef .tc main_arg15))

theorem tail_relu :
    StableHlo.after (hostOps14_1 (F := Ideal)) W (Proc.devRef .tc main_v131)
      = (fun i => Cert.Spec.relu (W (Proc.devRef .tc main_v130) i) : Cert.Spec.Mat 128 128) := by
  after_results
  exact Cert.LibLin.max_zero_eq_relu bcast_S_S128x128 (W (Proc.devRef .tc main_v130))

theorem tail_lin :
    StableHlo.after (hostOps14_2 (F := Ideal)) W (Proc.devRef .tc main_v135)
      = Cert.Spec.lin (W (Proc.devRef .tc main_v131)) (W (Proc.devRef .tc main_arg16))
          (Cert.Spec.row (W (Proc.devRef .tc main_arg17))) := by
  after_results
  exact Cert.LibLin.dot_bias_eq_lin dot_S128x128_S128x12_S128x12_1_0_0_1_n_n rfl none bcast_S12_S1x12_1
    bcast_S1x12_S128x12_0_1 (W (Proc.devRef .tc main_v131)) (W (Proc.devRef .tc main_arg16)) (W (Proc.devRef .tc main_arg17))

theorem tail_arg16 : StableHlo.after (hostOps14_1 (F := Ideal)) (StableHlo.after hostOps14 W) (Proc.devRef .tc main_arg16)
    = W (Proc.devRef .tc main_arg16) := by
  after_results

theorem tail_arg17 : StableHlo.after (hostOps14_1 (F := Ideal)) (StableHlo.after hostOps14 W) (Proc.devRef .tc main_arg17)
    = W (Proc.devRef .tc main_arg17) := by
  after_results

end Stretches

variable (m : (ℓ : Loc nD τ sig) → Buf (Elt Ideal) ℓ) (ρ : Dev nD → PrngReg)

/-- A buffer the second stretch does not write and that is no array of the first two regions holds at the first layer's entry what the first stretch left. -/
theorem keepA1 (c : Dev nD) (b : Ref sig .tc)
    (h : (∀ w, Pipeline.arrRef spec0 w ≠ b) ∧ b ∉ wr1 ∧ (∀ w, Pipeline.arrRef spec1 w ≠ b)) :
    W4 (F := Ideal) m ρ c (Proc.devRef .tc b) = W1 m ρ c (Proc.devRef .tc b) :=
  (W4_of_ne m ρ c b h.2.2).trans <| (StableHlo.after_of_writes_sub hostOps1 _ wr1_sub h.2.1).trans (W2_of_ne m ρ c b h.1)

/-- The node features at the first layer's entry: x · W_node + b_node. -/
theorem A_h (c : Dev nD) : W4 (F := Ideal) m ρ c (Proc.devRef .tc main_v5) = Cert.Spec.h0 (inputsK m c) := by
  have e0 : V1 (F := Ideal) m ρ c (Pipeline.arrRef spec0 0) = W0 m ρ c (Proc.devRef .tc main_arg0) := StableHlo.after_of_writes_sub hostOps0 (W0 m ρ c) wr0_sub (by decide : main_arg0 ∉ wr0)
  have e1 : V1 (F := Ideal) m ρ c (Pipeline.arrRef spec0 1) = W0 m ρ c (Proc.devRef .tc main_arg4) := StableHlo.after_of_writes_sub hostOps0 (W0 m ρ c) wr0_sub (by decide : main_arg4 ∉ wr0)
  have e2 : V1 (F := Ideal) m ρ c (Pipeline.arrRef spec0 2) = Cert.Spec.row (W0 m ρ c (Proc.devRef .tc main_arg5)) :=
    pre_node_bias (W0 m ρ c)
  refine (W4_of_ne m ρ c main_v5 (by decide)).trans <| (StableHlo.after_of_writes_sub hostOps1 _ wr1_sub (by decide)).trans <|
    (W2_arr m ρ c 3).trans <| (reg0_out (V1 m ρ) c).trans ?_
  rw [e0, e1, e2]
  rfl

/-- The edge features at the first layer's entry: edge_attr · W_edge + b_edge. -/
theorem A_ea (c : Dev nD) : W4 (F := Ideal) m ρ c (Proc.devRef .tc main_v7) = Cert.Spec.ea (inputsK m c) := by
  have k : ∀ b : Ref sig .tc, b ∉ wr0 ∧ (∀ w, Pipeline.arrRef spec0 w ≠ b) →
      W2 (F := Ideal) m ρ c (Proc.devRef .tc b) = W0 m ρ c (Proc.devRef .tc b) := fun b h =>
    (W2_of_ne m ρ c b h.2).trans (StableHlo.after_of_writes_sub hostOps0 (W0 m ρ c) wr0_sub h.1)
  have e0 : V3 (F := Ideal) m ρ c (Pipeline.arrRef spec1 0) = W0 m ρ c (Proc.devRef .tc main_arg3) :=
    (StableHlo.after_of_writes_sub hostOps1 _ wr1_sub (by decide)).trans (k main_arg3 (by decide))
  have e1 : V3 (F := Ideal) m ρ c (Pipeline.arrRef spec1 1) = W0 m ρ c (Proc.devRef .tc main_arg6) :=
    (StableHlo.after_of_writes_sub hostOps1 _ wr1_sub (by decide)).trans (k main_arg6 (by decide))
  have e2 : V3 (F := Ideal) m ρ c (Pipeline.arrRef spec1 2) = Cert.Spec.row (W0 m ρ c (Proc.devRef .tc main_arg7)) :=
    (pre_edge_bias (W2 m ρ c)).trans (congrArg Cert.Spec.row (k main_arg7 (by decide)))
  refine (W4_arr m ρ c 3).trans <| (reg1_out (V3 m ρ) c).trans ?_
  rw [e0, e1, e2]
  rfl

/-- At the first layer's entry the kept buffers hold the inputs' edge indices, edge features and weights. -/
theorem held0 (c : Dev nD) : Held (inputsK m c) (W4 m ρ c) :=
  ⟨(keepA1 m ρ c main_v1 (by decide)).trans (pre_src (W0 m ρ c)), (keepA1 m ρ c main_v3 (by decide)).trans (pre_dst (W0 m ρ c)),
   A_ea m ρ c, keepA m ρ c _ (by decide), keepA m ρ c _ (by decide), keepA m ρ c _ (by decide), keepA m ρ c _ (by decide), keepA m ρ c _ (by decide), keepA m ρ c _ (by decide), keepA m ρ c _ (by decide), keepA m ρ c _ (by decide), keepA m ρ c _ (by decide), keepA m ρ c _ (by decide), keepA m ρ c _ (by decide)⟩

/-- The result: the last layer's node features pooled by graph, then the head. -/
theorem T_out (c : Dev nD) (I : Cert.Spec.Inputs) (h : Cert.Spec.Mat 50000 256)
    (hh : W28 (F := Ideal) m ρ c (Proc.devRef .tc main_v123) = h) (H : Held I (W28 m ρ c)) :
    W31 (F := Ideal) m ρ c (Proc.devRef .tc main_v135) = Cert.Spec.out I h := by
  have a16 : W30 (F := Ideal) m ρ c (Proc.devRef .tc main_arg16) = I.hw2 := (tail_arg16 (W28 m ρ c)).trans H.a16
  have a17 : W30 (F := Ideal) m ρ c (Proc.devRef .tc main_arg17) = I.hb2 := (tail_arg17 (W28 m ρ c)).trans H.a17
  have e1 : W30 (F := Ideal) m ρ c (Proc.devRef .tc main_v131)
      = (fun i => Cert.Spec.relu (W29 m ρ c (Proc.devRef .tc main_v130) i) : Cert.Spec.Mat 128 128) := tail_relu (W29 m ρ c)
  have e0 : W29 (F := Ideal) m ρ c (Proc.devRef .tc main_v130)
      = Cert.Spec.lin (Cert.Spec.pool I h) I.hw1 (Cert.Spec.row I.hb1) :=
    (tail_pool_lin (W28 m ρ c)).trans (by rw [hh, H.a2, H.a14, H.a15]; rfl)
  refine (tail_lin (W30 m ρ c)).trans ?_
  rw [e1, a16, a17, e0]
  rfl

end Cert.KernelIdeal.Val
end
-- ==== Proof.RegMsg2.lean ====
import proofs.«430164_j87205015978673_1_alg».proof.Proof.Gen.KernelIdeal.Frame
import proofs.«430164_j87205015978673_1_alg».proof.Proof.Spec
import proofs.«430164_j87205015978673_1_alg».proof.Proof.LibTile
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The tile's arithmetic is the message map, max (a + b) 0 entry by entry. -/
theorem reg2_pay (x0 x1 : Vec Ideal S4000x256 .f32) : k2_pay1 x0 x1 = Cert.Spec.msgf x0 x1 := by
  funext j
  unfold k2_pay1
  simp only [shapeCast_self]
  rw [maximumf_apply, addf_apply, broadcast_apply]
  show max (x0 j + x1 j) (Ideal.ofBits .f32 0x00000000#32) = _
  rw [Ideal.ofBits_zero_f32]
  rfl

/-- At point t every window's block index is (t, 0). -/
theorem reg2_idx : ∀ t : Fin cfg2.N,
    win2_0.index t = ![t.val, 0] ∧ win2_1.index t = ![t.val, 0] ∧ win2_2.index t = ![t.val, 0] :=
  (by decide +kernel : ∀ t : Fin grid2.N, _)

/-- The message map acts entry by entry, so tile t of the message array is the message map of the two tiles t. -/
theorem reg2_flushed (c : Dev nD) (t : Fin cfg2.N) :
    (dat2 (F := Ideal) V c).flushed 2 t = ((cfg2.win 2).blk t).view.read (Elt Ideal)
      (Cert.Spec.msgf (V c (Pipeline.arrRef spec2 0)) (V c (Pipeline.arrRef spec2 1))) := by
  obtain ⟨e0, e1, e2⟩ := reg2_idx t
  have ht : t.val * 4000 + 4000 ≤ 300000 := by have := t.isLt; have hN : cfg2.N = 75 := N_2; omega
  show (cfg2.win 2).cut (grid2.coords t) ((dat2 V c).after 2 t) = _
  rw [after2_2]
  unfold out2_2
  rw [View.canon_unit_zero vec00]
  simp only [View.ld_unit_zero (S := S4000x256) vec00]
  rw [reg2_pay]
  funext j
  exact (congrArg₂ (fun a b => Cert.Spec.relu (a + b)) (ld_tile (V c (Pipeline.arrRef spec2 0)) _ t.val ht e0 j)
    (ld_tile (V c (Pipeline.arrRef spec2 1)) _ t.val ht e1 j)).trans
    (ld_tile (Cert.Spec.msgf (V c (Pipeline.arrRef spec2 0)) (V c (Pipeline.arrRef spec2 1))) _ t.val ht e2 j).symm

/-- The 75 tiles of 4000 rows cover the 300000 rows. -/
theorem reg2_cover (i : S300000x256.Idx) :
    ∃ t : Fin cfg2.N, (cfg2.win 2).flush t = true ∧ i ∈ ((cfg2.win 2).blk t).view.set :=
  have ht : (i 0).val / 4000 < cfg2.N := by have := idx2_lt0 i; have hN : cfg2.N = 75 := N_2; omega
  ⟨⟨_, ht⟩, flush2_2 _, (congrArg (i ∈ ·) (View.set_slice_whole _ _)).mpr (mem_tile i _ (by decide) (reg2_idx ⟨_, ht⟩).2.2)⟩

theorem reg2_out (c : Dev nD) :
    (dat2 (F := Ideal) V c).arrAt 2 cfg2.N
      = Cert.Spec.msgf (V c (Pipeline.arrRef spec2 0)) (V c (Pipeline.arrRef spec2 1)) :=
  (dat2 (F := Ideal) V c).arrAt_eq_of_cover 2 _ (fun t _ => reg2_flushed V c t) reg2_cover

end Cert.KernelIdeal.Val

end
-- ==== Proof.RegMlp3Pay.lean ====
import proofs.«430164_j87205015978673_1_alg».proof.Proof.Gen.KernelIdeal.Skeleton
import proofs.«430164_j87205015978673_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx

/-- The record is the plain row-by-column product, so into the zero accumulator it is ∑ₖ x (p, k) · w (k, q). -/
theorem reg3_mm_apply (x : FVec Ideal S2000x256 .f32) (w : FVec Ideal S256x256 .f32) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) :=
  (Ideal.matmul_constant_zero_apply _ none x w (ix2 p q)).trans
    ((Ideal.dotGeneral_apply (DotDims.plain 2000 256 256) none _ x w (ix2 p q)).symm.trans
      (StackMember.dotGeneral_plain_apply none x w p q))

/-- The sum of a tile over its rows, kept as a one-row matrix: ∑ₚ x (p, q). -/
theorem reg3_rowsum_apply (x : FVec Ideal S2000x256 .f32) (hφ : FKind.Formats FTy.f32)
    (hacc : (0x00000000#32 : BitVec FTy.f32.bits) = FKind.add.neutral FTy.f32 hφ) (u : Fin 1) (q : Fin 256) :
    shapeCast S1x256 (multiReduction (F := Ideal) .add [0] S256 x 0x00000000#32 reduces_S2000x256_S256 hφ hacc)
      shapeCasts_S256_S1x256 (ix2 u q) = ∑ p : Fin 2000, x (ix2 p q) :=
  (shapeCast_a_1a_apply _ shapeCasts_S256_S1x256 u q).trans
    ((Ideal.multiReduction_add_single x _ reduces_S2000x256_S256 hφ hacc (ix1 q)).trans
      (Finset.sum_congr rfl fun _ _ => congrArg x (Shape.idx_ext₂ rfl rfl)))

section
variable (h agg : Vec Ideal S2000x256 .f32) (w1 : Vec Ideal S256x256 .f32) (b1 : Vec Ideal S1x256 .f32)
  (w2 : Vec Ideal S256x256 .f32) (b2 : Vec Ideal S1x256 .f32)

/-- The tile of z is the two-layer perceptron on the tiles of h and agg. -/
theorem reg3_pay4_eq : k3_pay4 (F := Ideal) h agg w1 b1 w2 b2 = Cert.Spec.mlp h agg w1 b1 w2 b2 := by
  funext y
  obtain ⟨p, q, rfl⟩ : ∃ (p : Fin 2000) (q : Fin 256), y = ix2 p q := ⟨y 0, y 1, eq_ix2 y⟩
  unfold k3_pay4
  simp only [shapeCast_self]
  refine (addf_apply _ _ _).trans (congrArg₂ (· + ·) ((reg3_mm_apply _ _ p q).trans ?_) (broadcastTo_1b_ab_apply _ _ p q))
  refine Finset.sum_congr rfl fun k _ => congrArg (· * w2 (ix2 k q)) ((maximumf_apply _ _ _).trans ?_)
  refine congrArg₂ max ((addf_apply _ _ _).trans ?_) Ideal.ofBits_zero_f32
  exact congrArg₂ (· + ·) (reg3_mm_apply _ _ p k) (broadcastTo_1b_ab_apply _ _ p k)

/-- The carried row of sums grows by the column sums of the tile of z. -/
theorem reg3_pay5_apply (s : Vec Ideal S1x256 .f32) (u : Fin 1) (q : Fin 256) :
    k3_pay5 (F := Ideal) h agg w1 b1 w2 b2 s (ix2 u q) = s (ix2 u q) + ∑ p : Fin 2000, k3_pay4 (F := Ideal) h agg w1 b1 w2 b2 (ix2 p q) := by
  unfold k3_pay5
  simp only [shapeCast_self]
  exact (addf_apply _ _ _).trans (congrArg (s (ix2 u q) + ·) (reg3_rowsum_apply _ _ _ u q))

end

/-- The carried row of sums of squares grows by the column sums of the squares of a tile. -/
theorem reg3_pay1_apply (z : FVec Ideal S2000x256 .f32) (ss : Vec Ideal S1x256 .f32) (u : Fin 1) (q : Fin 256) :
    k3_pay1 (F := Ideal) z ss (ix2 u q) = ss (ix2 u q) + ∑ p : Fin 2000, z (ix2 p q) * z (ix2 p q) := by
  unfold k3_pay1
  simp only [shapeCast_self]
  exact (addf_apply _ _ _).trans (congrArg (ss (ix2 u q) + ·) ((reg3_rowsum_apply _ _ _ u q).trans
    (Finset.sum_congr rfl fun p _ => mulf_apply _ _ _)))

theorem reg3_pay2_apply (i : S1x256.Idx) : k3_pay2 (F := Ideal) i = 0 := Ideal.ofBits_zero_f32
theorem reg3_pay3_apply (i : S1x256.Idx) : k3_pay3 (F := Ideal) i = 0 := Ideal.ofBits_zero_f32

theorem reg3_hz : (![0, 0] : Fin 2 → Nat) = fun _ => 0 := funext fun a => by fin_cases a <;> rfl

/-- Row r of a matrix at column q, and zero past the last row, so that a tile's addend is a function of every natural number. -/
def reg3_rowOr0 (f : Cert.Spec.Mat 50000 256) (r : ℕ) (q : Fin 256) : EReal :=
  if hr : r < 50000 then f (ix2 ⟨r, hr⟩ q) else 0

theorem reg3_rowOr0_of_lt (f : Cert.Spec.Mat 50000 256) (r : Fin 50000) (q : Fin 256) (n : ℕ) (hn : n = r.val) :
    reg3_rowOr0 f n q = f (ix2 r q) := by
  subst hn; exact dif_pos r.isLt

/-- Row s · 2000 + p is row p of tile s, so a sum over the 50000 rows is the sum over the 25 tiles of the sums over each tile's rows. -/
theorem reg3_sum_tiles {M : Type*} [AddCommMonoid M] (g : ℕ → M) :
    ∑ s ∈ Finset.range 25, ∑ p : Fin 2000, g (s * 2000 + p.val) = ∑ r : Fin 50000, g r.val := by
  rw [Finset.sum_range, ← Equiv.sum_comp (finProdFinEquiv (m := 25) (n := 2000)) fun r => g r.val, Fintype.sum_prod_type]
  exact Finset.sum_congr rfl fun s _ => Finset.sum_congr rfl fun p _ =>
    congrArg g ((Nat.add_comm _ _).trans (congrArg (p.val + ·) (Nat.mul_comm _ _)))

/-- The sums of φ of the entries over the rows of all 25 tiles are the column sums of φ of the matrix. -/
theorem reg3_colSum_of_tiles (f : Cert.Spec.Mat 50000 256) (φ : EReal → EReal) (u : Fin 1) (q : Fin 256) :
    ∑ s ∈ Finset.range (24 + 1), ∑ p : Fin 2000, φ (reg3_rowOr0 f (s * 2000 + p.val) q)
      = Cert.Spec.colSum (fun j => φ (f j)) (ix2 u q) :=
  (reg3_sum_tiles fun n => φ (reg3_rowOr0 f n q)).trans
    (Finset.sum_congr rfl fun r _ => congrArg φ (reg3_rowOr0_of_lt f r q _ rfl))

end Cert.KernelIdeal.Val
end
-- ==== Proof.RegMlp3.lean ====
import proofs.«430164_j87205015978673_1_alg».proof.Proof.Gen.KernelIdeal.Frame
import proofs.«430164_j87205015978673_1_alg».proof.Proof.Spec
import proofs.«430164_j87205015978673_1_alg».proof.Proof.RegMlp3Pay
import proofs.«430164_j87205015978673_1_alg».proof.Proof.LibTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

section Pieces

variable {F : FTy → Type} [FloatOps F] (c : Dev nD) (i : grid3.Coords)
  (a1 : Memref sig .tc .vmem S2000x256 .f32) (h1 : a1.IsWhole) (a2 : Memref sig .tc .vmem S2000x256 .f32) (h2 : a2.IsWhole)
  (a3 : Memref sig .tc .vmem S256x256 .f32) (h3 : a3.IsWhole) (a4 : Memref sig .tc .vmem S1x256 .f32) (h4 : a4.IsWhole)
  (a5 : Memref sig .tc .vmem S256x256 .f32) (h5 : a5.IsWhole) (a6 : Memref sig .tc .vmem S1x256 .f32) (h6 : a6.IsWhole)
  (a7 : Memref sig .tc .vmem S2000x256 .f32) (h7 : a7.IsWhole) (a8 : Memref sig .tc .vmem S1x256 .f32) (h8 : a8.IsWhole)
  (a9 : Memref sig .tc .vmem S1x256 .f32) (h9 : a9.IsWhole)
  (x0 x1 : Vec F S2000x256 .f32) (x2 : Vec F S256x256 .f32) (x3 : Vec F S1x256 .f32) (x4 : Vec F S256x256 .f32) (x5 : Vec F S1x256 .f32)

theorem reg3_out_A (hc : cond3_0 i) :
    (out3_A_6 c i a1 h1 a2 h2 a3 h3 a4 h4 a5 h5 a6 h6 a7 h7 a8 h8 a9 h9 hc x0 x1 x2 x3 x4 x5, out3_A_7 c i a1 h1 a2 h2 a3 h3 a4 h4 a5 h5 a6 h6 a7 h7 a8 h8 a9 h9 hc x0 x1 x2 x3 x4 x5, out3_A_8 c i a1 h1 a2 h2 a3 h3 a4 h4 a5 h5 a6 h6 a7 h7 a8 h8 a9 h9 hc x0 x1 x2 x3 x4 x5)
      = (k3_pay4 x0 x1 x2 x3 x4 x5, k3_pay5 x0 x1 x2 x3 x4 x5 k3_pay2, k3_pay1 (k3_pay4 x0 x1 x2 x3 x4 x5) k3_pay3) := by
  unfold out3_A_6 out3_A_7 out3_A_8
  simp only [View.read_writes_junk_eq_canon]
  unfold kernelRun3_A
  dsimp only
  sl_unfold_words
  simp only [View.canon_cons_unit_zero (S := S2000x256) reg3_hz, View.canon_cons_unit_zero (S := S1x256) reg3_hz,
    View.readCov_unit_zero (S := S1x256) _ reg3_hz, View.readAt_eq_ld, h1.read_unread, h2.read_unread, h3.read_unread, h4.read_unread,
    h5.read_unread, h6.read_unread, View.ld_unit_zero (S := S2000x256) reg3_hz, View.ld_unit_zero (S := S256x256) reg3_hz,
    View.ld_unit_zero (S := S1x256) reg3_hz]

theorem reg3_out_B (hc : ¬cond3_0 i) (xo7 xo8 : Vec F S1x256 .f32) :
    (out3_B_6 c i a1 h1 a2 h2 a3 h3 a4 h4 a5 h5 a6 h6 a7 h7 a8 h8 a9 h9 hc x0 x1 x2 x3 x4 x5 xo7 xo8, out3_B_7 c i a1 h1 a2 h2 a3 h3 a4 h4 a5 h5 a6 h6 a7 h7 a8 h8 a9 h9 hc x0 x1 x2 x3 x4 x5 xo7 xo8, out3_B_8 c i a1 h1 a2 h2 a3 h3 a4 h4 a5 h5 a6 h6 a7 h7 a8 h8 a9 h9 hc x0 x1 x2 x3 x4 x5 xo7 xo8)
      = (k3_pay4 x0 x1 x2 x3 x4 x5, k3_pay5 x0 x1 x2 x3 x4 x5 xo7, k3_pay1 (k3_pay4 x0 x1 x2 x3 x4 x5) xo8) := by
  unfold out3_B_6 out3_B_7 out3_B_8
  simp only [View.read_writes_junk_eq_canon]
  unfold kernelRun3_B
  dsimp only
  sl_unfold_words
  simp only [View.canon_cons_unit_zero (S := S2000x256) reg3_hz, View.canon_cons_unit_zero (S := S1x256) reg3_hz,
    View.readAt_eq_ld, h1.read_unread, h2.read_unread, h3.read_unread, h4.read_unread, h5.read_unread, h6.read_unread,
    h8.read_unread, h9.read_unread, View.ld_unit_zero (S := S2000x256) reg3_hz, View.ld_unit_zero (S := S256x256) reg3_hz,
    View.ld_unit_zero (S := S1x256) reg3_hz]

end Pieces

/-- The tile of z at point t: the perceptron on the six blocks of the point. -/
abbrev reg3_zt (c : Dev nD) (t : Fin cfg3.N) : FVec Ideal S2000x256 .f32 :=
  k3_pay4 (iblk3 V c 0 t) (iblk3 V c 1 t) (iblk3 V c 2 t) (iblk3 V c 3 t) (iblk3 V c 4 t) (iblk3 V c 5 t)

/-- z on all 50000 rows, of the arrays as the region finds them. -/
abbrev reg3_Z (c : Dev nD) : Cert.Spec.Mat 50000 256 :=
  Cert.Spec.mlp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))

/-- After a first point: the tile of z, and the column sums of the tile and of its squares added to zero rows; -/
theorem reg3_outs_A (c : Dev nD) (t : Fin cfg3.N) (h0 : t.val % 25 = 0) :
    outsAt3 V c t.val t.isLt = (reg3_zt V c t, k3_pay5 (iblk3 V c 0 t) (iblk3 V c 1 t) (iblk3 V c 2 t) (iblk3 V c 3 t) (iblk3 V c 4 t) (iblk3 V c 5 t) (k3_pay2 (F := Ideal)), k3_pay1 (reg3_zt V c t) (k3_pay3 (F := Ideal))) :=
  (outsAt3_A V c t h0).trans (reg3_out_A ..)

/-- after any other point, added to the rows the point before left. -/
theorem reg3_outs_B (c : Dev nD) (t : Fin cfg3.N) (h0 : ¬t.val % 25 = 0) :
    outsAt3 V c t.val t.isLt = (reg3_zt V c t, k3_pay5 (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1, k3_pay1 (reg3_zt V c t) (outsAt3 V c (t.val - 1) (Nat.lt_of_le_of_lt (Nat.sub_le _ _) t.isLt)).2.2) :=
  (outsAt3_B V c t h0).trans (reg3_out_B ..)

/-- The index maps over the grid: the tiles of h, agg and z are at block row t, everything else at block (0, 0). -/
theorem reg3_idx : ∀ t : Fin cfg3.N, win3_0.index t = ![t.val, 0] ∧ win3_1.index t = ![t.val, 0] ∧ win3_2.index t = ![0, 0]
    ∧ win3_3.index t = ![0, 0] ∧ win3_4.index t = ![0, 0] ∧ win3_5.index t = ![0, 0] ∧ win3_6.index t = ![t.val, 0]
    ∧ win3_7.index t = ![0, 0] ∧ win3_8.index t = ![0, 0] :=
  (by decide +kernel : ∀ t : Fin grid3.N, _)

theorem reg3_in (t : Fin cfg3.N) : t.val * 2000 + 2000 ≤ 50000 := by
  have hN : cfg3.N = 25 := N_3
  have := t.isLt
  omega

/-- Read through the point's input blocks, a matrix gives its tile t (h and agg) or itself (the weights and biases). -/
theorem reg3_rd0 (t : Fin cfg3.N) (G : Cert.Spec.Mat 50000 256) :
    ((cfg3.win 0).blk t).view.read (Elt Ideal) G = Cert.LibTile.tile t.val (reg3_in t) G :=
  funext (Cert.LibTile.ld_tile G _ t.val (reg3_in t) (reg3_idx t).1)

theorem reg3_rd1 (t : Fin cfg3.N) (G : Cert.Spec.Mat 50000 256) :
    ((cfg3.win 1).blk t).view.read (Elt Ideal) G = Cert.LibTile.tile t.val (reg3_in t) G :=
  funext (Cert.LibTile.ld_tile G _ t.val (reg3_in t) (reg3_idx t).2.1)

theorem reg3_rd2 (t : Fin cfg3.N) (G : Cert.Spec.Mat 256 256) : ((cfg3.win 2).blk t).view.read (Elt Ideal) G = G :=
  funext (Cert.LibTile.ld_whole G _ (reg3_idx t).2.2.1)

theorem reg3_rd3 (t : Fin cfg3.N) (G : Cert.Spec.Mat 1 256) : ((cfg3.win 3).blk t).view.read (Elt Ideal) G = G :=
  funext (Cert.LibTile.ld_whole G _ (reg3_idx t).2.2.2.1)

theorem reg3_rd4 (t : Fin cfg3.N) (G : Cert.Spec.Mat 256 256) : ((cfg3.win 4).blk t).view.read (Elt Ideal) G = G :=
  funext (Cert.LibTile.ld_whole G _ (reg3_idx t).2.2.2.2.1)

theorem reg3_rd5 (t : Fin cfg3.N) (G : Cert.Spec.Mat 1 256) : ((cfg3.win 5).blk t).view.read (Elt Ideal) G = G :=
  funext (Cert.LibTile.ld_whole G _ (reg3_idx t).2.2.2.2.2.1)

/-- The tile of z at point t is tile t of z: the blocks of h and agg are their tiles t, the weights and biases are whole, and the perceptron acts row by row. -/
theorem reg3_zt_eq (c : Dev nD) (t : Fin cfg3.N) : reg3_zt V c t = Cert.LibTile.tile t.val (reg3_in t) (reg3_Z V c) := by
  have h0 : iblk3 V c 0 t = _ := reg3_rd0 t _
  have h1 : iblk3 V c 1 t = _ := reg3_rd1 t _
  have h2 : iblk3 V c 2 t = _ := reg3_rd2 t _
  have h3 : iblk3 V c 3 t = _ := reg3_rd3 t _
  have h4 : iblk3 V c 4 t = _ := reg3_rd4 t _
  have h5 : iblk3 V c 5 t = _ := reg3_rd5 t _
  rw [reg3_zt, h0, h1, h2, h3, h4, h5, reg3_pay4_eq]
  rfl

theorem reg3_outs6 (c : Dev nD) (t : Fin cfg3.N) : (outsAt3 V c t.val t.isLt).1 = reg3_zt V c t := by
  by_cases h0 : t.val % 25 = 0
  · rw [reg3_outs_A V c t h0]
  · rw [reg3_outs_B V c t h0]

/-- An entry of the tile of z at point t is the matching row of z. -/
theorem reg3_zt_row (c : Dev nD) (t : Fin cfg3.N) (p : Fin 2000) (q : Fin 256) :
    reg3_zt V c t (ix2 p q) = reg3_rowOr0 (reg3_Z V c) (t.val * 2000 + p.val) q :=
  (congrFun (reg3_zt_eq V c t) (ix2 p q)).trans (reg3_rowOr0_of_lt (reg3_Z V c) _ q _ rfl).symm

/-- After point n the row of sums holds the column sums of z over the rows of tiles 0 … n. -/
theorem reg3_outs7 (c : Dev nD) : ∀ (n : ℕ) (h : n < cfg3.N) (u : Fin 1) (q : Fin 256),
    (outsAt3 V c n h).2.1 (ix2 u q)
      = ∑ s ∈ Finset.range (n + 1), ∑ p : Fin 2000, reg3_rowOr0 (reg3_Z V c) (s * 2000 + p.val) q
  | 0, h, u, q => by
    refine (congrFun (congrArg (·.2.1) (reg3_outs_A V c ⟨0, h⟩ rfl)) (ix2 u q)).trans ((reg3_pay5_apply _ _ _ _ _ _ _ u q).trans ?_)
    rw [reg3_pay2_apply, zero_add, Finset.sum_range_one]
    exact Finset.sum_congr rfl fun p _ => reg3_zt_row V c ⟨0, h⟩ p q
  | n + 1, h, u, q => by
    have hN : cfg3.N = 25 := N_3
    refine (congrFun (congrArg (·.2.1) (reg3_outs_B V c ⟨n + 1, h⟩ (by dsimp only; omega))) (ix2 u q)).trans
      ((reg3_pay5_apply _ _ _ _ _ _ _ u q).trans ?_)
    rw [Finset.sum_range_succ _ (n + 1)]
    exact congrArg₂ (· + ·) (reg3_outs7 c n (Nat.lt_of_succ_lt h) u q)
      (Finset.sum_congr rfl fun p _ => reg3_zt_row V c ⟨n + 1, h⟩ p q)

/-- After point n the row of sums of squares holds the column sums of z² over the rows of tiles 0 … n. -/
theorem reg3_outs8 (c : Dev nD) : ∀ (n : ℕ) (h : n < cfg3.N) (u : Fin 1) (q : Fin 256),
    (outsAt3 V c n h).2.2 (ix2 u q) = ∑ s ∈ Finset.range (n + 1), ∑ p : Fin 2000,
      reg3_rowOr0 (reg3_Z V c) (s * 2000 + p.val) q * reg3_rowOr0 (reg3_Z V c) (s * 2000 + p.val) q
  | 0, h, u, q => by
    refine (congrFun (congrArg (·.2.2) (reg3_outs_A V c ⟨0, h⟩ rfl)) (ix2 u q)).trans ((reg3_pay1_apply _ _ u q).trans ?_)
    rw [reg3_pay3_apply, zero_add, Finset.sum_range_one]
    exact Finset.sum_congr rfl fun p _ => congrArg₂ (· * ·) (reg3_zt_row V c ⟨0, h⟩ p q) (reg3_zt_row V c ⟨0, h⟩ p q)
  | n + 1, h, u, q => by
    have hN : cfg3.N = 25 := N_3
    refine (congrFun (congrArg (·.2.2) (reg3_outs_B V c ⟨n + 1, h⟩ (by dsimp only; omega))) (ix2 u q)).trans
      ((reg3_pay1_apply _ _ u q).trans ?_)
    rw [Finset.sum_range_succ _ (n + 1)]
    exact congrArg₂ (· + ·) (reg3_outs8 c n (Nat.lt_of_succ_lt h) u q) (Finset.sum_congr rfl fun p _ =>
      congrArg₂ (· * ·) (reg3_zt_row V c ⟨n + 1, h⟩ p q) (reg3_zt_row V c ⟨n + 1, h⟩ p q))

/-- After the last point a carried row holds the column sums over all 50000 rows. -/
theorem reg3_last7 (c : Dev nD) (t : Fin cfg3.N) (h24 : t.val = 24) :
    ((outsAt3 V c t.val t.isLt).2.1 : Vec Ideal S1x256 .f32) = Cert.Spec.colSum (reg3_Z V c) := by
  funext y
  obtain ⟨u, q, rfl⟩ : ∃ (u : Fin 1) (q : Fin 256), y = ix2 u q := ⟨y 0, y 1, eq_ix2 y⟩
  rw [reg3_outs7 V c t.val t.isLt u q, h24]
  exact reg3_colSum_of_tiles _ id u q

theorem reg3_last8 (c : Dev nD) (t : Fin cfg3.N) (h24 : t.val = 24) :
    ((outsAt3 V c t.val t.isLt).2.2 : Vec Ideal S1x256 .f32) = Cert.Spec.colSum (fun j => reg3_Z V c j * reg3_Z V c j) := by
  funext y
  obtain ⟨u, q, rfl⟩ : ∃ (u : Fin 1) (q : Fin 256), y = ix2 u q := ⟨y 0, y 1, eq_ix2 y⟩
  rw [reg3_outs8 V c t.val t.isLt u q, h24]
  exact reg3_colSum_of_tiles _ (fun x => x * x) u q

/-- The first result after the region is z: row r lies in tile r / 2000, and tile t of the result is tile t of z. -/
theorem reg3_z (c : Dev nD) : (dat3 (F := Ideal) V c).arrAt 6 cfg3.N
    = Cert.Spec.mlp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) := by
  have hN : cfg3.N = 25 := N_3
  refine (dat3 V c).arrAt_eq_of_cover 6 (reg3_Z V c) (fun t _ => ?_) fun (i : S50000x256.Idx) => by
    have hi : (i 0).val < 50000 := (i 0).isLt
    have ht : (i 0).val / 2000 < cfg3.N := by omega
    refine ⟨⟨_, ht⟩, flush3_6 _, ?_⟩
    show i ∈ ((View.whole (Pipeline.arrRef spec3 6)).slice (win3_6.rect ⟨_, ht⟩)).set
    rw [View.set_slice_whole]
    exact Cert.LibTile.mem_tile (T := 2000) i _ (by decide) (reg3_idx _).2.2.2.2.2.2.1
  show (cfg3.win 6).cut (grid3.coords t) ((dat3 V c).after 6 t) = _
  rw [after3_6, reg3_outs6, reg3_zt_eq]
  exact funext fun j => (Cert.LibTile.ld_tile (reg3_Z V c) _ t.val (reg3_in t) (reg3_idx t).2.2.2.2.2.2.1 j).symm

/-- A row read through the one block of the second or third result is the row. -/
theorem reg3_whole7 (t : Fin cfg3.N) (G : Vec Ideal S1x256 .f32) :
    (cfg3.win 7).cut (grid3.coords t) G = ((cfg3.win 7).blk t).view.read (Elt Ideal) G :=
  funext fun j => (Cert.LibTile.ld_whole G _ (reg3_idx t).2.2.2.2.2.2.2.1 j).symm

theorem reg3_whole8 (t : Fin cfg3.N) (G : Vec Ideal S1x256 .f32) :
    (cfg3.win 8).cut (grid3.coords t) G = ((cfg3.win 8).blk t).view.read (Elt Ideal) G :=
  funext fun j => (Cert.LibTile.ld_whole G _ (reg3_idx t).2.2.2.2.2.2.2.2 j).symm

/-- The second result after the region: the column sums of z. -/
theorem reg3_sum (c : Dev nD) : (dat3 (F := Ideal) V c).arrAt 7 cfg3.N
    = Cert.Spec.colSum (Cert.Spec.mlp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  have hN : cfg3.N = 25 := N_3
  refine (dat3 V c).arrAt_eq_of_cover 7 (Cert.Spec.colSum (reg3_Z V c)) (fun t hf => ?_) fun (i : S1x256.Idx) => by
    have ht : 24 < cfg3.N := by omega
    refine ⟨⟨24, ht⟩, (flush3_7 _).mpr rfl, ?_⟩
    show i ∈ ((View.whole (Pipeline.arrRef spec3 7)).slice (win3_7.rect ⟨24, ht⟩)).set
    rw [View.set_slice_whole]
    exact Cert.LibTile.mem_whole i _ (reg3_idx _).2.2.2.2.2.2.2.1
  have h24 : t.val = 24 := by have := (flush3_7 t).mp hf; have := t.isLt; omega
  show (cfg3.win 7).cut (grid3.coords t) ((dat3 V c).after 7 t) = _
  rw [after3_7, reg3_last7 V c t h24]
  exact reg3_whole7 t _

/-- The third result after the region: the column sums of z². -/
theorem reg3_sumsq (c : Dev nD) : (dat3 (F := Ideal) V c).arrAt 8 cfg3.N
    = Cert.Spec.colSum (fun j => Cert.Spec.mlp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) j
        * Cert.Spec.mlp (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) j) := by
  have hN : cfg3.N = 25 := N_3
  refine (dat3 V c).arrAt_eq_of_cover 8 (Cert.Spec.colSum fun j => reg3_Z V c j * reg3_Z V c j) (fun t hf => ?_) fun (i : S1x256.Idx) => by
    have ht : 24 < cfg3.N := by omega
    refine ⟨⟨24, ht⟩, (flush3_8 _).mpr rfl, ?_⟩
    show i ∈ ((View.whole (Pipeline.arrRef spec3 8)).slice (win3_8.rect ⟨24, ht⟩)).set
    rw [View.set_slice_whole]
    exact Cert.LibTile.mem_whole i _ (reg3_idx _).2.2.2.2.2.2.2.2
  have h24 : t.val = 24 := by have := (flush3_8 t).mp hf; have := t.isLt; omega
  show (cfg3.win 8).cut (grid3.coords t) ((dat3 V c).after 8 t) = _
  rw [after3_8, reg3_last8 V c t h24]
  exact reg3_whole8 t _

end Cert.KernelIdeal.Val

end
-- ==== Proof.RegBn4.lean ====
import proofs.«430164_j87205015978673_1_alg».proof.Proof.Gen.KernelIdeal.Frame
import proofs.«430164_j87205015978673_1_alg».proof.Proof.Spec
import proofs.«430164_j87205015978673_1_alg».proof.Proof.LibTile
import Idealize.ShloMosaic.Lib.ValueLayout
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The region's arrays at its entry. -/
abbrev reg4_a (c : Dev nD) (w : Fin cfg4.W) := V c (Pipeline.arrRef spec4 w)

/-- The tile's arithmetic is the normalisation by the column statistics, the scale and shift, then the rectifier. -/
theorem reg4_pay (va : Vec Ideal S1x256 .f32) (z : Vec Ideal S2000x256 .f32) (mu ga be : Vec Ideal S1x256 .f32) :
    k4_pay1 va z mu ga be = Cert.Spec.bn z mu va ga be := by
  funext j
  obtain ⟨p, q, rfl⟩ : ∃ (p : Fin 2000) (q : Fin 256), j = ix2 p q := ⟨j 0, j 1, eq_ix2 j⟩
  unfold k4_pay1
  simp only [shapeCast_self, maximumf_apply, addf_apply, mulf_apply, subf_apply, broadcast_apply,
    broadcastTo_1b_ab_apply, Ideal.ofBits_def, Ideal.ofBits_zero_f32]
  rfl

theorem reg4_idx : ∀ t : Fin cfg4.N, win4_0.index t = ![t.val, 0] ∧ win4_1.index t = ![0, 0] ∧ win4_2.index t = ![0, 0]
    ∧ win4_3.index t = ![0, 0] ∧ win4_4.index t = ![0, 0] ∧ win4_5.index t = ![t.val, 0] :=
  (by decide +kernel : ∀ t : Fin grid4.N, _)

/-- At point t the block of z and of the result is tile t, -/
theorem reg4_tile0 (t : Fin cfg4.N) (ht : t.val * 2000 + 2000 ≤ 50000) (G : Cert.Spec.Mat 50000 256) :
    ((cfg4.win 0).blk t).view.read (Elt Ideal) G = tile t.val ht G := funext (ld_tile G _ t.val ht (reg4_idx t).1)
theorem reg4_tile5 (t : Fin cfg4.N) (ht : t.val * 2000 + 2000 ≤ 50000) (G : Cert.Spec.Mat 50000 256) :
    ((cfg4.win 5).blk t).view.read (Elt Ideal) G = tile t.val ht G := funext (ld_tile G _ t.val ht (reg4_idx t).2.2.2.2.2)
/-- and the block of each one-row array is the array. -/
theorem reg4_row1 (t : Fin cfg4.N) (G : Cert.Spec.Mat 1 256) : ((cfg4.win 1).blk t).view.read (Elt Ideal) G = G :=
  funext (ld_whole G _ (reg4_idx t).2.1)
theorem reg4_row2 (t : Fin cfg4.N) (G : Cert.Spec.Mat 1 256) : ((cfg4.win 2).blk t).view.read (Elt Ideal) G = G :=
  funext (ld_whole G _ (reg4_idx t).2.2.1)
theorem reg4_row3 (t : Fin cfg4.N) (G : Cert.Spec.Mat 1 256) : ((cfg4.win 3).blk t).view.read (Elt Ideal) G = G :=
  funext (ld_whole G _ (reg4_idx t).2.2.2.1)
theorem reg4_row4 (t : Fin cfg4.N) (G : Cert.Spec.Mat 1 256) : ((cfg4.win 4).blk t).view.read (Elt Ideal) G = G :=
  funext (ld_whole G _ (reg4_idx t).2.2.2.2.1)

/-- Normalisation acts row by row, so tile t of the normalised array is the normalised tile t. -/
theorem reg4_flushed (c : Dev nD) (t : Fin cfg4.N) :
    (dat4 (F := Ideal) V c).flushed 5 t = ((cfg4.win 5).blk t).view.read (Elt Ideal) (Cert.Spec.bn (reg4_a V c 0) (reg4_a V c 1) (reg4_a V c 2) (reg4_a V c 3) (reg4_a V c 4)) := by
  have ht : t.val * 2000 + 2000 ≤ 50000 := by have := t.isLt; have hN : cfg4.N = 25 := N_4; omega
  show (cfg4.win 5).cut (grid4.coords t) ((dat4 V c).after 5 t) = _
  rw [after4_5]
  unfold out4_5
  rw [View.canon_unit_zero vec00]
  simp only [View.ld_unit_zero (S := S2000x256) vec00, View.ld_unit_zero (S := S1x256) vec00]
  exact ((reg4_pay _ _ _ _ _).trans (congr (congr (congr (congr (congrArg Cert.Spec.bn (reg4_tile0 t ht _)) (reg4_row1 t _))
    (reg4_row2 t _)) (reg4_row3 t _)) (reg4_row4 t _))).trans (reg4_tile5 t ht (Cert.Spec.bn (reg4_a V c 0) (reg4_a V c 1) (reg4_a V c 2) (reg4_a V c 3) (reg4_a V c 4))).symm

/-- The 25 tiles of 2000 rows cover the 50000 rows. -/
theorem reg4_cover (i : S50000x256.Idx) :
    ∃ t : Fin cfg4.N, (cfg4.win 5).flush t = true ∧ i ∈ ((cfg4.win 5).blk t).view.set :=
  have ht : (i 0).val / 2000 < cfg4.N := by have := idx2_lt0 i; have hN : cfg4.N = 25 := N_4; omega
  ⟨⟨_, ht⟩, flush4_5 _, (congrArg (i ∈ ·) (View.set_slice_whole _ _)).mpr (mem_tile i _ (by decide) (reg4_idx ⟨_, ht⟩).2.2.2.2.2)⟩

theorem reg4_out (c : Dev nD) :
    (dat4 (F := Ideal) V c).arrAt 5 cfg4.N
      = Cert.Spec.bn (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => reg4_flushed V c t) reg4_cover

end Cert.KernelIdeal.Val

end
-- ==== Proof.KFoldL0.lean ====
import proofs.«430164_j87205015978673_1_alg».proof.Proof.KKeep
import proofs.«430164_j87205015978673_1_alg».proof.Proof.LibLin
import proofs.«430164_j87205015978673_1_alg».proof.Proof.RegMsg2
import proofs.«430164_j87205015978673_1_alg».proof.Proof.RegMlp3
import proofs.«430164_j87205015978673_1_alg».proof.Proof.RegBn4
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
noncomputable section
namespace Cert.KernelIdeal.Val
open Cert.KernelIdeal Cert.KernelIdeal.Gen Idealize.ShloMosaic Idealize.ShloMosaic.TcCoe Idealize.SL.Sem Idealize.ShloMosaic.ValueIdx
set_option maxRecDepth 16384
open Cert.Spec Cert.LibRows

namespace L0

theorem rows_apply {α : Type} {R C : Nat} (h : (⟨1, ![R]⟩ : Shape).BroadcastsInDim ⟨2, ![R, C]⟩ ![0])
    (x : (⟨1, ![R]⟩ : Shape).Idx → α) (r : Fin R) (j : Fin C) :
    broadcastInDim ⟨2, ![R, C]⟩ ![0] h x (ix2 r j) = x (ix1 r) := by
  have hr : r.val < R := r.isLt
  refine broadcastInDim_apply ![0] h x (ix2 r j) (ix1 r) fun a => ?_
  match a with
  | ⟨0, _⟩ =>
    show r.val = if R = 1 then 0 else r.val
    split
    · omega
    · rfl

theorem wrapCol_apply (s : IVct 300000)
    (e1 : S_.BroadcastsInDim S300000 ![]) (e2 : S300000.BroadcastsInDim S300000x1 ![0]) (r : Fin 300000) (u : Fin 1) :
    broadcastInDim S300000x1 ![0] e2
        (select (cmpi .slt s (broadcastInDim S300000 ![] e1 (constantI S_ 32 0#32)))
          (addi s (broadcastInDim S300000 ![] e1 (constantI S_ 32 50000#32))) s) (ix2 r u)
      = wrapN 50000 (s (ix1 r)) := by
  refine (rows_apply e2 _ r u).trans ?_
  show Scalar.select (IntOp.cmpi .slt (s (ix1 r)) (broadcastInDim S300000 ![] e1 (constantI S_ 32 0#32) (ix1 r)))
      (IntOp.addi (s (ix1 r)) (broadcastInDim S300000 ![] e1 (constantI S_ 32 50000#32) (ix1 r))) (s (ix1 r)) = _
  rw [broadcastInDim_scalar_apply, broadcastInDim_scalar_apply, constantI_apply, constantI_apply]
  exact wrap_word 50000 _

theorem fold_fin_one {β : Type} {n : Nat} (hn : n = 1) (op : β → β → β) [Std.Commutative op] [Std.Associative op] (b : β)
    (f : Fin n → β) : (Finset.univ : Finset (Fin n)).fold op b f = op (f ⟨0, by omega⟩) b := by
  subst hn
  rw [Finset.univ_unique, Finset.fold_singleton]
  rfl

theorem lift_col (hR : S300000x1.Reduces [1] S300000) (r : Fin 300000) (k : Fin (S300000x1.size 1)) :
    hR.lift (ix1 r) k = ix2 r 0 := by
  have hk : k.val < 1 := k.isLt
  funext c
  apply Fin.ext
  rw [Shape.Reduces.lift_val]
  unfold Shape.Reduces.liftVal
  match c with
  | ⟨0, h0⟩ =>
    split
    · next hc => exact absurd hc Nat.zero_ne_one
    · split
      · rfl
      · next hlt => exact absurd Nat.zero_lt_one hlt
  | ⟨1, h1⟩ =>
    split
    · show k.val = 0
      omega
    · next hc => exact absurd rfl hc

theorem rangeMask_apply (v : IdxCol 300000)
    (e3 : S_.BroadcastsInDim S300000x1 ![]) (e4 : S1.BroadcastsInDim S1x1 ![1]) (e5 : S1x1.BroadcastsInDim S300000x1 ![0, 1])
    (e6 : S300000x1.ReducesTo [1] S300000) (e7 : 0 < S_.numel) (r : Fin 300000) :
    Host.reduce IntOp.andi
        (andi (cmpi .sge v (broadcastInDim S300000x1 ![] e3 (constantI S_ 32 0#32)))
          (cmpi .sle v (broadcastInDim S300000x1 ![0, 1] e5 (broadcastInDim S1x1 ![1] e4 (constantI S1 32 49999#32)))))
        (constantI S_ 1 1#1) e6 e7 (ix1 r) = 1#1
      ↔ InRange 50000 (v (ix2 r 0)) := by
  have hR : S300000x1.Reduces [1] S300000 := by decide
  rw [Host.reduce_eq_fold_single IntOp.andi _ _ e6 hR e7 (ix1 r), fold_fin_one (show S300000x1.size 1 = 1 from rfl),
    Function.comp_apply, lift_col hR r, constantI_apply, IntOp.andi_eq_one]
  show (IntOp.andi (IntOp.cmpi .sge (v (ix2 r 0)) (broadcastInDim S300000x1 ![] e3 (constantI S_ 32 0#32) (ix2 r 0)))
      (IntOp.cmpi .sle (v (ix2 r 0))
        (broadcastInDim S300000x1 ![0, 1] e5 (broadcastInDim S1x1 ![1] e4 (constantI S1 32 49999#32)) (ix2 r 0))) = 1#1
      ∧ (1#1 : BitVec 1) = 1#1) ↔ _
  have hhi : broadcastInDim S300000x1 ![0, 1] e5 (broadcastInDim S1x1 ![1] e4 (constantI S1 32 49999#32)) (ix2 r 0)
      = 49999#32 := by
    refine (broadcastInDim_apply ![0, 1] e5 _ (ix2 r 0) (ix2 (0 : Fin 1) (0 : Fin 1)) fun a => ?_).trans ?_
    · match a with
      | ⟨0, _⟩ => rfl
      | ⟨1, _⟩ => rfl
    · refine (broadcastInDim_apply ![1] e4 _ (ix2 (0 : Fin 1) (0 : Fin 1)) (ix1 (0 : Fin 1)) fun a => ?_).trans ?_
      · match a with
        | ⟨0, _⟩ => rfl
      · rfl
  rw [broadcastInDim_scalar_apply, constantI_apply, hhi, IntOp.andi_eq_one, IntOp.cmpi_sge, IntOp.cmpi_sle]
  unfold InRange
  constructor
  · rintro ⟨⟨h0, h1⟩, _⟩
    exact ⟨by simpa using h0, by simpa using h1⟩
  · rintro ⟨h0, h1⟩
    exact ⟨⟨by simpa using h0, by simpa using h1⟩, rfl⟩

theorem take_eq (h : Mat 50000 256) (s : IVct 300000)
    (e1 : S_.BroadcastsInDim S300000 ![]) (e2 : S300000.BroadcastsInDim S300000x1 ![0])
    (e3 : S_.BroadcastsInDim S300000x1 ![]) (e4 : S1.BroadcastsInDim S1x1 ![1]) (e5 : S1x1.BroadcastsInDim S300000x1 ![0, 1])
    (e6 : S300000x1.ReducesTo [1] S300000) (e7 : 0 < S_.numel)
    (e8 : S300000.BroadcastsInDim S300000x256 ![0]) (e9 : S_.BroadcastsInDim S300000x256 ![])
    (wf : GatherDims.WF S50000x256 S300000x1 S300000x256 [1] [0] [] [0] [] 1 ![1, 256])
    (D : GatherDims S50000x256 S300000x1 S300000x256) (hD : D = rowGatherDims 50000 256 300000 wf) :
    select
        (broadcastInDim S300000x256 ![0] e8
          (Host.reduce IntOp.andi
            (andi
              (cmpi .sge
                (broadcastInDim S300000x1 ![0] e2
                  (select (cmpi .slt s (broadcastInDim S300000 ![] e1 (constantI S_ 32 0#32)))
                    (addi s (broadcastInDim S300000 ![] e1 (constantI S_ 32 50000#32))) s))
                (broadcastInDim S300000x1 ![] e3 (constantI S_ 32 0#32)))
              (cmpi .sle
                (broadcastInDim S300000x1 ![0] e2
                  (select (cmpi .slt s (broadcastInDim S300000 ![] e1 (constantI S_ 32 0#32)))
                    (addi s (broadcastInDim S300000 ![] e1 (constantI S_ 32 50000#32))) s))
                (broadcastInDim S300000x1 ![0, 1] e5 (broadcastInDim S1x1 ![1] e4 (constantI S1 32 49999#32)))))
            (constantI S_ 1 1#1) e6 e7))
        (Host.gather D h
          (broadcastInDim S300000x1 ![0] e2
            (select (cmpi .slt s (broadcastInDim S300000 ![] e1 (constantI S_ 32 0#32)))
              (addi s (broadcastInDim S300000 ![] e1 (constantI S_ 32 50000#32))) s)))
        (broadcastInDim S300000x256 ![] e9 (constant (F := Ideal) S_ .f32 0x7FC00000#32))
      = takeFill nodes_pos h (idxCol s) := by
  subst hD
  funext i
  obtain ⟨r, j, rfl⟩ : ∃ (r : Fin 300000) (j : Fin 256), i = ix2 r j := ⟨i 0, i 1, eq_ix2 i⟩
  rw [select_apply, rows_apply e8 _ r j, gather_rows_apply nodes_pos wf, wrapCol_apply s e1 e2 r 0, broadcastInDim_scalar_apply,
    constant_apply]
  have hm := rangeMask_apply
    (broadcastInDim S300000x1 ![0] e2
      (select (cmpi .slt s (broadcastInDim S300000 ![] e1 (constantI S_ 32 0#32)))
        (addi s (broadcastInDim S300000 ![] e1 (constantI S_ 32 50000#32))) s)) e3 e4 e5 e6 e7 r
  rw [wrapCol_apply s e1 e2 r 0] at hm
  show _ = (open Classical in if InRange 50000 (wrapN 50000 (s (ix1 r))) then
      h (ix2 (clampRow nodes_pos (wrapN 50000 (s (ix1 r)))) j) else ⊥)
  by_cases hin : InRange 50000 (wrapN 50000 (s (ix1 r)))
  · rw [hm.mpr hin, if_pos hin, select_one]
  · have hne : ¬ _ = 1#1 := fun e => hin (hm.mp e)
    rw [eq_zero_of_ne_one hne, if_neg hin, select_zero]
    simp [Ideal.ofBits, Ideal.ieee]

theorem slab_eq (l : Fin 4) (off : Fin 3 → Nat) (h0 : off 0 = l.val) (h1 : off 1 = 0) (h2 : off 2 = 0)
    (hs : S4x256x256.Slices off S1x256x256) (hc : S1x256x256.ShapeCasts S256x256) (w : Ten 4 256 256) :
    shapeCast S256x256 (extractStridedSlice S1x256x256 off w hs) hc = slab l w := by
  funext i
  obtain ⟨p, q, rfl⟩ : ∃ (p : Fin 256) (q : Fin 256), i = ix2 p q := ⟨i 0, i 1, eq_ix2 i⟩
  rw [shapeCast_1ab_ab_apply]
  refine extractStridedSlice_apply off w hs (ix3 (0 : Fin 1) p q) (ix3 l p q) fun b => ?_
  match b with
  | ⟨0, _⟩ =>
    show l.val = off 0 + 0
    omega
  | ⟨1, _⟩ =>
    show p.val = off 1 + p.val
    omega
  | ⟨2, _⟩ =>
    show q.val = off 2 + q.val
    omega

theorem slabRow_eq (l : Fin 4) (off : Fin 2 → Nat) (h0 : off 0 = l.val) (h1 : off 1 = 0)
    (hs : S4x256.Slices off S1x256) (hc : S1x256.ShapeCasts S256) (hc' : S256.ShapeCasts S1x256) (b : Mat 4 256) :
    shapeCast S1x256 (shapeCast S256 (extractStridedSlice S1x256 off b hs) hc) hc' = slabRow l b := by
  funext i
  obtain ⟨u, q, rfl⟩ : ∃ (u : Fin 1) (q : Fin 256), i = ix2 u q := ⟨i 0, i 1, eq_ix2 i⟩
  rw [shapeCast_a_1a_apply, shapeCast_1a_a_apply]
  refine extractStridedSlice_apply off b hs (ix2 (0 : Fin 1) q) (ix2 l q) fun a => ?_
  match a with
  | ⟨0, _⟩ =>
    show l.val = off 0 + 0
    omega
  | ⟨1, _⟩ =>
    show q.val = off 1 + q.val
    omega

theorem mean_eq (z : Mat 50000 256) (sm : Mat 1 256) (hsm : sm = colSum z) (e : S_.BroadcastsInDim S1x256 ![]) :
    Host.divf (F := Ideal) (φ := .f32) sm (broadcastInDim S1x256 ![] e (constant (F := Ideal) S_ .f32 0x47435000#32))
      = mean z := by
  subst hsm
  funext i
  show Ideal.div (colSum z i) (broadcastInDim S1x256 ![] e (constant (F := Ideal) S_ .f32 0x47435000#32) i) = _
  rw [broadcastInDim_scalar_apply, constant_apply]
  rfl

theorem var_eq (z : Mat 50000 256) (sm sq : Mat 1 256) (hsm : sm = colSum z) (hsq : sq = colSum (fun j => z j * z j))
    (e : S_.BroadcastsInDim S1x256 ![]) :
    subf (F := Ideal) (φ := .f32)
        (Host.divf (F := Ideal) (φ := .f32) sq (broadcastInDim S1x256 ![] e (constant (F := Ideal) S_ .f32 0x47435000#32)))
        (mulf (F := Ideal) (φ := .f32)
          (Host.divf (F := Ideal) (φ := .f32) sm (broadcastInDim S1x256 ![] e (constant (F := Ideal) S_ .f32 0x47435000#32)))
          (Host.divf (F := Ideal) (φ := .f32) sm (broadcastInDim S1x256 ![] e (constant (F := Ideal) S_ .f32 0x47435000#32))))
      = varK z := by
  rw [mean_eq z sm hsm e]
  subst hsq
  funext i
  show Ideal.div (colSum (fun j => z j * z j) i)
      (broadcastInDim S1x256 ![] e (constant (F := Ideal) S_ .f32 0x47435000#32) i) - mean z i * mean z i = _
  rw [broadcastInDim_scalar_apply, constant_apply]
  rfl

variable (W : Valuation τ sig (Elt Ideal))

theorem take_W :
    StableHlo.after (hostOps2 (F := Ideal)) W (Proc.devRef .tc main_v8)
      = takeFill nodes_pos (W (Proc.devRef .tc main_v5) : Mat 50000 256) (idxCol (W (Proc.devRef .tc main_v1) : IVct 300000)) := by
  after_results_simp
  simp only [StableHlo.TRef.ofBuf, StableHlo.TRef.toBuf, cast_eq]
  exact take_eq _ _ _ _ _ _ _ _ _ _ _ _ _ rfl

theorem agg_W :
    StableHlo.after (hostOps3 (F := Ideal)) W (Proc.devRef .tc main_v12)
      = segsum (idxCol (W (Proc.devRef .tc main_v3) : IVct 300000)) (W (Proc.devRef .tc main_v9) : Mat 300000 256) := by
  after_results
  exact Cert.LibLin.scatter_zero_eq_segsum _ _ rfl _ _ _ _

theorem w1_W :
    StableHlo.after (hostOps3 (F := Ideal)) W (Proc.devRef .tc main_v14)
      = slab 0 (W (Proc.devRef .tc main_arg8) : Ten 4 256 256) := by
  after_results
  exact slab_eq 0 _ rfl rfl rfl _ _ _

theorem b1_W :
    StableHlo.after (hostOps3 (F := Ideal)) W (Proc.devRef .tc main_v21)
      = slabRow 0 (W (Proc.devRef .tc main_arg9) : Mat 4 256) := by
  after_results
  exact slabRow_eq 0 _ rfl rfl _ _ _ _

theorem w2_W :
    StableHlo.after (hostOps3 (F := Ideal)) W (Proc.devRef .tc main_v18)
      = slab 0 (W (Proc.devRef .tc main_arg10) : Ten 4 256 256) := by
  after_results
  exact slab_eq 0 _ rfl rfl rfl _ _ _

theorem b2_W :
    StableHlo.after (hostOps3 (F := Ideal)) W (Proc.devRef .tc main_v22)
      = slabRow 0 (W (Proc.devRef .tc main_arg11) : Mat 4 256) := by
  after_results
  exact slabRow_eq 0 _ rfl rfl _ _ _ _

theorem mean_W (z : Mat 50000 256) (hs : (W (Proc.devRef .tc main_v23_1) : Mat 1 256) = colSum z) :
    StableHlo.after (hostOps4 (F := Ideal)) W (Proc.devRef .tc main_v25) = mean z := by
  after_results
  exact mean_eq z _ hs _

theorem var_W (z : Mat 50000 256) (hs : (W (Proc.devRef .tc main_v23_1) : Mat 1 256) = colSum z)
    (hq : (W (Proc.devRef .tc main_v23_2) : Mat 1 256) = colSum (fun j => z j * z j)) :
    StableHlo.after (hostOps4 (F := Ideal)) W (Proc.devRef .tc main_v29) = varK z := by
  after_results
  exact var_eq z _ _ hs hq _

theorem gamma_W :
    StableHlo.after (hostOps4 (F := Ideal)) W (Proc.devRef .tc main_v34)
      = slabRow 0 (W (Proc.devRef .tc main_arg12) : Mat 4 256) := by
  after_results
  exact slabRow_eq 0 _ rfl rfl _ _ _ _

theorem beta_W :
    StableHlo.after (hostOps4 (F := Ideal)) W (Proc.devRef .tc main_v35)
      = slabRow 0 (W (Proc.devRef .tc main_arg13) : Mat 4 256) := by
  after_results
  exact slabRow_eq 0 _ rfl rfl _ _ _ _

end L0

set_option maxHeartbeats 4000000 in
/-- LAYER 0: from the node features `h` and held contents at its entry, the model's layer of `h` and held contents at its exit. -/
theorem L0_h (m : (ℓ : Loc nD τ sig) → Buf (Elt Ideal) ℓ) (ρ : Dev nD → PrngReg) (c : Dev nD) (I : Inputs) (h : Mat 50000 256)
    (hh : W4 (F := Ideal) m ρ c (Proc.devRef .tc main_v5) = h) (H : Held I (W4 m ρ c)) :
    W10 (F := Ideal) m ρ c (Proc.devRef .tc main_v36) = stepK I 0 h ∧ Held I (W10 m ρ c) := by
  have H5 : Held I (W5 m ρ c) := H.after wr2_sub (by decide)
  have H6 : Held I (W6 m ρ c) := H5.keep fun b hb => by
    rcases (by decide : ∀ b ∈ kept, b = main_v7 ∨ ∀ w, Pipeline.arrRef spec2 w ≠ b) b hb with rfl | hn
    · exact (W6_arr m ρ c 1).trans (((dat2 (V5 m ρ) c).arrAt_in 1 rfl _).trans (A_eq2 (V5 m ρ) c 1))
    · exact W6_of_ne m ρ c b hn
  have H7 : Held I (W7 m ρ c) := H6.after wr3_sub (by decide)
  have H8 : Held I (W8 m ρ c) := H7.keep fun b hb =>
    W8_of_ne m ρ c b ((by decide : ∀ b ∈ kept, ∀ w, Pipeline.arrRef spec3 w ≠ b) b hb)
  have H9 : Held I (W9 m ρ c) := H8.after wr4_sub (by decide)
  refine ⟨?_, H9.keep fun b hb => W10_of_ne m ρ c b ((by decide : ∀ b ∈ kept, ∀ w, Pipeline.arrRef spec4 w ≠ b) b hb)⟩
  have g0 : V5 (F := Ideal) m ρ c (Pipeline.arrRef spec2 0) = takeFill nodes_pos h (idxCol (src1 I)) :=
    (L0.take_W (W4 m ρ c)).trans (by rw [hh, H.v1])
  have g1 : V5 (F := Ideal) m ρ c (Pipeline.arrRef spec2 1) = ea I := H5.v7
  have e6 : W6 (F := Ideal) m ρ c (Proc.devRef .tc main_v9) = msgf (takeFill nodes_pos h (idxCol (src1 I))) (ea I) :=
    (W6_arr m ρ c 2).trans <| (reg2_out (V5 m ρ) c).trans (by rw [g0, g1])
  have x0 : V7 (F := Ideal) m ρ c (Pipeline.arrRef spec3 0) = h :=
    (StableHlo.after_of_writes_sub hostOps3 _ wr3_sub (by decide : main_v5 ∉ wr3)).trans <| (W6_of_ne m ρ c main_v5 (by decide)).trans <|
      (StableHlo.after_of_writes_sub hostOps2 _ wr2_sub (by decide : main_v5 ∉ wr2)).trans hh
  have x1 : V7 (F := Ideal) m ρ c (Pipeline.arrRef spec3 1)
      = segsum (idxCol (dst1 I)) (msgf (takeFill nodes_pos h (idxCol (src1 I))) (ea I)) :=
    (L0.agg_W (W6 m ρ c)).trans (by rw [H6.v3, e6])
  have x2 : V7 (F := Ideal) m ρ c (Pipeline.arrRef spec3 2) = slab 0 I.w1 := (L0.w1_W (W6 m ρ c)).trans (by rw [H6.a8])
  have x3 : V7 (F := Ideal) m ρ c (Pipeline.arrRef spec3 3) = slabRow 0 I.b1 := (L0.b1_W (W6 m ρ c)).trans (by rw [H6.a9])
  have x4 : V7 (F := Ideal) m ρ c (Pipeline.arrRef spec3 4) = slab 0 I.w2 := (L0.w2_W (W6 m ρ c)).trans (by rw [H6.a10])
  have x5 : V7 (F := Ideal) m ρ c (Pipeline.arrRef spec3 5) = slabRow 0 I.b2 := (L0.b2_W (W6 m ρ c)).trans (by rw [H6.a11])
  obtain ⟨z, hz⟩ : ∃ z : Mat 50000 256, z = mlp (V7 (F := Ideal) m ρ c (Pipeline.arrRef spec3 0)) (V7 m ρ c (Pipeline.arrRef spec3 1))
      (V7 m ρ c (Pipeline.arrRef spec3 2)) (V7 m ρ c (Pipeline.arrRef spec3 3)) (V7 m ρ c (Pipeline.arrRef spec3 4))
      (V7 m ρ c (Pipeline.arrRef spec3 5)) := ⟨_, rfl⟩
  have e8z : W8 (F := Ideal) m ρ c (Proc.devRef .tc main_v23_0) = z := (W8_arr m ρ c 6).trans ((reg3_z (V7 m ρ) c).trans hz.symm)
  have e8s : W8 (F := Ideal) m ρ c (Proc.devRef .tc main_v23_1) = colSum z := (W8_arr m ρ c 7).trans ((reg3_sum (V7 m ρ) c).trans (by rw [hz]))
  have e8q : W8 (F := Ideal) m ρ c (Proc.devRef .tc main_v23_2) = colSum (fun j => z j * z j) :=
    (W8_arr m ρ c 8).trans ((reg3_sumsq (V7 m ρ) c).trans (by rw [hz]))
  rw [x0, x1, x2, x3, x4, x5] at hz
  have y0 : V9 (F := Ideal) m ρ c (Pipeline.arrRef spec4 0) = z := (StableHlo.after_of_writes_sub hostOps4 _ wr4_sub (by decide : main_v23_0 ∉ wr4)).trans e8z
  have y1 : V9 (F := Ideal) m ρ c (Pipeline.arrRef spec4 1) = mean z := L0.mean_W (W8 m ρ c) z e8s
  have y2 : V9 (F := Ideal) m ρ c (Pipeline.arrRef spec4 2) = varK z := L0.var_W (W8 m ρ c) z e8s e8q
  have y3 : V9 (F := Ideal) m ρ c (Pipeline.arrRef spec4 3) = slabRow 0 I.gamma := (L0.gamma_W (W8 m ρ c)).trans (by rw [H8.a12])
  have y4 : V9 (F := Ideal) m ρ c (Pipeline.arrRef spec4 4) = slabRow 0 I.beta := (L0.beta_W (W8 m ρ c)).trans (by rw [H8.a13])
  refine (W10_arr m ρ c 5).trans <| (reg4_out (V9 m ρ) c).trans ?_
  rw [y0, y1, y2, y3, y4, hz]
  rfl

end Cert.KernelIdeal.Val
end
-- ==== Proof.RegMsg5.lean ====
import proofs.«430164_j87205015978673_1_alg».proof.Proof.Gen.KernelIdeal.Frame
import proofs.«430164_j87205015978673_1_alg».proof.Proof.Spec
import proofs.«430164_j87205015978673_1_alg».proof.Proof.LibTile
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The tile's arithmetic is the message map, max (a + b) 0 entry by entry. -/
theorem reg5_pay (x0 x1 : Vec Ideal S4000x256 .f32) : k5_pay1 x0 x1 = Cert.Spec.msgf x0 x1 := by
  funext j
  unfold k5_pay1
  simp only [shapeCast_self]
  rw [maximumf_apply, addf_apply, broadcast_apply]
  show max (x0 j + x1 j) (Ideal.ofBits .f32 0x00000000#32) = _
  rw [Ideal.ofBits_zero_f32]
  rfl

/-- At point t every window's block index is (t, 0). -/
theorem reg5_idx : ∀ t : Fin cfg5.N,
    win5_0.index t = ![t.val, 0] ∧ win5_1.index t = ![t.val, 0] ∧ win5_2.index t = ![t.val, 0] :=
  (by decide +kernel : ∀ t : Fin grid5.N, _)

/-- The message map acts entry by entry, so tile t of the message array is the message map of the two tiles t. -/
theorem reg5_flushed (c : Dev nD) (t : Fin cfg5.N) :
    (dat5 (F := Ideal) V c).flushed 2 t = ((cfg5.win 2).blk t).view.read (Elt Ideal)
      (Cert.Spec.msgf (V c (Pipeline.arrRef spec5 0)) (V c (Pipeline.arrRef spec5 1))) := by
  obtain ⟨e0, e1, e2⟩ := reg5_idx t
  have ht : t.val * 4000 + 4000 ≤ 300000 := by have := t.isLt; have hN : cfg5.N = 75 := N_5; omega
  show (cfg5.win 2).cut (grid5.coords t) ((dat5 V c).after 2 t) = _
  rw [after5_2]
  unfold out5_2
  rw [View.canon_unit_zero vec00]
  simp only [View.ld_unit_zero (S := S4000x256) vec00]
  rw [reg5_pay]
  funext j
  exact (congrArg₂ (fun a b => Cert.Spec.relu (a + b)) (ld_tile (V c (Pipeline.arrRef spec5 0)) _ t.val ht e0 j)
    (ld_tile (V c (Pipeline.arrRef spec5 1)) _ t.val ht e1 j)).trans
    (ld_tile (Cert.Spec.msgf (V c (Pipeline.arrRef spec5 0)) (V c (Pipeline.arrRef spec5 1))) _ t.val ht e2 j).symm

/-- The 75 tiles of 4000 rows cover the 300000 rows. -/
theorem reg5_cover (i : S300000x256.Idx) :
    ∃ t : Fin cfg5.N, (cfg5.win 2).flush t = true ∧ i ∈ ((cfg5.win 2).blk t).view.set :=
  have ht : (i 0).val / 4000 < cfg5.N := by have := idx2_lt0 i; have hN : cfg5.N = 75 := N_5; omega
  ⟨⟨_, ht⟩, flush5_2 _, (congrArg (i ∈ ·) (View.set_slice_whole _ _)).mpr (mem_tile i _ (by decide) (reg5_idx ⟨_, ht⟩).2.2)⟩

theorem reg5_out (c : Dev nD) :
    (dat5 (F := Ideal) V c).arrAt 2 cfg5.N
      = Cert.Spec.msgf (V c (Pipeline.arrRef spec5 0)) (V c (Pipeline.arrRef spec5 1)) :=
  (dat5 (F := Ideal) V c).arrAt_eq_of_cover 2 _ (fun t _ => reg5_flushed V c t) reg5_cover

end Cert.KernelIdeal.Val

end
-- ==== Proof.RegMlp6.lean ====
import proofs.«430164_j87205015978673_1_alg».proof.Proof.Gen.KernelIdeal.Frame
import proofs.«430164_j87205015978673_1_alg».proof.Proof.Spec
import proofs.«430164_j87205015978673_1_alg».proof.Proof.RegMlp3Pay
import proofs.«430164_j87205015978673_1_alg».proof.Proof.LibTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

section Pieces

variable {F : FTy → Type} [FloatOps F] (c : Dev nD) (i : grid6.Coords)
  (a1 : Memref sig .tc .vmem S2000x256 .f32) (h1 : a1.IsWhole) (a2 : Memref sig .tc .vmem S2000x256 .f32) (h2 : a2.IsWhole)
  (a3 : Memref sig .tc .vmem S256x256 .f32) (h3 : a3.IsWhole) (a4 : Memref sig .tc .vmem S1x256 .f32) (h4 : a4.IsWhole)
  (a5 : Memref sig .tc .vmem S256x256 .f32) (h5 : a5.IsWhole) (a6 : Memref sig .tc .vmem S1x256 .f32) (h6 : a6.IsWhole)
  (a7 : Memref sig .tc .vmem S2000x256 .f32) (h7 : a7.IsWhole) (a8 : Memref sig .tc .vmem S1x256 .f32) (h8 : a8.IsWhole)
  (a9 : Memref sig .tc .vmem S1x256 .f32) (h9 : a9.IsWhole)
  (x0 x1 : Vec F S2000x256 .f32) (x2 : Vec F S256x256 .f32) (x3 : Vec F S1x256 .f32) (x4 : Vec F S256x256 .f32) (x5 : Vec F S1x256 .f32)

theorem reg6_out_A (hc : cond6_0 i) :
    (out6_A_6 c i a1 h1 a2 h2 a3 h3 a4 h4 a5 h5 a6 h6 a7 h7 a8 h8 a9 h9 hc x0 x1 x2 x3 x4 x5, out6_A_7 c i a1 h1 a2 h2 a3 h3 a4 h4 a5 h5 a6 h6 a7 h7 a8 h8 a9 h9 hc x0 x1 x2 x3 x4 x5, out6_A_8 c i a1 h1 a2 h2 a3 h3 a4 h4 a5 h5 a6 h6 a7 h7 a8 h8 a9 h9 hc x0 x1 x2 x3 x4 x5)
      = (k6_pay4 x0 x1 x2 x3 x4 x5, k6_pay5 x0 x1 x2 x3 x4 x5 k6_pay2, k6_pay1 (k6_pay4 x0 x1 x2 x3 x4 x5) k6_pay3) := by
  unfold out6_A_6 out6_A_7 out6_A_8
  simp only [View.read_writes_junk_eq_canon]
  unfold kernelRun6_A
  dsimp only
  sl_unfold_words
  simp only [View.canon_cons_unit_zero (S := S2000x256) reg3_hz, View.canon_cons_unit_zero (S := S1x256) reg3_hz,
    View.readCov_unit_zero (S := S1x256) _ reg3_hz, View.readAt_eq_ld, h1.read_unread, h2.read_unread, h3.read_unread, h4.read_unread,
    h5.read_unread, h6.read_unread, View.ld_unit_zero (S := S2000x256) reg3_hz, View.ld_unit_zero (S := S256x256) reg3_hz,
    View.ld_unit_zero (S := S1x256) reg3_hz]

theorem reg6_out_B (hc : ¬cond6_0 i) (xo7 xo8 : Vec F S1x256 .f32) :
    (out6_B_6 c i a1 h1 a2 h2 a3 h3 a4 h4 a5 h5 a6 h6 a7 h7 a8 h8 a9 h9 hc x0 x1 x2 x3 x4 x5 xo7 xo8, out6_B_7 c i a1 h1 a2 h2 a3 h3 a4 h4 a5 h5 a6 h6 a7 h7 a8 h8 a9 h9 hc x0 x1 x2 x3 x4 x5 xo7 xo8, out6_B_8 c i a1 h1 a2 h2 a3 h3 a4 h4 a5 h5 a6 h6 a7 h7 a8 h8 a9 h9 hc x0 x1 x2 x3 x4 x5 xo7 xo8)
      = (k6_pay4 x0 x1 x2 x3 x4 x5, k6_pay5 x0 x1 x2 x3 x4 x5 xo7, k6_pay1 (k6_pay4 x0 x1 x2 x3 x4 x5) xo8) := by
  unfold out6_B_6 out6_B_7 out6_B_8
  simp only [View.read_writes_junk_eq_canon]
  unfold kernelRun6_B
  dsimp only
  sl_unfold_words
  simp only [View.canon_cons_unit_zero (S := S2000x256) reg3_hz, View.canon_cons_unit_zero (S := S1x256) reg3_hz,
    View.readAt_eq_ld, h1.read_unread, h2.read_unread, h3.read_unread, h4.read_unread, h5.read_unread, h6.read_unread,
    h8.read_unread, h9.read_unread, View.ld_unit_zero (S := S2000x256) reg3_hz, View.ld_unit_zero (S := S256x256) reg3_hz,
    View.ld_unit_zero (S := S1x256) reg3_hz]

end Pieces

/-- The tile of z at point t: the perceptron on the six blocks of the point. -/
abbrev reg6_zt (c : Dev nD) (t : Fin cfg6.N) : FVec Ideal S2000x256 .f32 :=
  k3_pay4 (iblk6 V c 0 t) (iblk6 V c 1 t) (iblk6 V c 2 t) (iblk6 V c 3 t) (iblk6 V c 4 t) (iblk6 V c 5 t)

/-- z on all 50000 rows, of the arrays as the region finds them. -/
abbrev reg6_Z (c : Dev nD) : Cert.Spec.Mat 50000 256 :=
  Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))

/-- After a first point: the tile of z, and the column sums of the tile and of its squares added to zero rows; -/
theorem reg6_outs_A (c : Dev nD) (t : Fin cfg6.N) (h0 : t.val % 25 = 0) :
    outsAt6 V c t.val t.isLt = (reg6_zt V c t, k3_pay5 (iblk6 V c 0 t) (iblk6 V c 1 t) (iblk6 V c 2 t) (iblk6 V c 3 t) (iblk6 V c 4 t) (iblk6 V c 5 t) (k3_pay2 (F := Ideal)), k3_pay1 (reg6_zt V c t) (k3_pay3 (F := Ideal))) :=
  (outsAt6_A V c t h0).trans (reg6_out_A ..)

/-- after any other point, added to the rows the point before left. -/
theorem reg6_outs_B (c : Dev nD) (t : Fin cfg6.N) (h0 : ¬t.val % 25 = 0) :
    outsAt6 V c t.val t.isLt = (reg6_zt V c t, k3_pay5 (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1, k3_pay1 (reg6_zt V c t) (outsAt6 V c (t.val - 1) (Nat.lt_of_le_of_lt (Nat.sub_le _ _) t.isLt)).2.2) :=
  (outsAt6_B V c t h0).trans (reg6_out_B ..)

/-- The index maps over the grid: the tiles of h, agg and z are at block row t, everything else at block (0, 0). -/
theorem reg6_idx : ∀ t : Fin cfg6.N, win6_0.index t = ![t.val, 0] ∧ win6_1.index t = ![t.val, 0] ∧ win6_2.index t = ![0, 0]
    ∧ win6_3.index t = ![0, 0] ∧ win6_4.index t = ![0, 0] ∧ win6_5.index t = ![0, 0] ∧ win6_6.index t = ![t.val, 0]
    ∧ win6_7.index t = ![0, 0] ∧ win6_8.index t = ![0, 0] :=
  (by decide +kernel : ∀ t : Fin grid6.N, _)

theorem reg6_in (t : Fin cfg6.N) : t.val * 2000 + 2000 ≤ 50000 := by
  have hN : cfg6.N = 25 := N_6
  have := t.isLt
  omega

/-- Read through the point's input blocks, a matrix gives its tile t (h and agg) or itself (the weights and biases). -/
theorem reg6_rd0 (t : Fin cfg6.N) (G : Cert.Spec.Mat 50000 256) :
    ((cfg6.win 0).blk t).view.read (Elt Ideal) G = Cert.LibTile.tile t.val (reg6_in t) G :=
  funext (Cert.LibTile.ld_tile G _ t.val (reg6_in t) (reg6_idx t).1)

theorem reg6_rd1 (t : Fin cfg6.N) (G : Cert.Spec.Mat 50000 256) :
    ((cfg6.win 1).blk t).view.read (Elt Ideal) G = Cert.LibTile.tile t.val (reg6_in t) G :=
  funext (Cert.LibTile.ld_tile G _ t.val (reg6_in t) (reg6_idx t).2.1)

theorem reg6_rd2 (t : Fin cfg6.N) (G : Cert.Spec.Mat 256 256) : ((cfg6.win 2).blk t).view.read (Elt Ideal) G = G :=
  funext (Cert.LibTile.ld_whole G _ (reg6_idx t).2.2.1)

theorem reg6_rd3 (t : Fin cfg6.N) (G : Cert.Spec.Mat 1 256) : ((cfg6.win 3).blk t).view.read (Elt Ideal) G = G :=
  funext (Cert.LibTile.ld_whole G _ (reg6_idx t).2.2.2.1)

theorem reg6_rd4 (t : Fin cfg6.N) (G : Cert.Spec.Mat 256 256) : ((cfg6.win 4).blk t).view.read (Elt Ideal) G = G :=
  funext (Cert.LibTile.ld_whole G _ (reg6_idx t).2.2.2.2.1)

theorem reg6_rd5 (t : Fin cfg6.N) (G : Cert.Spec.Mat 1 256) : ((cfg6.win 5).blk t).view.read (Elt Ideal) G = G :=
  funext (Cert.LibTile.ld_whole G _ (reg6_idx t).2.2.2.2.2.1)

/-- The tile of z at point t is tile t of z: the blocks of h and agg are their tiles t, the weights and biases are whole, and the perceptron acts row by row. -/
theorem reg6_zt_eq (c : Dev nD) (t : Fin cfg6.N) : reg6_zt V c t = Cert.LibTile.tile t.val (reg6_in t) (reg6_Z V c) := by
  have h0 : iblk6 V c 0 t = _ := reg6_rd0 t _
  have h1 : iblk6 V c 1 t = _ := reg6_rd1 t _
  have h2 : iblk6 V c 2 t = _ := reg6_rd2 t _
  have h3 : iblk6 V c 3 t = _ := reg6_rd3 t _
  have h4 : iblk6 V c 4 t = _ := reg6_rd4 t _
  have h5 : iblk6 V c 5 t = _ := reg6_rd5 t _
  rw [reg6_zt, h0, h1, h2, h3, h4, h5, reg3_pay4_eq]
  rfl

theorem reg6_outs6 (c : Dev nD) (t : Fin cfg6.N) : (outsAt6 V c t.val t.isLt).1 = reg6_zt V c t := by
  by_cases h0 : t.val % 25 = 0
  · rw [reg6_outs_A V c t h0]
  · rw [reg6_outs_B V c t h0]

/-- An entry of the tile of z at point t is the matching row of z. -/
theorem reg6_zt_row (c : Dev nD) (t : Fin cfg6.N) (p : Fin 2000) (q : Fin 256) :
    reg6_zt V c t (ix2 p q) = reg3_rowOr0 (reg6_Z V c) (t.val * 2000 + p.val) q :=
  (congrFun (reg6_zt_eq V c t) (ix2 p q)).trans (reg3_rowOr0_of_lt (reg6_Z V c) _ q _ rfl).symm

/-- After point n the row of sums holds the column sums of z over the rows of tiles 0 … n. -/
theorem reg6_outs7 (c : Dev nD) : ∀ (n : ℕ) (h : n < cfg6.N) (u : Fin 1) (q : Fin 256),
    (outsAt6 V c n h).2.1 (ix2 u q)
      = ∑ s ∈ Finset.range (n + 1), ∑ p : Fin 2000, reg3_rowOr0 (reg6_Z V c) (s * 2000 + p.val) q
  | 0, h, u, q => by
    refine (congrFun (congrArg (·.2.1) (reg6_outs_A V c ⟨0, h⟩ rfl)) (ix2 u q)).trans ((reg3_pay5_apply _ _ _ _ _ _ _ u q).trans ?_)
    rw [reg3_pay2_apply, zero_add, Finset.sum_range_one]
    exact Finset.sum_congr rfl fun p _ => reg6_zt_row V c ⟨0, h⟩ p q
  | n + 1, h, u, q => by
    have hN : cfg6.N = 25 := N_6
    refine (congrFun (congrArg (·.2.1) (reg6_outs_B V c ⟨n + 1, h⟩ (by dsimp only; omega))) (ix2 u q)).trans
      ((reg3_pay5_apply _ _ _ _ _ _ _ u q).trans ?_)
    rw [Finset.sum_range_succ _ (n + 1)]
    exact congrArg₂ (· + ·) (reg6_outs7 c n (Nat.lt_of_succ_lt h) u q)
      (Finset.sum_congr rfl fun p _ => reg6_zt_row V c ⟨n + 1, h⟩ p q)

/-- After point n the row of sums of squares holds the column sums of z² over the rows of tiles 0 … n. -/
theorem reg6_outs8 (c : Dev nD) : ∀ (n : ℕ) (h : n < cfg6.N) (u : Fin 1) (q : Fin 256),
    (outsAt6 V c n h).2.2 (ix2 u q) = ∑ s ∈ Finset.range (n + 1), ∑ p : Fin 2000,
      reg3_rowOr0 (reg6_Z V c) (s * 2000 + p.val) q * reg3_rowOr0 (reg6_Z V c) (s * 2000 + p.val) q
  | 0, h, u, q => by
    refine (congrFun (congrArg (·.2.2) (reg6_outs_A V c ⟨0, h⟩ rfl)) (ix2 u q)).trans ((reg3_pay1_apply _ _ u q).trans ?_)
    rw [reg3_pay3_apply, zero_add, Finset.sum_range_one]
    exact Finset.sum_congr rfl fun p _ => congrArg₂ (· * ·) (reg6_zt_row V c ⟨0, h⟩ p q) (reg6_zt_row V c ⟨0, h⟩ p q)
  | n + 1, h, u, q => by
    have hN : cfg6.N = 25 := N_6
    refine (congrFun (congrArg (·.2.2) (reg6_outs_B V c ⟨n + 1, h⟩ (by dsimp only; omega))) (ix2 u q)).trans
      ((reg3_pay1_apply _ _ u q).trans ?_)
    rw [Finset.sum_range_succ _ (n + 1)]
    exact congrArg₂ (· + ·) (reg6_outs8 c n (Nat.lt_of_succ_lt h) u q) (Finset.sum_congr rfl fun p _ =>
      congrArg₂ (· * ·) (reg6_zt_row V c ⟨n + 1, h⟩ p q) (reg6_zt_row V c ⟨n + 1, h⟩ p q))

/-- After the last point a carried row holds the column sums over all 50000 rows. -/
theorem reg6_last7 (c : Dev nD) (t : Fin cfg6.N) (h24 : t.val = 24) :
    ((outsAt6 V c t.val t.isLt).2.1 : Vec Ideal S1x256 .f32) = Cert.Spec.colSum (reg6_Z V c) := by
  funext y
  obtain ⟨u, q, rfl⟩ : ∃ (u : Fin 1) (q : Fin 256), y = ix2 u q := ⟨y 0, y 1, eq_ix2 y⟩
  rw [reg6_outs7 V c t.val t.isLt u q, h24]
  exact reg3_colSum_of_tiles _ id u q

theorem reg6_last8 (c : Dev nD) (t : Fin cfg6.N) (h24 : t.val = 24) :
    ((outsAt6 V c t.val t.isLt).2.2 : Vec Ideal S1x256 .f32) = Cert.Spec.colSum (fun j => reg6_Z V c j * reg6_Z V c j) := by
  funext y
  obtain ⟨u, q, rfl⟩ : ∃ (u : Fin 1) (q : Fin 256), y = ix2 u q := ⟨y 0, y 1, eq_ix2 y⟩
  rw [reg6_outs8 V c t.val t.isLt u q, h24]
  exact reg3_colSum_of_tiles _ (fun x => x * x) u q

/-- The first result after the region is z: row r lies in tile r / 2000, and tile t of the result is tile t of z. -/
theorem reg6_z (c : Dev nD) : (dat6 (F := Ideal) V c).arrAt 6 cfg6.N
    = Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) := by
  have hN : cfg6.N = 25 := N_6
  refine (dat6 V c).arrAt_eq_of_cover 6 (reg6_Z V c) (fun t _ => ?_) fun (i : S50000x256.Idx) => by
    have hi : (i 0).val < 50000 := (i 0).isLt
    have ht : (i 0).val / 2000 < cfg6.N := by omega
    refine ⟨⟨_, ht⟩, flush6_6 _, ?_⟩
    show i ∈ ((View.whole (Pipeline.arrRef spec6 6)).slice (win6_6.rect ⟨_, ht⟩)).set
    rw [View.set_slice_whole]
    exact Cert.LibTile.mem_tile (T := 2000) i _ (by decide) (reg6_idx _).2.2.2.2.2.2.1
  show (cfg6.win 6).cut (grid6.coords t) ((dat6 V c).after 6 t) = _
  rw [after6_6, reg6_outs6, reg6_zt_eq]
  exact funext fun j => (Cert.LibTile.ld_tile (reg6_Z V c) _ t.val (reg6_in t) (reg6_idx t).2.2.2.2.2.2.1 j).symm

/-- A row read through the one block of the second or third result is the row. -/
theorem reg6_whole7 (t : Fin cfg6.N) (G : Vec Ideal S1x256 .f32) :
    (cfg6.win 7).cut (grid6.coords t) G = ((cfg6.win 7).blk t).view.read (Elt Ideal) G :=
  funext fun j => (Cert.LibTile.ld_whole G _ (reg6_idx t).2.2.2.2.2.2.2.1 j).symm

theorem reg6_whole8 (t : Fin cfg6.N) (G : Vec Ideal S1x256 .f32) :
    (cfg6.win 8).cut (grid6.coords t) G = ((cfg6.win 8).blk t).view.read (Elt Ideal) G :=
  funext fun j => (Cert.LibTile.ld_whole G _ (reg6_idx t).2.2.2.2.2.2.2.2 j).symm

/-- The second result after the region: the column sums of z. -/
theorem reg6_sum (c : Dev nD) : (dat6 (F := Ideal) V c).arrAt 7 cfg6.N
    = Cert.Spec.colSum (Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  have hN : cfg6.N = 25 := N_6
  refine (dat6 V c).arrAt_eq_of_cover 7 (Cert.Spec.colSum (reg6_Z V c)) (fun t hf => ?_) fun (i : S1x256.Idx) => by
    have ht : 24 < cfg6.N := by omega
    refine ⟨⟨24, ht⟩, (flush6_7 _).mpr rfl, ?_⟩
    show i ∈ ((View.whole (Pipeline.arrRef spec6 7)).slice (win6_7.rect ⟨24, ht⟩)).set
    rw [View.set_slice_whole]
    exact Cert.LibTile.mem_whole i _ (reg6_idx _).2.2.2.2.2.2.2.1
  have h24 : t.val = 24 := by have := (flush6_7 t).mp hf; have := t.isLt; omega
  show (cfg6.win 7).cut (grid6.coords t) ((dat6 V c).after 7 t) = _
  rw [after6_7, reg6_last7 V c t h24]
  exact reg6_whole7 t _

/-- The third result after the region: the column sums of z². -/
theorem reg6_sumsq (c : Dev nD) : (dat6 (F := Ideal) V c).arrAt 8 cfg6.N
    = Cert.Spec.colSum (fun j => Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) j
        * Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) j) := by
  have hN : cfg6.N = 25 := N_6
  refine (dat6 V c).arrAt_eq_of_cover 8 (Cert.Spec.colSum fun j => reg6_Z V c j * reg6_Z V c j) (fun t hf => ?_) fun (i : S1x256.Idx) => by
    have ht : 24 < cfg6.N := by omega
    refine ⟨⟨24, ht⟩, (flush6_8 _).mpr rfl, ?_⟩
    show i ∈ ((View.whole (Pipeline.arrRef spec6 8)).slice (win6_8.rect ⟨24, ht⟩)).set
    rw [View.set_slice_whole]
    exact Cert.LibTile.mem_whole i _ (reg6_idx _).2.2.2.2.2.2.2.2
  have h24 : t.val = 24 := by have := (flush6_8 t).mp hf; have := t.isLt; omega
  show (cfg6.win 8).cut (grid6.coords t) ((dat6 V c).after 8 t) = _
  rw [after6_8, reg6_last8 V c t h24]
  exact reg6_whole8 t _

end Cert.KernelIdeal.Val

end
-- ==== Proof.RegBn7.lean ====
import proofs.«430164_j87205015978673_1_alg».proof.Proof.Gen.KernelIdeal.Frame
import proofs.«430164_j87205015978673_1_alg».proof.Proof.Spec
import proofs.«430164_j87205015978673_1_alg».proof.Proof.LibTile
import Idealize.ShloMosaic.Lib.ValueLayout
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The region's arrays at its entry. -/
abbrev reg7_a (c : Dev nD) (w : Fin cfg7.W) := V c (Pipeline.arrRef spec7 w)

/-- The tile's arithmetic is the normalisation by the column statistics, the scale and shift, then the rectifier. -/
theorem reg7_pay (va : Vec Ideal S1x256 .f32) (z : Vec Ideal S2000x256 .f32) (mu ga be : Vec Ideal S1x256 .f32) :
    k7_pay1 va z mu ga be = Cert.Spec.bn z mu va ga be := by
  funext j
  obtain ⟨p, q, rfl⟩ : ∃ (p : Fin 2000) (q : Fin 256), j = ix2 p q := ⟨j 0, j 1, eq_ix2 j⟩
  unfold k7_pay1
  simp only [shapeCast_self, maximumf_apply, addf_apply, mulf_apply, subf_apply, broadcast_apply,
    broadcastTo_1b_ab_apply, Ideal.ofBits_def, Ideal.ofBits_zero_f32]
  rfl

theorem reg7_idx : ∀ t : Fin cfg7.N, win7_0.index t = ![t.val, 0] ∧ win7_1.index t = ![0, 0] ∧ win7_2.index t = ![0, 0]
    ∧ win7_3.index t = ![0, 0] ∧ win7_4.index t = ![0, 0] ∧ win7_5.index t = ![t.val, 0] :=
  (by decide +kernel : ∀ t : Fin grid7.N, _)

/-- At point t the block of z and of the result is tile t, -/
theorem reg7_tile0 (t : Fin cfg7.N) (ht : t.val * 2000 + 2000 ≤ 50000) (G : Cert.Spec.Mat 50000 256) :
    ((cfg7.win 0).blk t).view.read (Elt Ideal) G = tile t.val ht G := funext (ld_tile G _ t.val ht (reg7_idx t).1)
theorem reg7_tile5 (t : Fin cfg7.N) (ht : t.val * 2000 + 2000 ≤ 50000) (G : Cert.Spec.Mat 50000 256) :
    ((cfg7.win 5).blk t).view.read (Elt Ideal) G = tile t.val ht G := funext (ld_tile G _ t.val ht (reg7_idx t).2.2.2.2.2)
/-- and the block of each one-row array is the array. -/
theorem reg7_row1 (t : Fin cfg7.N) (G : Cert.Spec.Mat 1 256) : ((cfg7.win 1).blk t).view.read (Elt Ideal) G = G :=
  funext (ld_whole G _ (reg7_idx t).2.1)
theorem reg7_row2 (t : Fin cfg7.N) (G : Cert.Spec.Mat 1 256) : ((cfg7.win 2).blk t).view.read (Elt Ideal) G = G :=
  funext (ld_whole G _ (reg7_idx t).2.2.1)
theorem reg7_row3 (t : Fin cfg7.N) (G : Cert.Spec.Mat 1 256) : ((cfg7.win 3).blk t).view.read (Elt Ideal) G = G :=
  funext (ld_whole G _ (reg7_idx t).2.2.2.1)
theorem reg7_row4 (t : Fin cfg7.N) (G : Cert.Spec.Mat 1 256) : ((cfg7.win 4).blk t).view.read (Elt Ideal) G = G :=
  funext (ld_whole G _ (reg7_idx t).2.2.2.2.1)

/-- Normalisation acts row by row, so tile t of the normalised array is the normalised tile t. -/
theorem reg7_flushed (c : Dev nD) (t : Fin cfg7.N) :
    (dat7 (F := Ideal) V c).flushed 5 t = ((cfg7.win 5).blk t).view.read (Elt Ideal) (Cert.Spec.bn (reg7_a V c 0) (reg7_a V c 1) (reg7_a V c 2) (reg7_a V c 3) (reg7_a V c 4)) := by
  have ht : t.val * 2000 + 2000 ≤ 50000 := by have := t.isLt; have hN : cfg7.N = 25 := N_7; omega
  show (cfg7.win 5).cut (grid7.coords t) ((dat7 V c).after 5 t) = _
  rw [after7_5]
  unfold out7_5
  rw [View.canon_unit_zero vec00]
  simp only [View.ld_unit_zero (S := S2000x256) vec00, View.ld_unit_zero (S := S1x256) vec00]
  exact ((reg7_pay _ _ _ _ _).trans (congr (congr (congr (congr (congrArg Cert.Spec.bn (reg7_tile0 t ht _)) (reg7_row1 t _))
    (reg7_row2 t _)) (reg7_row3 t _)) (reg7_row4 t _))).trans (reg7_tile5 t ht (Cert.Spec.bn (reg7_a V c 0) (reg7_a V c 1) (reg7_a V c 2) (reg7_a V c 3) (reg7_a V c 4))).symm

/-- The 25 tiles of 2000 rows cover the 50000 rows. -/
theorem reg7_cover (i : S50000x256.Idx) :
    ∃ t : Fin cfg7.N, (cfg7.win 5).flush t = true ∧ i ∈ ((cfg7.win 5).blk t).view.set :=
  have ht : (i 0).val / 2000 < cfg7.N := by have := idx2_lt0 i; have hN : cfg7.N = 25 := N_7; omega
  ⟨⟨_, ht⟩, flush7_5 _, (congrArg (i ∈ ·) (View.set_slice_whole _ _)).mpr (mem_tile i _ (by decide) (reg7_idx ⟨_, ht⟩).2.2.2.2.2)⟩

theorem reg7_out (c : Dev nD) :
    (dat7 (F := Ideal) V c).arrAt 5 cfg7.N
      = Cert.Spec.bn (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => reg7_flushed V c t) reg7_cover

end Cert.KernelIdeal.Val

end
-- ==== Proof.KFoldL1.lean ====
import proofs.«430164_j87205015978673_1_alg».proof.Proof.KFoldL0
import proofs.«430164_j87205015978673_1_alg».proof.Proof.RegMsg5
import proofs.«430164_j87205015978673_1_alg».proof.Proof.RegMlp6
import proofs.«430164_j87205015978673_1_alg».proof.Proof.RegBn7
set_option maxRecDepth 16384
noncomputable section
namespace Cert.KernelIdeal.Val
open Cert.KernelIdeal Cert.KernelIdeal.Gen Idealize.ShloMosaic Idealize.ShloMosaic.TcCoe Idealize.SL.Sem Idealize.ShloMosaic.ValueIdx
open Cert.Spec Cert.LibRows
open L0 (take_eq wrapCol_apply slab_eq slabRow_eq mean_eq var_eq)

namespace L1

variable (W : Valuation τ sig (Elt Ideal))

theorem take_W :
    StableHlo.after (hostOps5 (F := Ideal)) W (Proc.devRef .tc main_v37)
      = takeFill nodes_pos (W (Proc.devRef .tc main_v36) : Mat 50000 256) (idxCol (W (Proc.devRef .tc main_v1) : IVct 300000)) := by
  after_results_simp
  simp only [StableHlo.TRef.ofBuf, StableHlo.TRef.toBuf, cast_eq]
  exact take_eq _ _ _ _ _ _ _ _ _ _ _ _ _ rfl

theorem agg_W :
    StableHlo.after (hostOps6 (F := Ideal)) W (Proc.devRef .tc main_v41)
      = segsum (idxCol (W (Proc.devRef .tc main_v3) : IVct 300000)) (W (Proc.devRef .tc main_v38) : Mat 300000 256) := by
  after_results
  exact Cert.LibLin.scatter_zero_eq_segsum _ _ rfl _ _ _ _

theorem w1_W :
    StableHlo.after (hostOps6 (F := Ideal)) W (Proc.devRef .tc main_v43)
      = slab 1 (W (Proc.devRef .tc main_arg8) : Ten 4 256 256) := by
  after_results
  exact slab_eq 1 _ rfl rfl rfl _ _ _

theorem b1_W :
    StableHlo.after (hostOps6 (F := Ideal)) W (Proc.devRef .tc main_v50)
      = slabRow 1 (W (Proc.devRef .tc main_arg9) : Mat 4 256) := by
  after_results
  exact slabRow_eq 1 _ rfl rfl _ _ _ _

theorem w2_W :
    StableHlo.after (hostOps6 (F := Ideal)) W (Proc.devRef .tc main_v47)
      = slab 1 (W (Proc.devRef .tc main_arg10) : Ten 4 256 256) := by
  after_results
  exact slab_eq 1 _ rfl rfl rfl _ _ _

theorem b2_W :
    StableHlo.after (hostOps6 (F := Ideal)) W (Proc.devRef .tc main_v51)
      = slabRow 1 (W (Proc.devRef .tc main_arg11) : Mat 4 256) := by
  after_results
  exact slabRow_eq 1 _ rfl rfl _ _ _ _

theorem mean_W (z : Mat 50000 256) (hs : (W (Proc.devRef .tc main_v52_1) : Mat 1 256) = colSum z) :
    StableHlo.after (hostOps7 (F := Ideal)) W (Proc.devRef .tc main_v54) = mean z := by
  after_results
  exact mean_eq z _ hs _

theorem var_W (z : Mat 50000 256) (hs : (W (Proc.devRef .tc main_v52_1) : Mat 1 256) = colSum z)
    (hq : (W (Proc.devRef .tc main_v52_2) : Mat 1 256) = colSum (fun j => z j * z j)) :
    StableHlo.after (hostOps7 (F := Ideal)) W (Proc.devRef .tc main_v58) = varK z := by
  after_results
  exact var_eq z _ _ hs hq _

theorem gamma_W :
    StableHlo.after (hostOps7 (F := Ideal)) W (Proc.devRef .tc main_v63)
      = slabRow 1 (W (Proc.devRef .tc main_arg12) : Mat 4 256) := by
  after_results
  exact slabRow_eq 1 _ rfl rfl _ _ _ _

theorem beta_W :
    StableHlo.after (hostOps7 (F := Ideal)) W (Proc.devRef .tc main_v64)
      = slabRow 1 (W (Proc.devRef .tc main_arg13) : Mat 4 256) := by
  after_results
  exact slabRow_eq 1 _ rfl rfl _ _ _ _

end L1

set_option maxHeartbeats 4000000 in
/-- LAYER 1: from the node features `h` and held contents at its entry, the model's layer of `h` and held contents at its exit. -/
theorem L1_h (m : (ℓ : Loc nD τ sig) → Buf (Elt Ideal) ℓ) (ρ : Dev nD → PrngReg) (c : Dev nD) (I : Inputs) (h : Mat 50000 256)
    (hh : W10 (F := Ideal) m ρ c (Proc.devRef .tc main_v36) = h) (H : Held I (W10 m ρ c)) :
    W16 (F := Ideal) m ρ c (Proc.devRef .tc main_v65) = stepK I 1 h ∧ Held I (W16 m ρ c) := by
  have H5 : Held I (W11 m ρ c) := H.after wr5_sub (by decide)
  have H6 : Held I (W12 m ρ c) := H5.keep fun b hb => by
    rcases (by decide : ∀ b ∈ kept, b = main_v7 ∨ ∀ w, Pipeline.arrRef spec5 w ≠ b) b hb with rfl | hn
    · exact (W12_arr m ρ c 1).trans (((dat5 (V11 m ρ) c).arrAt_in 1 rfl _).trans (A_eq5 (V11 m ρ) c 1))
    · exact W12_of_ne m ρ c b hn
  have H7 : Held I (W13 m ρ c) := H6.after wr6_sub (by decide)
  have H8 : Held I (W14 m ρ c) := H7.keep fun b hb =>
    W14_of_ne m ρ c b ((by decide : ∀ b ∈ kept, ∀ w, Pipeline.arrRef spec6 w ≠ b) b hb)
  have H9 : Held I (W15 m ρ c) := H8.after wr7_sub (by decide)
  refine ⟨?_, H9.keep fun b hb => W16_of_ne m ρ c b ((by decide : ∀ b ∈ kept, ∀ w, Pipeline.arrRef spec7 w ≠ b) b hb)⟩
  have g0 : V11 (F := Ideal) m ρ c (Pipeline.arrRef spec5 0) = takeFill nodes_pos h (idxCol (src1 I)) :=
    (L1.take_W (W10 m ρ c)).trans (by rw [hh, H.v1])
  have g1 : V11 (F := Ideal) m ρ c (Pipeline.arrRef spec5 1) = ea I := H5.v7
  have e6 : W12 (F := Ideal) m ρ c (Proc.devRef .tc main_v38) = msgf (takeFill nodes_pos h (idxCol (src1 I))) (ea I) :=
    (W12_arr m ρ c 2).trans <| (reg5_out (V11 m ρ) c).trans (by rw [g0, g1])
  have x0 : V13 (F := Ideal) m ρ c (Pipeline.arrRef spec6 0) = h :=
    (StableHlo.after_of_writes_sub hostOps6 _ wr6_sub (by decide : main_v36 ∉ wr6)).trans <| (W12_of_ne m ρ c main_v36 (by decide)).trans <|
      (StableHlo.after_of_writes_sub hostOps5 _ wr5_sub (by decide : main_v36 ∉ wr5)).trans hh
  have x1 : V13 (F := Ideal) m ρ c (Pipeline.arrRef spec6 1)
      = segsum (idxCol (dst1 I)) (msgf (takeFill nodes_pos h (idxCol (src1 I))) (ea I)) :=
    (L1.agg_W (W12 m ρ c)).trans (by rw [H6.v3, e6])
  have x2 : V13 (F := Ideal) m ρ c (Pipeline.arrRef spec6 2) = slab 1 I.w1 := (L1.w1_W (W12 m ρ c)).trans (by rw [H6.a8])
  have x3 : V13 (F := Ideal) m ρ c (Pipeline.arrRef spec6 3) = slabRow 1 I.b1 := (L1.b1_W (W12 m ρ c)).trans (by rw [H6.a9])
  have x4 : V13 (F := Ideal) m ρ c (Pipeline.arrRef spec6 4) = slab 1 I.w2 := (L1.w2_W (W12 m ρ c)).trans (by rw [H6.a10])
  have x5 : V13 (F := Ideal) m ρ c (Pipeline.arrRef spec6 5) = slabRow 1 I.b2 := (L1.b2_W (W12 m ρ c)).trans (by rw [H6.a11])
  obtain ⟨z, hz⟩ : ∃ z : Mat 50000 256, z = mlp (V13 (F := Ideal) m ρ c (Pipeline.arrRef spec6 0)) (V13 m ρ c (Pipeline.arrRef spec6 1))
      (V13 m ρ c (Pipeline.arrRef spec6 2)) (V13 m ρ c (Pipeline.arrRef spec6 3)) (V13 m ρ c (Pipeline.arrRef spec6 4))
      (V13 m ρ c (Pipeline.arrRef spec6 5)) := ⟨_, rfl⟩
  have e8z : W14 (F := Ideal) m ρ c (Proc.devRef .tc main_v52_0) = z := (W14_arr m ρ c 6).trans ((reg6_z (V13 m ρ) c).trans hz.symm)
  have e8s : W14 (F := Ideal) m ρ c (Proc.devRef .tc main_v52_1) = colSum z := (W14_arr m ρ c 7).trans ((reg6_sum (V13 m ρ) c).trans (by rw [hz]))
  have e8q : W14 (F := Ideal) m ρ c (Proc.devRef .tc main_v52_2) = colSum (fun j => z j * z j) :=
    (W14_arr m ρ c 8).trans ((reg6_sumsq (V13 m ρ) c).trans (by rw [hz]))
  rw [x0, x1, x2, x3, x4, x5] at hz
  have y0 : V15 (F := Ideal) m ρ c (Pipeline.arrRef spec7 0) = z := (StableHlo.after_of_writes_sub hostOps7 _ wr7_sub (by decide : main_v52_0 ∉ wr7)).trans e8z
  have y1 : V15 (F := Ideal) m ρ c (Pipeline.arrRef spec7 1) = mean z := L1.mean_W (W14 m ρ c) z e8s
  have y2 : V15 (F := Ideal) m ρ c (Pipeline.arrRef spec7 2) = varK z := L1.var_W (W14 m ρ c) z e8s e8q
  have y3 : V15 (F := Ideal) m ρ c (Pipeline.arrRef spec7 3) = slabRow 1 I.gamma := (L1.gamma_W (W14 m ρ c)).trans (by rw [H8.a12])
  have y4 : V15 (F := Ideal) m ρ c (Pipeline.arrRef spec7 4) = slabRow 1 I.beta := (L1.beta_W (W14 m ρ c)).trans (by rw [H8.a13])
  refine (W16_arr m ρ c 5).trans <| (reg7_out (V15 m ρ) c).trans ?_
  rw [y0, y1, y2, y3, y4, hz]
  rfl

end Cert.KernelIdeal.Val
end
-- ==== Proof.RegMsg8.lean ====
import proofs.«430164_j87205015978673_1_alg».proof.Proof.Gen.KernelIdeal.Frame
import proofs.«430164_j87205015978673_1_alg».proof.Proof.Spec
import proofs.«430164_j87205015978673_1_alg».proof.Proof.LibTile
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The tile's arithmetic is the message map, max (a + b) 0 entry by entry. -/
theorem reg8_pay (x0 x1 : Vec Ideal S4000x256 .f32) : k8_pay1 x0 x1 = Cert.Spec.msgf x0 x1 := by
  funext j
  unfold k8_pay1
  simp only [shapeCast_self]
  rw [maximumf_apply, addf_apply, broadcast_apply]
  show max (x0 j + x1 j) (Ideal.ofBits .f32 0x00000000#32) = _
  rw [Ideal.ofBits_zero_f32]
  rfl

/-- At point t every window's block index is (t, 0). -/
theorem reg8_idx : ∀ t : Fin cfg8.N,
    win8_0.index t = ![t.val, 0] ∧ win8_1.index t = ![t.val, 0] ∧ win8_2.index t = ![t.val, 0] :=
  (by decide +kernel : ∀ t : Fin grid8.N, _)

/-- The message map acts entry by entry, so tile t of the message array is the message map of the two tiles t. -/
theorem reg8_flushed (c : Dev nD) (t : Fin cfg8.N) :
    (dat8 (F := Ideal) V c).flushed 2 t = ((cfg8.win 2).blk t).view.read (Elt Ideal)
      (Cert.Spec.msgf (V c (Pipeline.arrRef spec8 0)) (V c (Pipeline.arrRef spec8 1))) := by
  obtain ⟨e0, e1, e2⟩ := reg8_idx t
  have ht : t.val * 4000 + 4000 ≤ 300000 := by have := t.isLt; have hN : cfg8.N = 75 := N_8; omega
  show (cfg8.win 2).cut (grid8.coords t) ((dat8 V c).after 2 t) = _
  rw [after8_2]
  unfold out8_2
  rw [View.canon_unit_zero vec00]
  simp only [View.ld_unit_zero (S := S4000x256) vec00]
  rw [reg8_pay]
  funext j
  exact (congrArg₂ (fun a b => Cert.Spec.relu (a + b)) (ld_tile (V c (Pipeline.arrRef spec8 0)) _ t.val ht e0 j)
    (ld_tile (V c (Pipeline.arrRef spec8 1)) _ t.val ht e1 j)).trans
    (ld_tile (Cert.Spec.msgf (V c (Pipeline.arrRef spec8 0)) (V c (Pipeline.arrRef spec8 1))) _ t.val ht e2 j).symm

/-- The 75 tiles of 4000 rows cover the 300000 rows. -/
theorem reg8_cover (i : S300000x256.Idx) :
    ∃ t : Fin cfg8.N, (cfg8.win 2).flush t = true ∧ i ∈ ((cfg8.win 2).blk t).view.set :=
  have ht : (i 0).val / 4000 < cfg8.N := by have := idx2_lt0 i; have hN : cfg8.N = 75 := N_8; omega
  ⟨⟨_, ht⟩, flush8_2 _, (congrArg (i ∈ ·) (View.set_slice_whole _ _)).mpr (mem_tile i _ (by decide) (reg8_idx ⟨_, ht⟩).2.2)⟩

theorem reg8_out (c : Dev nD) :
    (dat8 (F := Ideal) V c).arrAt 2 cfg8.N
      = Cert.Spec.msgf (V c (Pipeline.arrRef spec8 0)) (V c (Pipeline.arrRef spec8 1)) :=
  (dat8 (F := Ideal) V c).arrAt_eq_of_cover 2 _ (fun t _ => reg8_flushed V c t) reg8_cover

end Cert.KernelIdeal.Val

end
-- ==== Proof.RegMlp9.lean ====
import proofs.«430164_j87205015978673_1_alg».proof.Proof.Gen.KernelIdeal.Frame
import proofs.«430164_j87205015978673_1_alg».proof.Proof.Spec
import proofs.«430164_j87205015978673_1_alg».proof.Proof.RegMlp3Pay
import proofs.«430164_j87205015978673_1_alg».proof.Proof.LibTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

section Pieces

variable {F : FTy → Type} [FloatOps F] (c : Dev nD) (i : grid9.Coords)
  (a1 : Memref sig .tc .vmem S2000x256 .f32) (h1 : a1.IsWhole) (a2 : Memref sig .tc .vmem S2000x256 .f32) (h2 : a2.IsWhole)
  (a3 : Memref sig .tc .vmem S256x256 .f32) (h3 : a3.IsWhole) (a4 : Memref sig .tc .vmem S1x256 .f32) (h4 : a4.IsWhole)
  (a5 : Memref sig .tc .vmem S256x256 .f32) (h5 : a5.IsWhole) (a6 : Memref sig .tc .vmem S1x256 .f32) (h6 : a6.IsWhole)
  (a7 : Memref sig .tc .vmem S2000x256 .f32) (h7 : a7.IsWhole) (a8 : Memref sig .tc .vmem S1x256 .f32) (h8 : a8.IsWhole)
  (a9 : Memref sig .tc .vmem S1x256 .f32) (h9 : a9.IsWhole)
  (x0 x1 : Vec F S2000x256 .f32) (x2 : Vec F S256x256 .f32) (x3 : Vec F S1x256 .f32) (x4 : Vec F S256x256 .f32) (x5 : Vec F S1x256 .f32)

theorem reg9_out_A (hc : cond9_0 i) :
    (out9_A_6 c i a1 h1 a2 h2 a3 h3 a4 h4 a5 h5 a6 h6 a7 h7 a8 h8 a9 h9 hc x0 x1 x2 x3 x4 x5, out9_A_7 c i a1 h1 a2 h2 a3 h3 a4 h4 a5 h5 a6 h6 a7 h7 a8 h8 a9 h9 hc x0 x1 x2 x3 x4 x5, out9_A_8 c i a1 h1 a2 h2 a3 h3 a4 h4 a5 h5 a6 h6 a7 h7 a8 h8 a9 h9 hc x0 x1 x2 x3 x4 x5)
      = (k9_pay4 x0 x1 x2 x3 x4 x5, k9_pay5 x0 x1 x2 x3 x4 x5 k9_pay2, k9_pay1 (k9_pay4 x0 x1 x2 x3 x4 x5) k9_pay3) := by
  unfold out9_A_6 out9_A_7 out9_A_8
  simp only [View.read_writes_junk_eq_canon]
  unfold kernelRun9_A
  dsimp only
  sl_unfold_words
  simp only [View.canon_cons_unit_zero (S := S2000x256) reg3_hz, View.canon_cons_unit_zero (S := S1x256) reg3_hz,
    View.readCov_unit_zero (S := S1x256) _ reg3_hz, View.readAt_eq_ld, h1.read_unread, h2.read_unread, h3.read_unread, h4.read_unread,
    h5.read_unread, h6.read_unread, View.ld_unit_zero (S := S2000x256) reg3_hz, View.ld_unit_zero (S := S256x256) reg3_hz,
    View.ld_unit_zero (S := S1x256) reg3_hz]

theorem reg9_out_B (hc : ¬cond9_0 i) (xo7 xo8 : Vec F S1x256 .f32) :
    (out9_B_6 c i a1 h1 a2 h2 a3 h3 a4 h4 a5 h5 a6 h6 a7 h7 a8 h8 a9 h9 hc x0 x1 x2 x3 x4 x5 xo7 xo8, out9_B_7 c i a1 h1 a2 h2 a3 h3 a4 h4 a5 h5 a6 h6 a7 h7 a8 h8 a9 h9 hc x0 x1 x2 x3 x4 x5 xo7 xo8, out9_B_8 c i a1 h1 a2 h2 a3 h3 a4 h4 a5 h5 a6 h6 a7 h7 a8 h8 a9 h9 hc x0 x1 x2 x3 x4 x5 xo7 xo8)
      = (k9_pay4 x0 x1 x2 x3 x4 x5, k9_pay5 x0 x1 x2 x3 x4 x5 xo7, k9_pay1 (k9_pay4 x0 x1 x2 x3 x4 x5) xo8) := by
  unfold out9_B_6 out9_B_7 out9_B_8
  simp only [View.read_writes_junk_eq_canon]
  unfold kernelRun9_B
  dsimp only
  sl_unfold_words
  simp only [View.canon_cons_unit_zero (S := S2000x256) reg3_hz, View.canon_cons_unit_zero (S := S1x256) reg3_hz,
    View.readAt_eq_ld, h1.read_unread, h2.read_unread, h3.read_unread, h4.read_unread, h5.read_unread, h6.read_unread,
    h8.read_unread, h9.read_unread, View.ld_unit_zero (S := S2000x256) reg3_hz, View.ld_unit_zero (S := S256x256) reg3_hz,
    View.ld_unit_zero (S := S1x256) reg3_hz]

end Pieces

/-- The tile of z at point t: the perceptron on the six blocks of the point. -/
abbrev reg9_zt (c : Dev nD) (t : Fin cfg9.N) : FVec Ideal S2000x256 .f32 :=
  k3_pay4 (iblk9 V c 0 t) (iblk9 V c 1 t) (iblk9 V c 2 t) (iblk9 V c 3 t) (iblk9 V c 4 t) (iblk9 V c 5 t)

/-- z on all 50000 rows, of the arrays as the region finds them. -/
abbrev reg9_Z (c : Dev nD) : Cert.Spec.Mat 50000 256 :=
  Cert.Spec.mlp (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))

/-- After a first point: the tile of z, and the column sums of the tile and of its squares added to zero rows; -/
theorem reg9_outs_A (c : Dev nD) (t : Fin cfg9.N) (h0 : t.val % 25 = 0) :
    outsAt9 V c t.val t.isLt = (reg9_zt V c t, k3_pay5 (iblk9 V c 0 t) (iblk9 V c 1 t) (iblk9 V c 2 t) (iblk9 V c 3 t) (iblk9 V c 4 t) (iblk9 V c 5 t) (k3_pay2 (F := Ideal)), k3_pay1 (reg9_zt V c t) (k3_pay3 (F := Ideal))) :=
  (outsAt9_A V c t h0).trans (reg9_out_A ..)

/-- after any other point, added to the rows the point before left. -/
theorem reg9_outs_B (c : Dev nD) (t : Fin cfg9.N) (h0 : ¬t.val % 25 = 0) :
    outsAt9 V c t.val t.isLt = (reg9_zt V c t, k3_pay5 (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2.1, k3_pay1 (reg9_zt V c t) (outsAt9 V c (t.val - 1) (Nat.lt_of_le_of_lt (Nat.sub_le _ _) t.isLt)).2.2) :=
  (outsAt9_B V c t h0).trans (reg9_out_B ..)

/-- The index maps over the grid: the tiles of h, agg and z are at block row t, everything else at block (0, 0). -/
theorem reg9_idx : ∀ t : Fin cfg9.N, win9_0.index t = ![t.val, 0] ∧ win9_1.index t = ![t.val, 0] ∧ win9_2.index t = ![0, 0]
    ∧ win9_3.index t = ![0, 0] ∧ win9_4.index t = ![0, 0] ∧ win9_5.index t = ![0, 0] ∧ win9_6.index t = ![t.val, 0]
    ∧ win9_7.index t = ![0, 0] ∧ win9_8.index t = ![0, 0] :=
  (by decide +kernel : ∀ t : Fin grid9.N, _)

theorem reg9_in (t : Fin cfg9.N) : t.val * 2000 + 2000 ≤ 50000 := by
  have hN : cfg9.N = 25 := N_9
  have := t.isLt
  omega

/-- Read through the point's input blocks, a matrix gives its tile t (h and agg) or itself (the weights and biases). -/
theorem reg9_rd0 (t : Fin cfg9.N) (G : Cert.Spec.Mat 50000 256) :
    ((cfg9.win 0).blk t).view.read (Elt Ideal) G = Cert.LibTile.tile t.val (reg9_in t) G :=
  funext (Cert.LibTile.ld_tile G _ t.val (reg9_in t) (reg9_idx t).1)

theorem reg9_rd1 (t : Fin cfg9.N) (G : Cert.Spec.Mat 50000 256) :
    ((cfg9.win 1).blk t).view.read (Elt Ideal) G = Cert.LibTile.tile t.val (reg9_in t) G :=
  funext (Cert.LibTile.ld_tile G _ t.val (reg9_in t) (reg9_idx t).2.1)

theorem reg9_rd2 (t : Fin cfg9.N) (G : Cert.Spec.Mat 256 256) : ((cfg9.win 2).blk t).view.read (Elt Ideal) G = G :=
  funext (Cert.LibTile.ld_whole G _ (reg9_idx t).2.2.1)

theorem reg9_rd3 (t : Fin cfg9.N) (G : Cert.Spec.Mat 1 256) : ((cfg9.win 3).blk t).view.read (Elt Ideal) G = G :=
  funext (Cert.LibTile.ld_whole G _ (reg9_idx t).2.2.2.1)

theorem reg9_rd4 (t : Fin cfg9.N) (G : Cert.Spec.Mat 256 256) : ((cfg9.win 4).blk t).view.read (Elt Ideal) G = G :=
  funext (Cert.LibTile.ld_whole G _ (reg9_idx t).2.2.2.2.1)

theorem reg9_rd5 (t : Fin cfg9.N) (G : Cert.Spec.Mat 1 256) : ((cfg9.win 5).blk t).view.read (Elt Ideal) G = G :=
  funext (Cert.LibTile.ld_whole G _ (reg9_idx t).2.2.2.2.2.1)

/-- The tile of z at point t is tile t of z: the blocks of h and agg are their tiles t, the weights and biases are whole, and the perceptron acts row by row. -/
theorem reg9_zt_eq (c : Dev nD) (t : Fin cfg9.N) : reg9_zt V c t = Cert.LibTile.tile t.val (reg9_in t) (reg9_Z V c) := by
  have h0 : iblk9 V c 0 t = _ := reg9_rd0 t _
  have h1 : iblk9 V c 1 t = _ := reg9_rd1 t _
  have h2 : iblk9 V c 2 t = _ := reg9_rd2 t _
  have h3 : iblk9 V c 3 t = _ := reg9_rd3 t _
  have h4 : iblk9 V c 4 t = _ := reg9_rd4 t _
  have h5 : iblk9 V c 5 t = _ := reg9_rd5 t _
  rw [reg9_zt, h0, h1, h2, h3, h4, h5, reg3_pay4_eq]
  rfl

theorem reg9_outs6 (c : Dev nD) (t : Fin cfg9.N) : (outsAt9 V c t.val t.isLt).1 = reg9_zt V c t := by
  by_cases h0 : t.val % 25 = 0
  · rw [reg9_outs_A V c t h0]
  · rw [reg9_outs_B V c t h0]

/-- An entry of the tile of z at point t is the matching row of z. -/
theorem reg9_zt_row (c : Dev nD) (t : Fin cfg9.N) (p : Fin 2000) (q : Fin 256) :
    reg9_zt V c t (ix2 p q) = reg3_rowOr0 (reg9_Z V c) (t.val * 2000 + p.val) q :=
  (congrFun (reg9_zt_eq V c t) (ix2 p q)).trans (reg3_rowOr0_of_lt (reg9_Z V c) _ q _ rfl).symm

/-- After point n the row of sums holds the column sums of z over the rows of tiles 0 … n. -/
theorem reg9_outs7 (c : Dev nD) : ∀ (n : ℕ) (h : n < cfg9.N) (u : Fin 1) (q : Fin 256),
    (outsAt9 V c n h).2.1 (ix2 u q)
      = ∑ s ∈ Finset.range (n + 1), ∑ p : Fin 2000, reg3_rowOr0 (reg9_Z V c) (s * 2000 + p.val) q
  | 0, h, u, q => by
    refine (congrFun (congrArg (·.2.1) (reg9_outs_A V c ⟨0, h⟩ rfl)) (ix2 u q)).trans ((reg3_pay5_apply _ _ _ _ _ _ _ u q).trans ?_)
    rw [reg3_pay2_apply, zero_add, Finset.sum_range_one]
    exact Finset.sum_congr rfl fun p _ => reg9_zt_row V c ⟨0, h⟩ p q
  | n + 1, h, u, q => by
    have hN : cfg9.N = 25 := N_9
    refine (congrFun (congrArg (·.2.1) (reg9_outs_B V c ⟨n + 1, h⟩ (by dsimp only; omega))) (ix2 u q)).trans
      ((reg3_pay5_apply _ _ _ _ _ _ _ u q).trans ?_)
    rw [Finset.sum_range_succ _ (n + 1)]
    exact congrArg₂ (· + ·) (reg9_outs7 c n (Nat.lt_of_succ_lt h) u q)
      (Finset.sum_congr rfl fun p _ => reg9_zt_row V c ⟨n + 1, h⟩ p q)

/-- After point n the row of sums of squares holds the column sums of z² over the rows of tiles 0 … n. -/
theorem reg9_outs8 (c : Dev nD) : ∀ (n : ℕ) (h : n < cfg9.N) (u : Fin 1) (q : Fin 256),
    (outsAt9 V c n h).2.2 (ix2 u q) = ∑ s ∈ Finset.range (n + 1), ∑ p : Fin 2000,
      reg3_rowOr0 (reg9_Z V c) (s * 2000 + p.val) q * reg3_rowOr0 (reg9_Z V c) (s * 2000 + p.val) q
  | 0, h, u, q => by
    refine (congrFun (congrArg (·.2.2) (reg9_outs_A V c ⟨0, h⟩ rfl)) (ix2 u q)).trans ((reg3_pay1_apply _ _ u q).trans ?_)
    rw [reg3_pay3_apply, zero_add, Finset.sum_range_one]
    exact Finset.sum_congr rfl fun p _ => congrArg₂ (· * ·) (reg9_zt_row V c ⟨0, h⟩ p q) (reg9_zt_row V c ⟨0, h⟩ p q)
  | n + 1, h, u, q => by
    have hN : cfg9.N = 25 := N_9
    refine (congrFun (congrArg (·.2.2) (reg9_outs_B V c ⟨n + 1, h⟩ (by dsimp only; omega))) (ix2 u q)).trans
      ((reg3_pay1_apply _ _ u q).trans ?_)
    rw [Finset.sum_range_succ _ (n + 1)]
    exact congrArg₂ (· + ·) (reg9_outs8 c n (Nat.lt_of_succ_lt h) u q) (Finset.sum_congr rfl fun p _ =>
      congrArg₂ (· * ·) (reg9_zt_row V c ⟨n + 1, h⟩ p q) (reg9_zt_row V c ⟨n + 1, h⟩ p q))

/-- After the last point a carried row holds the column sums over all 50000 rows. -/
theorem reg9_last7 (c : Dev nD) (t : Fin cfg9.N) (h24 : t.val = 24) :
    ((outsAt9 V c t.val t.isLt).2.1 : Vec Ideal S1x256 .f32) = Cert.Spec.colSum (reg9_Z V c) := by
  funext y
  obtain ⟨u, q, rfl⟩ : ∃ (u : Fin 1) (q : Fin 256), y = ix2 u q := ⟨y 0, y 1, eq_ix2 y⟩
  rw [reg9_outs7 V c t.val t.isLt u q, h24]
  exact reg3_colSum_of_tiles _ id u q

theorem reg9_last8 (c : Dev nD) (t : Fin cfg9.N) (h24 : t.val = 24) :
    ((outsAt9 V c t.val t.isLt).2.2 : Vec Ideal S1x256 .f32) = Cert.Spec.colSum (fun j => reg9_Z V c j * reg9_Z V c j) := by
  funext y
  obtain ⟨u, q, rfl⟩ : ∃ (u : Fin 1) (q : Fin 256), y = ix2 u q := ⟨y 0, y 1, eq_ix2 y⟩
  rw [reg9_outs8 V c t.val t.isLt u q, h24]
  exact reg3_colSum_of_tiles _ (fun x => x * x) u q

/-- The first result after the region is z: row r lies in tile r / 2000, and tile t of the result is tile t of z. -/
theorem reg9_z (c : Dev nD) : (dat9 (F := Ideal) V c).arrAt 6 cfg9.N
    = Cert.Spec.mlp (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) := by
  have hN : cfg9.N = 25 := N_9
  refine (dat9 V c).arrAt_eq_of_cover 6 (reg9_Z V c) (fun t _ => ?_) fun (i : S50000x256.Idx) => by
    have hi : (i 0).val < 50000 := (i 0).isLt
    have ht : (i 0).val / 2000 < cfg9.N := by omega
    refine ⟨⟨_, ht⟩, flush9_6 _, ?_⟩
    show i ∈ ((View.whole (Pipeline.arrRef spec9 6)).slice (win9_6.rect ⟨_, ht⟩)).set
    rw [View.set_slice_whole]
    exact Cert.LibTile.mem_tile (T := 2000) i _ (by decide) (reg9_idx _).2.2.2.2.2.2.1
  show (cfg9.win 6).cut (grid9.coords t) ((dat9 V c).after 6 t) = _
  rw [after9_6, reg9_outs6, reg9_zt_eq]
  exact funext fun j => (Cert.LibTile.ld_tile (reg9_Z V c) _ t.val (reg9_in t) (reg9_idx t).2.2.2.2.2.2.1 j).symm

/-- A row read through the one block of the second or third result is the row. -/
theorem reg9_whole7 (t : Fin cfg9.N) (G : Vec Ideal S1x256 .f32) :
    (cfg9.win 7).cut (grid9.coords t) G = ((cfg9.win 7).blk t).view.read (Elt Ideal) G :=
  funext fun j => (Cert.LibTile.ld_whole G _ (reg9_idx t).2.2.2.2.2.2.2.1 j).symm

theorem reg9_whole8 (t : Fin cfg9.N) (G : Vec Ideal S1x256 .f32) :
    (cfg9.win 8).cut (grid9.coords t) G = ((cfg9.win 8).blk t).view.read (Elt Ideal) G :=
  funext fun j => (Cert.LibTile.ld_whole G _ (reg9_idx t).2.2.2.2.2.2.2.2 j).symm

/-- The second result after the region: the column sums of z. -/
theorem reg9_sum (c : Dev nD) : (dat9 (F := Ideal) V c).arrAt 7 cfg9.N
    = Cert.Spec.colSum (Cert.Spec.mlp (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  have hN : cfg9.N = 25 := N_9
  refine (dat9 V c).arrAt_eq_of_cover 7 (Cert.Spec.colSum (reg9_Z V c)) (fun t hf => ?_) fun (i : S1x256.Idx) => by
    have ht : 24 < cfg9.N := by omega
    refine ⟨⟨24, ht⟩, (flush9_7 _).mpr rfl, ?_⟩
    show i ∈ ((View.whole (Pipeline.arrRef spec9 7)).slice (win9_7.rect ⟨24, ht⟩)).set
    rw [View.set_slice_whole]
    exact Cert.LibTile.mem_whole i _ (reg9_idx _).2.2.2.2.2.2.2.1
  have h24 : t.val = 24 := by have := (flush9_7 t).mp hf; have := t.isLt; omega
  show (cfg9.win 7).cut (grid9.coords t) ((dat9 V c).after 7 t) = _
  rw [after9_7, reg9_last7 V c t h24]
  exact reg9_whole7 t _

/-- The third result after the region: the column sums of z². -/
theorem reg9_sumsq (c : Dev nD) : (dat9 (F := Ideal) V c).arrAt 8 cfg9.N
    = Cert.Spec.colSum (fun j => Cert.Spec.mlp (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) j
        * Cert.Spec.mlp (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) j) := by
  have hN : cfg9.N = 25 := N_9
  refine (dat9 V c).arrAt_eq_of_cover 8 (Cert.Spec.colSum fun j => reg9_Z V c j * reg9_Z V c j) (fun t hf => ?_) fun (i : S1x256.Idx) => by
    have ht : 24 < cfg9.N := by omega
    refine ⟨⟨24, ht⟩, (flush9_8 _).mpr rfl, ?_⟩
    show i ∈ ((View.whole (Pipeline.arrRef spec9 8)).slice (win9_8.rect ⟨24, ht⟩)).set
    rw [View.set_slice_whole]
    exact Cert.LibTile.mem_whole i _ (reg9_idx _).2.2.2.2.2.2.2.2
  have h24 : t.val = 24 := by have := (flush9_8 t).mp hf; have := t.isLt; omega
  show (cfg9.win 8).cut (grid9.coords t) ((dat9 V c).after 8 t) = _
  rw [after9_8, reg9_last8 V c t h24]
  exact reg9_whole8 t _

end Cert.KernelIdeal.Val

end
-- ==== Proof.RegBn10.lean ====
import proofs.«430164_j87205015978673_1_alg».proof.Proof.Gen.KernelIdeal.Frame
import proofs.«430164_j87205015978673_1_alg».proof.Proof.Spec
import proofs.«430164_j87205015978673_1_alg».proof.Proof.LibTile
import Idealize.ShloMosaic.Lib.ValueLayout
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The region's arrays at its entry. -/
abbrev reg10_a (c : Dev nD) (w : Fin cfg10.W) := V c (Pipeline.arrRef spec10 w)

/-- The tile's arithmetic is the normalisation by the column statistics, the scale and shift, then the rectifier. -/
theorem reg10_pay (va : Vec Ideal S1x256 .f32) (z : Vec Ideal S2000x256 .f32) (mu ga be : Vec Ideal S1x256 .f32) :
    k10_pay1 va z mu ga be = Cert.Spec.bn z mu va ga be := by
  funext j
  obtain ⟨p, q, rfl⟩ : ∃ (p : Fin 2000) (q : Fin 256), j = ix2 p q := ⟨j 0, j 1, eq_ix2 j⟩
  unfold k10_pay1
  simp only [shapeCast_self, maximumf_apply, addf_apply, mulf_apply, subf_apply, broadcast_apply,
    broadcastTo_1b_ab_apply, Ideal.ofBits_def, Ideal.ofBits_zero_f32]
  rfl

theorem reg10_idx : ∀ t : Fin cfg10.N, win10_0.index t = ![t.val, 0] ∧ win10_1.index t = ![0, 0] ∧ win10_2.index t = ![0, 0]
    ∧ win10_3.index t = ![0, 0] ∧ win10_4.index t = ![0, 0] ∧ win10_5.index t = ![t.val, 0] :=
  (by decide +kernel : ∀ t : Fin grid10.N, _)

/-- At point t the block of z and of the result is tile t, -/
theorem reg10_tile0 (t : Fin cfg10.N) (ht : t.val * 2000 + 2000 ≤ 50000) (G : Cert.Spec.Mat 50000 256) :
    ((cfg10.win 0).blk t).view.read (Elt Ideal) G = tile t.val ht G := funext (ld_tile G _ t.val ht (reg10_idx t).1)
theorem reg10_tile5 (t : Fin cfg10.N) (ht : t.val * 2000 + 2000 ≤ 50000) (G : Cert.Spec.Mat 50000 256) :
    ((cfg10.win 5).blk t).view.read (Elt Ideal) G = tile t.val ht G := funext (ld_tile G _ t.val ht (reg10_idx t).2.2.2.2.2)
/-- and the block of each one-row array is the array. -/
theorem reg10_row1 (t : Fin cfg10.N) (G : Cert.Spec.Mat 1 256) : ((cfg10.win 1).blk t).view.read (Elt Ideal) G = G :=
  funext (ld_whole G _ (reg10_idx t).2.1)
theorem reg10_row2 (t : Fin cfg10.N) (G : Cert.Spec.Mat 1 256) : ((cfg10.win 2).blk t).view.read (Elt Ideal) G = G :=
  funext (ld_whole G _ (reg10_idx t).2.2.1)
theorem reg10_row3 (t : Fin cfg10.N) (G : Cert.Spec.Mat 1 256) : ((cfg10.win 3).blk t).view.read (Elt Ideal) G = G :=
  funext (ld_whole G _ (reg10_idx t).2.2.2.1)
theorem reg10_row4 (t : Fin cfg10.N) (G : Cert.Spec.Mat 1 256) : ((cfg10.win 4).blk t).view.read (Elt Ideal) G = G :=
  funext (ld_whole G _ (reg10_idx t).2.2.2.2.1)

/-- Normalisation acts row by row, so tile t of the normalised array is the normalised tile t. -/
theorem reg10_flushed (c : Dev nD) (t : Fin cfg10.N) :
    (dat10 (F := Ideal) V c).flushed 5 t = ((cfg10.win 5).blk t).view.read (Elt Ideal) (Cert.Spec.bn (reg10_a V c 0) (reg10_a V c 1) (reg10_a V c 2) (reg10_a V c 3) (reg10_a V c 4)) := by
  have ht : t.val * 2000 + 2000 ≤ 50000 := by have := t.isLt; have hN : cfg10.N = 25 := N_10; omega
  show (cfg10.win 5).cut (grid10.coords t) ((dat10 V c).after 5 t) = _
  rw [after10_5]
  unfold out10_5
  rw [View.canon_unit_zero vec00]
  simp only [View.ld_unit_zero (S := S2000x256) vec00, View.ld_unit_zero (S := S1x256) vec00]
  exact ((reg10_pay _ _ _ _ _).trans (congr (congr (congr (congr (congrArg Cert.Spec.bn (reg10_tile0 t ht _)) (reg10_row1 t _))
    (reg10_row2 t _)) (reg10_row3 t _)) (reg10_row4 t _))).trans (reg10_tile5 t ht (Cert.Spec.bn (reg10_a V c 0) (reg10_a V c 1) (reg10_a V c 2) (reg10_a V c 3) (reg10_a V c 4))).symm

/-- The 25 tiles of 2000 rows cover the 50000 rows. -/
theorem reg10_cover (i : S50000x256.Idx) :
    ∃ t : Fin cfg10.N, (cfg10.win 5).flush t = true ∧ i ∈ ((cfg10.win 5).blk t).view.set :=
  have ht : (i 0).val / 2000 < cfg10.N := by have := idx2_lt0 i; have hN : cfg10.N = 25 := N_10; omega
  ⟨⟨_, ht⟩, flush10_5 _, (congrArg (i ∈ ·) (View.set_slice_whole _ _)).mpr (mem_tile i _ (by decide) (reg10_idx ⟨_, ht⟩).2.2.2.2.2)⟩

theorem reg10_out (c : Dev nD) :
    (dat10 (F := Ideal) V c).arrAt 5 cfg10.N
      = Cert.Spec.bn (V c (Pipeline.arrRef spec10 0)) (V c (Pipeline.arrRef spec10 1)) (V c (Pipeline.arrRef spec10 2))
          (V c (Pipeline.arrRef spec10 3)) (V c (Pipeline.arrRef spec10 4)) :=
  (dat10 (F := Ideal) V c).arrAt_eq_of_cover 5 _ (fun t _ => reg10_flushed V c t) reg10_cover

end Cert.KernelIdeal.Val

end
-- ==== Proof.KFoldL2.lean ====
import proofs.«430164_j87205015978673_1_alg».proof.Proof.KFoldL0
import proofs.«430164_j87205015978673_1_alg».proof.Proof.RegMsg8
import proofs.«430164_j87205015978673_1_alg».proof.Proof.RegMlp9
import proofs.«430164_j87205015978673_1_alg».proof.Proof.RegBn10
set_option maxRecDepth 16384
noncomputable section
namespace Cert.KernelIdeal.Val
open Cert.KernelIdeal Cert.KernelIdeal.Gen Idealize.ShloMosaic Idealize.ShloMosaic.TcCoe Idealize.SL.Sem Idealize.ShloMosaic.ValueIdx
open Cert.Spec Cert.LibRows
open L0 (take_eq wrapCol_apply slab_eq slabRow_eq mean_eq var_eq)

namespace L2

variable (W : Valuation τ sig (Elt Ideal))

theorem take_W :
    StableHlo.after (hostOps8 (F := Ideal)) W (Proc.devRef .tc main_v66)
      = takeFill nodes_pos (W (Proc.devRef .tc main_v65) : Mat 50000 256) (idxCol (W (Proc.devRef .tc main_v1) : IVct 300000)) := by
  after_results_simp
  simp only [StableHlo.TRef.ofBuf, StableHlo.TRef.toBuf, cast_eq]
  exact take_eq _ _ _ _ _ _ _ _ _ _ _ _ _ rfl

theorem agg_W :
    StableHlo.after (hostOps9 (F := Ideal)) W (Proc.devRef .tc main_v70)
      = segsum (idxCol (W (Proc.devRef .tc main_v3) : IVct 300000)) (W (Proc.devRef .tc main_v67) : Mat 300000 256) := by
  after_results
  exact Cert.LibLin.scatter_zero_eq_segsum _ _ rfl _ _ _ _

theorem w1_W :
    StableHlo.after (hostOps9 (F := Ideal)) W (Proc.devRef .tc main_v72)
      = slab 2 (W (Proc.devRef .tc main_arg8) : Ten 4 256 256) := by
  after_results
  exact slab_eq 2 _ rfl rfl rfl _ _ _

theorem b1_W :
    StableHlo.after (hostOps9 (F := Ideal)) W (Proc.devRef .tc main_v79)
      = slabRow 2 (W (Proc.devRef .tc main_arg9) : Mat 4 256) := by
  after_results
  exact slabRow_eq 2 _ rfl rfl _ _ _ _

theorem w2_W :
    StableHlo.after (hostOps9 (F := Ideal)) W (Proc.devRef .tc main_v76)
      = slab 2 (W (Proc.devRef .tc main_arg10) : Ten 4 256 256) := by
  after_results
  exact slab_eq 2 _ rfl rfl rfl _ _ _

theorem b2_W :
    StableHlo.after (hostOps9 (F := Ideal)) W (Proc.devRef .tc main_v80)
      = slabRow 2 (W (Proc.devRef .tc main_arg11) : Mat 4 256) := by
  after_results
  exact slabRow_eq 2 _ rfl rfl _ _ _ _

theorem mean_W (z : Mat 50000 256) (hs : (W (Proc.devRef .tc main_v81_1) : Mat 1 256) = colSum z) :
    StableHlo.after (hostOps10 (F := Ideal)) W (Proc.devRef .tc main_v83) = mean z := by
  after_results
  exact mean_eq z _ hs _

theorem var_W (z : Mat 50000 256) (hs : (W (Proc.devRef .tc main_v81_1) : Mat 1 256) = colSum z)
    (hq : (W (Proc.devRef .tc main_v81_2) : Mat 1 256) = colSum (fun j => z j * z j)) :
    StableHlo.after (hostOps10 (F := Ideal)) W (Proc.devRef .tc main_v87) = varK z := by
  after_results
  exact var_eq z _ _ hs hq _

theorem gamma_W :
    StableHlo.after (hostOps10 (F := Ideal)) W (Proc.devRef .tc main_v92)
      = slabRow 2 (W (Proc.devRef .tc main_arg12) : Mat 4 256) := by
  after_results
  exact slabRow_eq 2 _ rfl rfl _ _ _ _

theorem beta_W :
    StableHlo.after (hostOps10 (F := Ideal)) W (Proc.devRef .tc main_v93)
      = slabRow 2 (W (Proc.devRef .tc main_arg13) : Mat 4 256) := by
  after_results
  exact slabRow_eq 2 _ rfl rfl _ _ _ _

end L2

set_option maxHeartbeats 4000000 in
/-- LAYER 2: from the node features `h` and held contents at its entry, the model's layer of `h` and held contents at its exit. -/
theorem L2_h (m : (ℓ : Loc nD τ sig) → Buf (Elt Ideal) ℓ) (ρ : Dev nD → PrngReg) (c : Dev nD) (I : Inputs) (h : Mat 50000 256)
    (hh : W16 (F := Ideal) m ρ c (Proc.devRef .tc main_v65) = h) (H : Held I (W16 m ρ c)) :
    W22 (F := Ideal) m ρ c (Proc.devRef .tc main_v94) = stepK I 2 h ∧ Held I (W22 m ρ c) := by
  have H5 : Held I (W17 m ρ c) := H.after wr8_sub (by decide)
  have H6 : Held I (W18 m ρ c) := H5.keep fun b hb => by
    rcases (by decide : ∀ b ∈ kept, b = main_v7 ∨ ∀ w, Pipeline.arrRef spec8 w ≠ b) b hb with rfl | hn
    · exact (W18_arr m ρ c 1).trans (((dat8 (V17 m ρ) c).arrAt_in 1 rfl _).trans (A_eq8 (V17 m ρ) c 1))
    · exact W18_of_ne m ρ c b hn
  have H7 : Held I (W19 m ρ c) := H6.after wr9_sub (by decide)
  have H8 : Held I (W20 m ρ c) := H7.keep fun b hb =>
    W20_of_ne m ρ c b ((by decide : ∀ b ∈ kept, ∀ w, Pipeline.arrRef spec9 w ≠ b) b hb)
  have H9 : Held I (W21 m ρ c) := H8.after wr10_sub (by decide)
  refine ⟨?_, H9.keep fun b hb => W22_of_ne m ρ c b ((by decide : ∀ b ∈ kept, ∀ w, Pipeline.arrRef spec10 w ≠ b) b hb)⟩
  have g0 : V17 (F := Ideal) m ρ c (Pipeline.arrRef spec8 0) = takeFill nodes_pos h (idxCol (src1 I)) :=
    (L2.take_W (W16 m ρ c)).trans (by rw [hh, H.v1])
  have g1 : V17 (F := Ideal) m ρ c (Pipeline.arrRef spec8 1) = ea I := H5.v7
  have e6 : W18 (F := Ideal) m ρ c (Proc.devRef .tc main_v67) = msgf (takeFill nodes_pos h (idxCol (src1 I))) (ea I) :=
    (W18_arr m ρ c 2).trans <| (reg8_out (V17 m ρ) c).trans (by rw [g0, g1])
  have x0 : V19 (F := Ideal) m ρ c (Pipeline.arrRef spec9 0) = h :=
    (StableHlo.after_of_writes_sub hostOps9 _ wr9_sub (by decide : main_v65 ∉ wr9)).trans <| (W18_of_ne m ρ c main_v65 (by decide)).trans <|
      (StableHlo.after_of_writes_sub hostOps8 _ wr8_sub (by decide : main_v65 ∉ wr8)).trans hh
  have x1 : V19 (F := Ideal) m ρ c (Pipeline.arrRef spec9 1)
      = segsum (idxCol (dst1 I)) (msgf (takeFill nodes_pos h (idxCol (src1 I))) (ea I)) :=
    (L2.agg_W (W18 m ρ c)).trans (by rw [H6.v3, e6])
  have x2 : V19 (F := Ideal) m ρ c (Pipeline.arrRef spec9 2) = slab 2 I.w1 := (L2.w1_W (W18 m ρ c)).trans (by rw [H6.a8])
  have x3 : V19 (F := Ideal) m ρ c (Pipeline.arrRef spec9 3) = slabRow 2 I.b1 := (L2.b1_W (W18 m ρ c)).trans (by rw [H6.a9])
  have x4 : V19 (F := Ideal) m ρ c (Pipeline.arrRef spec9 4) = slab 2 I.w2 := (L2.w2_W (W18 m ρ c)).trans (by rw [H6.a10])
  have x5 : V19 (F := Ideal) m ρ c (Pipeline.arrRef spec9 5) = slabRow 2 I.b2 := (L2.b2_W (W18 m ρ c)).trans (by rw [H6.a11])
  obtain ⟨z, hz⟩ : ∃ z : Mat 50000 256, z = mlp (V19 (F := Ideal) m ρ c (Pipeline.arrRef spec9 0)) (V19 m ρ c (Pipeline.arrRef spec9 1))
      (V19 m ρ c (Pipeline.arrRef spec9 2)) (V19 m ρ c (Pipeline.arrRef spec9 3)) (V19 m ρ c (Pipeline.arrRef spec9 4))
      (V19 m ρ c (Pipeline.arrRef spec9 5)) := ⟨_, rfl⟩
  have e8z : W20 (F := Ideal) m ρ c (Proc.devRef .tc main_v81_0) = z := (W20_arr m ρ c 6).trans ((reg9_z (V19 m ρ) c).trans hz.symm)
  have e8s : W20 (F := Ideal) m ρ c (Proc.devRef .tc main_v81_1) = colSum z := (W20_arr m ρ c 7).trans ((reg9_sum (V19 m ρ) c).trans (by rw [hz]))
  have e8q : W20 (F := Ideal) m ρ c (Proc.devRef .tc main_v81_2) = colSum (fun j => z j * z j) :=
    (W20_arr m ρ c 8).trans ((reg9_sumsq (V19 m ρ) c).trans (by rw [hz]))
  rw [x0, x1, x2, x3, x4, x5] at hz
  have y0 : V21 (F := Ideal) m ρ c (Pipeline.arrRef spec10 0) = z := (StableHlo.after_of_writes_sub hostOps10 _ wr10_sub (by decide : main_v81_0 ∉ wr10)).trans e8z
  have y1 : V21 (F := Ideal) m ρ c (Pipeline.arrRef spec10 1) = mean z := L2.mean_W (W20 m ρ c) z e8s
  have y2 : V21 (F := Ideal) m ρ c (Pipeline.arrRef spec10 2) = varK z := L2.var_W (W20 m ρ c) z e8s e8q
  have y3 : V21 (F := Ideal) m ρ c (Pipeline.arrRef spec10 3) = slabRow 2 I.gamma := (L2.gamma_W (W20 m ρ c)).trans (by rw [H8.a12])
  have y4 : V21 (F := Ideal) m ρ c (Pipeline.arrRef spec10 4) = slabRow 2 I.beta := (L2.beta_W (W20 m ρ c)).trans (by rw [H8.a13])
  refine (W22_arr m ρ c 5).trans <| (reg10_out (V21 m ρ) c).trans ?_
  rw [y0, y1, y2, y3, y4, hz]
  rfl

end Cert.KernelIdeal.Val
end
-- ==== Proof.RegMsg11.lean ====
import proofs.«430164_j87205015978673_1_alg».proof.Proof.Gen.KernelIdeal.Frame
import proofs.«430164_j87205015978673_1_alg».proof.Proof.Spec
import proofs.«430164_j87205015978673_1_alg».proof.Proof.LibTile
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The tile's arithmetic is the message map, max (a + b) 0 entry by entry. -/
theorem reg11_pay (x0 x1 : Vec Ideal S4000x256 .f32) : k11_pay1 x0 x1 = Cert.Spec.msgf x0 x1 := by
  funext j
  unfold k11_pay1
  simp only [shapeCast_self]
  rw [maximumf_apply, addf_apply, broadcast_apply]
  show max (x0 j + x1 j) (Ideal.ofBits .f32 0x00000000#32) = _
  rw [Ideal.ofBits_zero_f32]
  rfl

/-- At point t every window's block index is (t, 0). -/
theorem reg11_idx : ∀ t : Fin cfg11.N,
    win11_0.index t = ![t.val, 0] ∧ win11_1.index t = ![t.val, 0] ∧ win11_2.index t = ![t.val, 0] :=
  (by decide +kernel : ∀ t : Fin grid11.N, _)

/-- The message map acts entry by entry, so tile t of the message array is the message map of the two tiles t. -/
theorem reg11_flushed (c : Dev nD) (t : Fin cfg11.N) :
    (dat11 (F := Ideal) V c).flushed 2 t = ((cfg11.win 2).blk t).view.read (Elt Ideal)
      (Cert.Spec.msgf (V c (Pipeline.arrRef spec11 0)) (V c (Pipeline.arrRef spec11 1))) := by
  obtain ⟨e0, e1, e2⟩ := reg11_idx t
  have ht : t.val * 4000 + 4000 ≤ 300000 := by have := t.isLt; have hN : cfg11.N = 75 := N_11; omega
  show (cfg11.win 2).cut (grid11.coords t) ((dat11 V c).after 2 t) = _
  rw [after11_2]
  unfold out11_2
  rw [View.canon_unit_zero vec00]
  simp only [View.ld_unit_zero (S := S4000x256) vec00]
  rw [reg11_pay]
  funext j
  exact (congrArg₂ (fun a b => Cert.Spec.relu (a + b)) (ld_tile (V c (Pipeline.arrRef spec11 0)) _ t.val ht e0 j)
    (ld_tile (V c (Pipeline.arrRef spec11 1)) _ t.val ht e1 j)).trans
    (ld_tile (Cert.Spec.msgf (V c (Pipeline.arrRef spec11 0)) (V c (Pipeline.arrRef spec11 1))) _ t.val ht e2 j).symm

/-- The 75 tiles of 4000 rows cover the 300000 rows. -/
theorem reg11_cover (i : S300000x256.Idx) :
    ∃ t : Fin cfg11.N, (cfg11.win 2).flush t = true ∧ i ∈ ((cfg11.win 2).blk t).view.set :=
  have ht : (i 0).val / 4000 < cfg11.N := by have := idx2_lt0 i; have hN : cfg11.N = 75 := N_11; omega
  ⟨⟨_, ht⟩, flush11_2 _, (congrArg (i ∈ ·) (View.set_slice_whole _ _)).mpr (mem_tile i _ (by decide) (reg11_idx ⟨_, ht⟩).2.2)⟩

theorem reg11_out (c : Dev nD) :
    (dat11 (F := Ideal) V c).arrAt 2 cfg11.N
      = Cert.Spec.msgf (V c (Pipeline.arrRef spec11 0)) (V c (Pipeline.arrRef spec11 1)) :=
  (dat11 (F := Ideal) V c).arrAt_eq_of_cover 2 _ (fun t _ => reg11_flushed V c t) reg11_cover

end Cert.KernelIdeal.Val

end
-- ==== Proof.RegMlp12.lean ====
import proofs.«430164_j87205015978673_1_alg».proof.Proof.Gen.KernelIdeal.Frame
import proofs.«430164_j87205015978673_1_alg».proof.Proof.Spec
import proofs.«430164_j87205015978673_1_alg».proof.Proof.RegMlp3Pay
import proofs.«430164_j87205015978673_1_alg».proof.Proof.LibTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

section Pieces

variable {F : FTy → Type} [FloatOps F] (c : Dev nD) (i : grid12.Coords)
  (a1 : Memref sig .tc .vmem S2000x256 .f32) (h1 : a1.IsWhole) (a2 : Memref sig .tc .vmem S2000x256 .f32) (h2 : a2.IsWhole)
  (a3 : Memref sig .tc .vmem S256x256 .f32) (h3 : a3.IsWhole) (a4 : Memref sig .tc .vmem S1x256 .f32) (h4 : a4.IsWhole)
  (a5 : Memref sig .tc .vmem S256x256 .f32) (h5 : a5.IsWhole) (a6 : Memref sig .tc .vmem S1x256 .f32) (h6 : a6.IsWhole)
  (a7 : Memref sig .tc .vmem S2000x256 .f32) (h7 : a7.IsWhole) (a8 : Memref sig .tc .vmem S1x256 .f32) (h8 : a8.IsWhole)
  (a9 : Memref sig .tc .vmem S1x256 .f32) (h9 : a9.IsWhole)
  (x0 x1 : Vec F S2000x256 .f32) (x2 : Vec F S256x256 .f32) (x3 : Vec F S1x256 .f32) (x4 : Vec F S256x256 .f32) (x5 : Vec F S1x256 .f32)

theorem reg12_out_A (hc : cond12_0 i) :
    (out12_A_6 c i a1 h1 a2 h2 a3 h3 a4 h4 a5 h5 a6 h6 a7 h7 a8 h8 a9 h9 hc x0 x1 x2 x3 x4 x5, out12_A_7 c i a1 h1 a2 h2 a3 h3 a4 h4 a5 h5 a6 h6 a7 h7 a8 h8 a9 h9 hc x0 x1 x2 x3 x4 x5, out12_A_8 c i a1 h1 a2 h2 a3 h3 a4 h4 a5 h5 a6 h6 a7 h7 a8 h8 a9 h9 hc x0 x1 x2 x3 x4 x5)
      = (k12_pay4 x0 x1 x2 x3 x4 x5, k12_pay5 x0 x1 x2 x3 x4 x5 k12_pay2, k12_pay1 (k12_pay4 x0 x1 x2 x3 x4 x5) k12_pay3) := by
  unfold out12_A_6 out12_A_7 out12_A_8
  simp only [View.read_writes_junk_eq_canon]
  unfold kernelRun12_A
  dsimp only
  sl_unfold_words
  simp only [View.canon_cons_unit_zero (S := S2000x256) reg3_hz, View.canon_cons_unit_zero (S := S1x256) reg3_hz,
    View.readCov_unit_zero (S := S1x256) _ reg3_hz, View.readAt_eq_ld, h1.read_unread, h2.read_unread, h3.read_unread, h4.read_unread,
    h5.read_unread, h6.read_unread, View.ld_unit_zero (S := S2000x256) reg3_hz, View.ld_unit_zero (S := S256x256) reg3_hz,
    View.ld_unit_zero (S := S1x256) reg3_hz]

theorem reg12_out_B (hc : ¬cond12_0 i) (xo7 xo8 : Vec F S1x256 .f32) :
    (out12_B_6 c i a1 h1 a2 h2 a3 h3 a4 h4 a5 h5 a6 h6 a7 h7 a8 h8 a9 h9 hc x0 x1 x2 x3 x4 x5 xo7 xo8, out12_B_7 c i a1 h1 a2 h2 a3 h3 a4 h4 a5 h5 a6 h6 a7 h7 a8 h8 a9 h9 hc x0 x1 x2 x3 x4 x5 xo7 xo8, out12_B_8 c i a1 h1 a2 h2 a3 h3 a4 h4 a5 h5 a6 h6 a7 h7 a8 h8 a9 h9 hc x0 x1 x2 x3 x4 x5 xo7 xo8)
      = (k12_pay4 x0 x1 x2 x3 x4 x5, k12_pay5 x0 x1 x2 x3 x4 x5 xo7, k12_pay1 (k12_pay4 x0 x1 x2 x3 x4 x5) xo8) := by
  unfold out12_B_6 out12_B_7 out12_B_8
  simp only [View.read_writes_junk_eq_canon]
  unfold kernelRun12_B
  dsimp only
  sl_unfold_words
  simp only [View.canon_cons_unit_zero (S := S2000x256) reg3_hz, View.canon_cons_unit_zero (S := S1x256) reg3_hz,
    View.readAt_eq_ld, h1.read_unread, h2.read_unread, h3.read_unread, h4.read_unread, h5.read_unread, h6.read_unread,
    h8.read_unread, h9.read_unread, View.ld_unit_zero (S := S2000x256) reg3_hz, View.ld_unit_zero (S := S256x256) reg3_hz,
    View.ld_unit_zero (S := S1x256) reg3_hz]

end Pieces

/-- The tile of z at point t: the perceptron on the six blocks of the point. -/
abbrev reg12_zt (c : Dev nD) (t : Fin cfg12.N) : FVec Ideal S2000x256 .f32 :=
  k3_pay4 (iblk12 V c 0 t) (iblk12 V c 1 t) (iblk12 V c 2 t) (iblk12 V c 3 t) (iblk12 V c 4 t) (iblk12 V c 5 t)

/-- z on all 50000 rows, of the arrays as the region finds them. -/
abbrev reg12_Z (c : Dev nD) : Cert.Spec.Mat 50000 256 :=
  Cert.Spec.mlp (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))

/-- After a first point: the tile of z, and the column sums of the tile and of its squares added to zero rows; -/
theorem reg12_outs_A (c : Dev nD) (t : Fin cfg12.N) (h0 : t.val % 25 = 0) :
    outsAt12 V c t.val t.isLt = (reg12_zt V c t, k3_pay5 (iblk12 V c 0 t) (iblk12 V c 1 t) (iblk12 V c 2 t) (iblk12 V c 3 t) (iblk12 V c 4 t) (iblk12 V c 5 t) (k3_pay2 (F := Ideal)), k3_pay1 (reg12_zt V c t) (k3_pay3 (F := Ideal))) :=
  (outsAt12_A V c t h0).trans (reg12_out_A ..)

/-- after any other point, added to the rows the point before left. -/
theorem reg12_outs_B (c : Dev nD) (t : Fin cfg12.N) (h0 : ¬t.val % 25 = 0) :
    outsAt12 V c t.val t.isLt = (reg12_zt V c t, k3_pay5 (iblk12 V c 0 t) (iblk12 V c 1 t) (iblk12 V c 2 t) (iblk12 V c 3 t) (iblk12 V c 4 t) (iblk12 V c 5 t) (outsAt12 V c (t.val - 1) (Nat.lt_of_le_of_lt (Nat.sub_le _ _) t.isLt)).2.1, k3_pay1 (reg12_zt V c t) (outsAt12 V c (t.val - 1) (Nat.lt_of_le_of_lt (Nat.sub_le _ _) t.isLt)).2.2) :=
  (outsAt12_B V c t h0).trans (reg12_out_B ..)

/-- The index maps over the grid: the tiles of h, agg and z are at block row t, everything else at block (0, 0). -/
theorem reg12_idx : ∀ t : Fin cfg12.N, win12_0.index t = ![t.val, 0] ∧ win12_1.index t = ![t.val, 0] ∧ win12_2.index t = ![0, 0]
    ∧ win12_3.index t = ![0, 0] ∧ win12_4.index t = ![0, 0] ∧ win12_5.index t = ![0, 0] ∧ win12_6.index t = ![t.val, 0]
    ∧ win12_7.index t = ![0, 0] ∧ win12_8.index t = ![0, 0] :=
  (by decide +kernel : ∀ t : Fin grid12.N, _)

theorem reg12_in (t : Fin cfg12.N) : t.val * 2000 + 2000 ≤ 50000 := by
  have hN : cfg12.N = 25 := N_12
  have := t.isLt
  omega

/-- Read through the point's input blocks, a matrix gives its tile t (h and agg) or itself (the weights and biases). -/
theorem reg12_rd0 (t : Fin cfg12.N) (G : Cert.Spec.Mat 50000 256) :
    ((cfg12.win 0).blk t).view.read (Elt Ideal) G = Cert.LibTile.tile t.val (reg12_in t) G :=
  funext (Cert.LibTile.ld_tile G _ t.val (reg12_in t) (reg12_idx t).1)

theorem reg12_rd1 (t : Fin cfg12.N) (G : Cert.Spec.Mat 50000 256) :
    ((cfg12.win 1).blk t).view.read (Elt Ideal) G = Cert.LibTile.tile t.val (reg12_in t) G :=
  funext (Cert.LibTile.ld_tile G _ t.val (reg12_in t) (reg12_idx t).2.1)

theorem reg12_rd2 (t : Fin cfg12.N) (G : Cert.Spec.Mat 256 256) : ((cfg12.win 2).blk t).view.read (Elt Ideal) G = G :=
  funext (Cert.LibTile.ld_whole G _ (reg12_idx t).2.2.1)

theorem reg12_rd3 (t : Fin cfg12.N) (G : Cert.Spec.Mat 1 256) : ((cfg12.win 3).blk t).view.read (Elt Ideal) G = G :=
  funext (Cert.LibTile.ld_whole G _ (reg12_idx t).2.2.2.1)

theorem reg12_rd4 (t : Fin cfg12.N) (G : Cert.Spec.Mat 256 256) : ((cfg12.win 4).blk t).view.read (Elt Ideal) G = G :=
  funext (Cert.LibTile.ld_whole G _ (reg12_idx t).2.2.2.2.1)

theorem reg12_rd5 (t : Fin cfg12.N) (G : Cert.Spec.Mat 1 256) : ((cfg12.win 5).blk t).view.read (Elt Ideal) G = G :=
  funext (Cert.LibTile.ld_whole G _ (reg12_idx t).2.2.2.2.2.1)

/-- The tile of z at point t is tile t of z: the blocks of h and agg are their tiles t, the weights and biases are whole, and the perceptron acts row by row. -/
theorem reg12_zt_eq (c : Dev nD) (t : Fin cfg12.N) : reg12_zt V c t = Cert.LibTile.tile t.val (reg12_in t) (reg12_Z V c) := by
  have h0 : iblk12 V c 0 t = _ := reg12_rd0 t _
  have h1 : iblk12 V c 1 t = _ := reg12_rd1 t _
  have h2 : iblk12 V c 2 t = _ := reg12_rd2 t _
  have h3 : iblk12 V c 3 t = _ := reg12_rd3 t _
  have h4 : iblk12 V c 4 t = _ := reg12_rd4 t _
  have h5 : iblk12 V c 5 t = _ := reg12_rd5 t _
  rw [reg12_zt, h0, h1, h2, h3, h4, h5, reg3_pay4_eq]
  rfl

theorem reg12_outs6 (c : Dev nD) (t : Fin cfg12.N) : (outsAt12 V c t.val t.isLt).1 = reg12_zt V c t := by
  by_cases h0 : t.val % 25 = 0
  · rw [reg12_outs_A V c t h0]
  · rw [reg12_outs_B V c t h0]

/-- An entry of the tile of z at point t is the matching row of z. -/
theorem reg12_zt_row (c : Dev nD) (t : Fin cfg12.N) (p : Fin 2000) (q : Fin 256) :
    reg12_zt V c t (ix2 p q) = reg3_rowOr0 (reg12_Z V c) (t.val * 2000 + p.val) q :=
  (congrFun (reg12_zt_eq V c t) (ix2 p q)).trans (reg3_rowOr0_of_lt (reg12_Z V c) _ q _ rfl).symm

/-- After point n the row of sums holds the column sums of z over the rows of tiles 0 … n. -/
theorem reg12_outs7 (c : Dev nD) : ∀ (n : ℕ) (h : n < cfg12.N) (u : Fin 1) (q : Fin 256),
    (outsAt12 V c n h).2.1 (ix2 u q)
      = ∑ s ∈ Finset.range (n + 1), ∑ p : Fin 2000, reg3_rowOr0 (reg12_Z V c) (s * 2000 + p.val) q
  | 0, h, u, q => by
    refine (congrFun (congrArg (·.2.1) (reg12_outs_A V c ⟨0, h⟩ rfl)) (ix2 u q)).trans ((reg3_pay5_apply _ _ _ _ _ _ _ u q).trans ?_)
    rw [reg3_pay2_apply, zero_add, Finset.sum_range_one]
    exact Finset.sum_congr rfl fun p _ => reg12_zt_row V c ⟨0, h⟩ p q
  | n + 1, h, u, q => by
    have hN : cfg12.N = 25 := N_12
    refine (congrFun (congrArg (·.2.1) (reg12_outs_B V c ⟨n + 1, h⟩ (by dsimp only; omega))) (ix2 u q)).trans
      ((reg3_pay5_apply _ _ _ _ _ _ _ u q).trans ?_)
    rw [Finset.sum_range_succ _ (n + 1)]
    exact congrArg₂ (· + ·) (reg12_outs7 c n (Nat.lt_of_succ_lt h) u q)
      (Finset.sum_congr rfl fun p _ => reg12_zt_row V c ⟨n + 1, h⟩ p q)

/-- After point n the row of sums of squares holds the column sums of z² over the rows of tiles 0 … n. -/
theorem reg12_outs8 (c : Dev nD) : ∀ (n : ℕ) (h : n < cfg12.N) (u : Fin 1) (q : Fin 256),
    (outsAt12 V c n h).2.2 (ix2 u q) = ∑ s ∈ Finset.range (n + 1), ∑ p : Fin 2000,
      reg3_rowOr0 (reg12_Z V c) (s * 2000 + p.val) q * reg3_rowOr0 (reg12_Z V c) (s * 2000 + p.val) q
  | 0, h, u, q => by
    refine (congrFun (congrArg (·.2.2) (reg12_outs_A V c ⟨0, h⟩ rfl)) (ix2 u q)).trans ((reg3_pay1_apply _ _ u q).trans ?_)
    rw [reg3_pay3_apply, zero_add, Finset.sum_range_one]
    exact Finset.sum_congr rfl fun p _ => congrArg₂ (· * ·) (reg12_zt_row V c ⟨0, h⟩ p q) (reg12_zt_row V c ⟨0, h⟩ p q)
  | n + 1, h, u, q => by
    have hN : cfg12.N = 25 := N_12
    refine (congrFun (congrArg (·.2.2) (reg12_outs_B V c ⟨n + 1, h⟩ (by dsimp only; omega))) (ix2 u q)).trans
      ((reg3_pay1_apply _ _ u q).trans ?_)
    rw [Finset.sum_range_succ _ (n + 1)]
    exact congrArg₂ (· + ·) (reg12_outs8 c n (Nat.lt_of_succ_lt h) u q) (Finset.sum_congr rfl fun p _ =>
      congrArg₂ (· * ·) (reg12_zt_row V c ⟨n + 1, h⟩ p q) (reg12_zt_row V c ⟨n + 1, h⟩ p q))

/-- After the last point a carried row holds the column sums over all 50000 rows. -/
theorem reg12_last7 (c : Dev nD) (t : Fin cfg12.N) (h24 : t.val = 24) :
    ((outsAt12 V c t.val t.isLt).2.1 : Vec Ideal S1x256 .f32) = Cert.Spec.colSum (reg12_Z V c) := by
  funext y
  obtain ⟨u, q, rfl⟩ : ∃ (u : Fin 1) (q : Fin 256), y = ix2 u q := ⟨y 0, y 1, eq_ix2 y⟩
  rw [reg12_outs7 V c t.val t.isLt u q, h24]
  exact reg3_colSum_of_tiles _ id u q

theorem reg12_last8 (c : Dev nD) (t : Fin cfg12.N) (h24 : t.val = 24) :
    ((outsAt12 V c t.val t.isLt).2.2 : Vec Ideal S1x256 .f32) = Cert.Spec.colSum (fun j => reg12_Z V c j * reg12_Z V c j) := by
  funext y
  obtain ⟨u, q, rfl⟩ : ∃ (u : Fin 1) (q : Fin 256), y = ix2 u q := ⟨y 0, y 1, eq_ix2 y⟩
  rw [reg12_outs8 V c t.val t.isLt u q, h24]
  exact reg3_colSum_of_tiles _ (fun x => x * x) u q

/-- The first result after the region is z: row r lies in tile r / 2000, and tile t of the result is tile t of z. -/
theorem reg12_z (c : Dev nD) : (dat12 (F := Ideal) V c).arrAt 6 cfg12.N
    = Cert.Spec.mlp (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) := by
  have hN : cfg12.N = 25 := N_12
  refine (dat12 V c).arrAt_eq_of_cover 6 (reg12_Z V c) (fun t _ => ?_) fun (i : S50000x256.Idx) => by
    have hi : (i 0).val < 50000 := (i 0).isLt
    have ht : (i 0).val / 2000 < cfg12.N := by omega
    refine ⟨⟨_, ht⟩, flush12_6 _, ?_⟩
    show i ∈ ((View.whole (Pipeline.arrRef spec12 6)).slice (win12_6.rect ⟨_, ht⟩)).set
    rw [View.set_slice_whole]
    exact Cert.LibTile.mem_tile (T := 2000) i _ (by decide) (reg12_idx _).2.2.2.2.2.2.1
  show (cfg12.win 6).cut (grid12.coords t) ((dat12 V c).after 6 t) = _
  rw [after12_6, reg12_outs6, reg12_zt_eq]
  exact funext fun j => (Cert.LibTile.ld_tile (reg12_Z V c) _ t.val (reg12_in t) (reg12_idx t).2.2.2.2.2.2.1 j).symm

/-- A row read through the one block of the second or third result is the row. -/
theorem reg12_whole7 (t : Fin cfg12.N) (G : Vec Ideal S1x256 .f32) :
    (cfg12.win 7).cut (grid12.coords t) G = ((cfg12.win 7).blk t).view.read (Elt Ideal) G :=
  funext fun j => (Cert.LibTile.ld_whole G _ (reg12_idx t).2.2.2.2.2.2.2.1 j).symm

theorem reg12_whole8 (t : Fin cfg12.N) (G : Vec Ideal S1x256 .f32) :
    (cfg12.win 8).cut (grid12.coords t) G = ((cfg12.win 8).blk t).view.read (Elt Ideal) G :=
  funext fun j => (Cert.LibTile.ld_whole G _ (reg12_idx t).2.2.2.2.2.2.2.2 j).symm

/-- The second result after the region: the column sums of z. -/
theorem reg12_sum (c : Dev nD) : (dat12 (F := Ideal) V c).arrAt 7 cfg12.N
    = Cert.Spec.colSum (Cert.Spec.mlp (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))) := by
  have hN : cfg12.N = 25 := N_12
  refine (dat12 V c).arrAt_eq_of_cover 7 (Cert.Spec.colSum (reg12_Z V c)) (fun t hf => ?_) fun (i : S1x256.Idx) => by
    have ht : 24 < cfg12.N := by omega
    refine ⟨⟨24, ht⟩, (flush12_7 _).mpr rfl, ?_⟩
    show i ∈ ((View.whole (Pipeline.arrRef spec12 7)).slice (win12_7.rect ⟨24, ht⟩)).set
    rw [View.set_slice_whole]
    exact Cert.LibTile.mem_whole i _ (reg12_idx _).2.2.2.2.2.2.2.1
  have h24 : t.val = 24 := by have := (flush12_7 t).mp hf; have := t.isLt; omega
  show (cfg12.win 7).cut (grid12.coords t) ((dat12 V c).after 7 t) = _
  rw [after12_7, reg12_last7 V c t h24]
  exact reg12_whole7 t _

/-- The third result after the region: the column sums of z². -/
theorem reg12_sumsq (c : Dev nD) : (dat12 (F := Ideal) V c).arrAt 8 cfg12.N
    = Cert.Spec.colSum (fun j => Cert.Spec.mlp (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) j
        * Cert.Spec.mlp (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) j) := by
  have hN : cfg12.N = 25 := N_12
  refine (dat12 V c).arrAt_eq_of_cover 8 (Cert.Spec.colSum fun j => reg12_Z V c j * reg12_Z V c j) (fun t hf => ?_) fun (i : S1x256.Idx) => by
    have ht : 24 < cfg12.N := by omega
    refine ⟨⟨24, ht⟩, (flush12_8 _).mpr rfl, ?_⟩
    show i ∈ ((View.whole (Pipeline.arrRef spec12 8)).slice (win12_8.rect ⟨24, ht⟩)).set
    rw [View.set_slice_whole]
    exact Cert.LibTile.mem_whole i _ (reg12_idx _).2.2.2.2.2.2.2.2
  have h24 : t.val = 24 := by have := (flush12_8 t).mp hf; have := t.isLt; omega
  show (cfg12.win 8).cut (grid12.coords t) ((dat12 V c).after 8 t) = _
  rw [after12_8, reg12_last8 V c t h24]
  exact reg12_whole8 t _

end Cert.KernelIdeal.Val

end
-- ==== Proof.RegBn13.lean ====
import proofs.«430164_j87205015978673_1_alg».proof.Proof.Gen.KernelIdeal.Frame
import proofs.«430164_j87205015978673_1_alg».proof.Proof.Spec
import proofs.«430164_j87205015978673_1_alg».proof.Proof.LibTile
import Idealize.ShloMosaic.Lib.ValueLayout
noncomputable section
namespace Cert.KernelIdeal.Val
open Cert.KernelIdeal Cert.KernelIdeal.Gen Idealize.ShloMosaic Idealize.ShloMosaic.TcCoe Idealize.SL.Sem Idealize.ShloMosaic.ValueIdx Cert.LibTile
variable (V : (c : Dev nD) → (b : Ref sig .tc) → Buf (Elt Ideal) ((c : Thread nD τ).loc b))

/-- The region's arrays at its entry. -/
abbrev reg13_a (c : Dev nD) (w : Fin cfg13.W) := V c (Pipeline.arrRef spec13 w)

/-- The tile's arithmetic is the normalisation by the column statistics, the scale and shift, then the rectifier. -/
theorem reg13_pay (va : Vec Ideal S1x256 .f32) (z : Vec Ideal S2000x256 .f32) (mu ga be : Vec Ideal S1x256 .f32) :
    k13_pay1 va z mu ga be = Cert.Spec.bn z mu va ga be := by
  funext j
  obtain ⟨p, q, rfl⟩ : ∃ (p : Fin 2000) (q : Fin 256), j = ix2 p q := ⟨j 0, j 1, eq_ix2 j⟩
  unfold k13_pay1
  simp only [shapeCast_self, maximumf_apply, addf_apply, mulf_apply, subf_apply, broadcast_apply,
    broadcastTo_1b_ab_apply, Ideal.ofBits_def, Ideal.ofBits_zero_f32]
  rfl

theorem reg13_idx : ∀ t : Fin cfg13.N, win13_0.index t = ![t.val, 0] ∧ win13_1.index t = ![0, 0] ∧ win13_2.index t = ![0, 0]
    ∧ win13_3.index t = ![0, 0] ∧ win13_4.index t = ![0, 0] ∧ win13_5.index t = ![t.val, 0] :=
  (by decide +kernel : ∀ t : Fin grid13.N, _)

/-- At point t the block of z and of the result is tile t, -/
theorem reg13_tile0 (t : Fin cfg13.N) (ht : t.val * 2000 + 2000 ≤ 50000) (G : Cert.Spec.Mat 50000 256) :
    ((cfg13.win 0).blk t).view.read (Elt Ideal) G = tile t.val ht G := funext (ld_tile G _ t.val ht (reg13_idx t).1)
theorem reg13_tile5 (t : Fin cfg13.N) (ht : t.val * 2000 + 2000 ≤ 50000) (G : Cert.Spec.Mat 50000 256) :
    ((cfg13.win 5).blk t).view.read (Elt Ideal) G = tile t.val ht G := funext (ld_tile G _ t.val ht (reg13_idx t).2.2.2.2.2)
/-- and the block of each one-row array is the array. -/
theorem reg13_row1 (t : Fin cfg13.N) (G : Cert.Spec.Mat 1 256) : ((cfg13.win 1).blk t).view.read (Elt Ideal) G = G :=
  funext (ld_whole G _ (reg13_idx t).2.1)
theorem reg13_row2 (t : Fin cfg13.N) (G : Cert.Spec.Mat 1 256) : ((cfg13.win 2).blk t).view.read (Elt Ideal) G = G :=
  funext (ld_whole G _ (reg13_idx t).2.2.1)
theorem reg13_row3 (t : Fin cfg13.N) (G : Cert.Spec.Mat 1 256) : ((cfg13.win 3).blk t).view.read (Elt Ideal) G = G :=
  funext (ld_whole G _ (reg13_idx t).2.2.2.1)
theorem reg13_row4 (t : Fin cfg13.N) (G : Cert.Spec.Mat 1 256) : ((cfg13.win 4).blk t).view.read (Elt Ideal) G = G :=
  funext (ld_whole G _ (reg13_idx t).2.2.2.2.1)

/-- Normalisation acts row by row, so tile t of the normalised array is the normalised tile t. -/
theorem reg13_flushed (c : Dev nD) (t : Fin cfg13.N) :
    (dat13 (F := Ideal) V c).flushed 5 t = ((cfg13.win 5).blk t).view.read (Elt Ideal) (Cert.Spec.bn (reg13_a V c 0) (reg13_a V c 1) (reg13_a V c 2) (reg13_a V c 3) (reg13_a V c 4)) := by
  have ht : t.val * 2000 + 2000 ≤ 50000 := by have := t.isLt; have hN : cfg13.N = 25 := N_13; omega
  show (cfg13.win 5).cut (grid13.coords t) ((dat13 V c).after 5 t) = _
  rw [after13_5]
  unfold out13_5
  rw [View.canon_unit_zero vec00]
  simp only [View.ld_unit_zero (S := S2000x256) vec00, View.ld_unit_zero (S := S1x256) vec00]
  exact ((reg13_pay _ _ _ _ _).trans (congr (congr (congr (congr (congrArg Cert.Spec.bn (reg13_tile0 t ht _)) (reg13_row1 t _))
    (reg13_row2 t _)) (reg13_row3 t _)) (reg13_row4 t _))).trans (reg13_tile5 t ht (Cert.Spec.bn (reg13_a V c 0) (reg13_a V c 1) (reg13_a V c 2) (reg13_a V c 3) (reg13_a V c 4))).symm

/-- The 25 tiles of 2000 rows cover the 50000 rows. -/
theorem reg13_cover (i : S50000x256.Idx) :
    ∃ t : Fin cfg13.N, (cfg13.win 5).flush t = true ∧ i ∈ ((cfg13.win 5).blk t).view.set :=
  have ht : (i 0).val / 2000 < cfg13.N := by have := idx2_lt0 i; have hN : cfg13.N = 25 := N_13; omega
  ⟨⟨_, ht⟩, flush13_5 _, (congrArg (i ∈ ·) (View.set_slice_whole _ _)).mpr (mem_tile i _ (by decide) (reg13_idx ⟨_, ht⟩).2.2.2.2.2)⟩

theorem reg13_out (c : Dev nD) :
    (dat13 (F := Ideal) V c).arrAt 5 cfg13.N
      = Cert.Spec.bn (V c (Pipeline.arrRef spec13 0)) (V c (Pipeline.arrRef spec13 1)) (V c (Pipeline.arrRef spec13 2))
          (V c (Pipeline.arrRef spec13 3)) (V c (Pipeline.arrRef spec13 4)) :=
  (dat13 (F := Ideal) V c).arrAt_eq_of_cover 5 _ (fun t _ => reg13_flushed V c t) reg13_cover

end Cert.KernelIdeal.Val

end
-- ==== Proof.KFoldL3.lean ====
import proofs.«430164_j87205015978673_1_alg».proof.Proof.KFoldL0
import proofs.«430164_j87205015978673_1_alg».proof.Proof.RegMsg11
import proofs.«430164_j87205015978673_1_alg».proof.Proof.RegMlp12
import proofs.«430164_j87205015978673_1_alg».proof.Proof.RegBn13
set_option maxRecDepth 16384
noncomputable section
namespace Cert.KernelIdeal.Val
open Cert.KernelIdeal Cert.KernelIdeal.Gen Idealize.ShloMosaic Idealize.ShloMosaic.TcCoe Idealize.SL.Sem Idealize.ShloMosaic.ValueIdx
open Cert.Spec Cert.LibRows
open L0 (take_eq wrapCol_apply slab_eq slabRow_eq mean_eq var_eq)

namespace L3

variable (W : Valuation τ sig (Elt Ideal))

theorem take_W :
    StableHlo.after (hostOps11 (F := Ideal)) W (Proc.devRef .tc main_v95)
      = takeFill nodes_pos (W (Proc.devRef .tc main_v94) : Mat 50000 256) (idxCol (W (Proc.devRef .tc main_v1) : IVct 300000)) := by
  after_results_simp
  simp only [StableHlo.TRef.ofBuf, StableHlo.TRef.toBuf, cast_eq]
  exact take_eq _ _ _ _ _ _ _ _ _ _ _ _ _ rfl

theorem agg_W :
    StableHlo.after (hostOps12 (F := Ideal)) W (Proc.devRef .tc main_v99)
      = segsum (idxCol (W (Proc.devRef .tc main_v3) : IVct 300000)) (W (Proc.devRef .tc main_v96) : Mat 300000 256) := by
  after_results
  exact Cert.LibLin.scatter_zero_eq_segsum _ _ rfl _ _ _ _

theorem w1_W :
    StableHlo.after (hostOps12 (F := Ideal)) W (Proc.devRef .tc main_v101)
      = slab 3 (W (Proc.devRef .tc main_arg8) : Ten 4 256 256) := by
  after_results
  exact slab_eq 3 _ rfl rfl rfl _ _ _

theorem b1_W :
    StableHlo.after (hostOps12 (F := Ideal)) W (Proc.devRef .tc main_v108)
      = slabRow 3 (W (Proc.devRef .tc main_arg9) : Mat 4 256) := by
  after_results
  exact slabRow_eq 3 _ rfl rfl _ _ _ _

theorem w2_W :
    StableHlo.after (hostOps12 (F := Ideal)) W (Proc.devRef .tc main_v105)
      = slab 3 (W (Proc.devRef .tc main_arg10) : Ten 4 256 256) := by
  after_results
  exact slab_eq 3 _ rfl rfl rfl _ _ _

theorem b2_W :
    StableHlo.after (hostOps12 (F := Ideal)) W (Proc.devRef .tc main_v109)
      = slabRow 3 (W (Proc.devRef .tc main_arg11) : Mat 4 256) := by
  after_results
  exact slabRow_eq 3 _ rfl rfl _ _ _ _

theorem mean_W (z : Mat 50000 256) (hs : (W (Proc.devRef .tc main_v110_1) : Mat 1 256) = colSum z) :
    StableHlo.after (hostOps13 (F := Ideal)) W (Proc.devRef .tc main_v112) = mean z := by
  after_results
  exact mean_eq z _ hs _

theorem var_W (z : Mat 50000 256) (hs : (W (Proc.devRef .tc main_v110_1) : Mat 1 256) = colSum z)
    (hq : (W (Proc.devRef .tc main_v110_2) : Mat 1 256) = colSum (fun j => z j * z j)) :
    StableHlo.after (hostOps13 (F := Ideal)) W (Proc.devRef .tc main_v116) = varK z := by
  after_results
  exact var_eq z _ _ hs hq _

theorem gamma_W :
    StableHlo.after (hostOps13 (F := Ideal)) W (Proc.devRef .tc main_v121)
      = slabRow 3 (W (Proc.devRef .tc main_arg12) : Mat 4 256) := by
  after_results
  exact slabRow_eq 3 _ rfl rfl _ _ _ _

theorem beta_W :
    StableHlo.after (hostOps13 (F := Ideal)) W (Proc.devRef .tc main_v122)
      = slabRow 3 (W (Proc.devRef .tc main_arg13) : Mat 4 256) := by
  after_results
  exact slabRow_eq 3 _ rfl rfl _ _ _ _

end L3

set_option maxHeartbeats 4000000 in
/-- LAYER 3: from the node features `h` and held contents at its entry, the model's layer of `h` and held contents at its exit. -/
theorem L3_h (m : (ℓ : Loc nD τ sig) → Buf (Elt Ideal) ℓ) (ρ : Dev nD → PrngReg) (c : Dev nD) (I : Inputs) (h : Mat 50000 256)
    (hh : W22 (F := Ideal) m ρ c (Proc.devRef .tc main_v94) = h) (H : Held I (W22 m ρ c)) :
    W28 (F := Ideal) m ρ c (Proc.devRef .tc main_v123) = stepK I 3 h ∧ Held I (W28 m ρ c) := by
  have H5 : Held I (W23 m ρ c) := H.after wr11_sub (by decide)
  have H6 : Held I (W24 m ρ c) := H5.keep fun b hb => by
    rcases (by decide : ∀ b ∈ kept, b = main_v7 ∨ ∀ w, Pipeline.arrRef spec11 w ≠ b) b hb with rfl | hn
    · exact (W24_arr m ρ c 1).trans (((dat11 (V23 m ρ) c).arrAt_in 1 rfl _).trans (A_eq11 (V23 m ρ) c 1))
    · exact W24_of_ne m ρ c b hn
  have H7 : Held I (W25 m ρ c) := H6.after wr12_sub (by decide)
  have H8 : Held I (W26 m ρ c) := H7.keep fun b hb =>
    W26_of_ne m ρ c b ((by decide : ∀ b ∈ kept, ∀ w, Pipeline.arrRef spec12 w ≠ b) b hb)
  have H9 : Held I (W27 m ρ c) := H8.after wr13_sub (by decide)
  refine ⟨?_, H9.keep fun b hb => W28_of_ne m ρ c b ((by decide : ∀ b ∈ kept, ∀ w, Pipeline.arrRef spec13 w ≠ b) b hb)⟩
  have g0 : V23 (F := Ideal) m ρ c (Pipeline.arrRef spec11 0) = takeFill nodes_pos h (idxCol (src1 I)) :=
    (L3.take_W (W22 m ρ c)).trans (by rw [hh, H.v1])
  have g1 : V23 (F := Ideal) m ρ c (Pipeline.arrRef spec11 1) = ea I := H5.v7
  have e6 : W24 (F := Ideal) m ρ c (Proc.devRef .tc main_v96) = msgf (takeFill nodes_pos h (idxCol (src1 I))) (ea I) :=
    (W24_arr m ρ c 2).trans <| (reg11_out (V23 m ρ) c).trans (by rw [g0, g1])
  have x0 : V25 (F := Ideal) m ρ c (Pipeline.arrRef spec12 0) = h :=
    (StableHlo.after_of_writes_sub hostOps12 _ wr12_sub (by decide : main_v94 ∉ wr12)).trans <| (W24_of_ne m ρ c main_v94 (by decide)).trans <|
      (StableHlo.after_of_writes_sub hostOps11 _ wr11_sub (by decide : main_v94 ∉ wr11)).trans hh
  have x1 : V25 (F := Ideal) m ρ c (Pipeline.arrRef spec12 1)
      = segsum (idxCol (dst1 I)) (msgf (takeFill nodes_pos h (idxCol (src1 I))) (ea I)) :=
    (L3.agg_W (W24 m ρ c)).trans (by rw [H6.v3, e6])
  have x2 : V25 (F := Ideal) m ρ c (Pipeline.arrRef spec12 2) = slab 3 I.w1 := (L3.w1_W (W24 m ρ c)).trans (by rw [H6.a8])
  have x3 : V25 (F := Ideal) m ρ c (Pipeline.arrRef spec12 3) = slabRow 3 I.b1 := (L3.b1_W (W24 m ρ c)).trans (by rw [H6.a9])
  have x4 : V25 (F := Ideal) m ρ c (Pipeline.arrRef spec12 4) = slab 3 I.w2 := (L3.w2_W (W24 m ρ c)).trans (by rw [H6.a10])
  have x5 : V25 (F := Ideal) m ρ c (Pipeline.arrRef spec12 5) = slabRow 3 I.b2 := (L3.b2_W (W24 m ρ c)).trans (by rw [H6.a11])
  obtain ⟨z, hz⟩ : ∃ z : Mat 50000 256, z = mlp (V25 (F := Ideal) m ρ c (Pipeline.arrRef spec12 0)) (V25 m ρ c (Pipeline.arrRef spec12 1))
      (V25 m ρ c (Pipeline.arrRef spec12 2)) (V25 m ρ c (Pipeline.arrRef spec12 3)) (V25 m ρ c (Pipeline.arrRef spec12 4))
      (V25 m ρ c (Pipeline.arrRef spec12 5)) := ⟨_, rfl⟩
  have e8z : W26 (F := Ideal) m ρ c (Proc.devRef .tc main_v110_0) = z := (W26_arr m ρ c 6).trans ((reg12_z (V25 m ρ) c).trans hz.symm)
  have e8s : W26 (F := Ideal) m ρ c (Proc.devRef .tc main_v110_1) = colSum z := (W26_arr m ρ c 7).trans ((reg12_sum (V25 m ρ) c).trans (by rw [hz]))
  have e8q : W26 (F := Ideal) m ρ c (Proc.devRef .tc main_v110_2) = colSum (fun j => z j * z j) :=
    (W26_arr m ρ c 8).trans ((reg12_sumsq (V25 m ρ) c).trans (by rw [hz]))
  rw [x0, x1, x2, x3, x4, x5] at hz
  have y0 : V27 (F := Ideal) m ρ c (Pipeline.arrRef spec13 0) = z := (StableHlo.after_of_writes_sub hostOps13 _ wr13_sub (by decide : main_v110_0 ∉ wr13)).trans e8z
  have y1 : V27 (F := Ideal) m ρ c (Pipeline.arrRef spec13 1) = mean z := L3.mean_W (W26 m ρ c) z e8s
  have y2 : V27 (F := Ideal) m ρ c (Pipeline.arrRef spec13 2) = varK z := L3.var_W (W26 m ρ c) z e8s e8q
  have y3 : V27 (F := Ideal) m ρ c (Pipeline.arrRef spec13 3) = slabRow 3 I.gamma := (L3.gamma_W (W26 m ρ c)).trans (by rw [H8.a12])
  have y4 : V27 (F := Ideal) m ρ c (Pipeline.arrRef spec13 4) = slabRow 3 I.beta := (L3.beta_W (W26 m ρ c)).trans (by rw [H8.a13])
  refine (W28_arr m ρ c 5).trans <| (reg13_out (V27 m ρ) c).trans ?_
  rw [y0, y1, y2, y3, y4, hz]
  rfl

end Cert.KernelIdeal.Val
end
-- ==== Proof.KVal.lean ====
import proofs.«430164_j87205015978673_1_alg».proof.Proof.KFoldEnds
import proofs.«430164_j87205015978673_1_alg».proof.Proof.KFoldL0
import proofs.«430164_j87205015978673_1_alg».proof.Proof.KFoldL1
import proofs.«430164_j87205015978673_1_alg».proof.Proof.KFoldL2
import proofs.«430164_j87205015978673_1_alg».proof.Proof.KFoldL3
noncomputable section
namespace Cert.KernelIdeal.Val
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The result buffer at the return is the first reading of the argument arrays: the prelude, the four layers, the tail. -/
theorem value (c : Dev nD) : W31 (F := Ideal) m ρ c (Proc.devRef .tc main_v135) = Cert.Spec.Kmodel (inputsK m c) := by
  obtain ⟨h1, H1⟩ := L0_h m ρ c _ _ (A_h m ρ c) (held0 m ρ c)
  obtain ⟨h2, H2⟩ := L1_h m ρ c _ _ h1 H1
  obtain ⟨h3, H3⟩ := L2_h m ρ c _ _ h2 H2
  obtain ⟨h4, H4⟩ := L3_h m ρ c _ _ h3 H3
  exact T_out m ρ c _ _ h4 H4

end Cert.KernelIdeal.Val
end
-- ==== Proof.RefRunOps.lean ====
import proofs.«430164_j87205015978673_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    binary main_arg0 main_arg4 main_v4 ((fun l r => Host.dotGeneral dot_S50000x32_S32x256_S50000x256_1_0_0_1_n_n none l r) : (⟨S50000x32, .f32⟩ : BufTy).Contents (Elt F) → (⟨S32x256, .f32⟩ : BufTy).Contents (Elt F) → (⟨S50000x256, .f32⟩ : BufTy).Contents (Elt F)),
    unary main_arg5 main_v5 (broadcastInDim S1x256 ![1] bcast_S256_S1x256_1 : (⟨S256, .f32⟩ : BufTy).Contents (Elt F) → (⟨S1x256, .f32⟩ : BufTy).Contents (Elt F)),
    unary main_v5 main_v6 (broadcastInDim S50000x256 ![0, 1] bcast_S1x256_S50000x256_0_1 : (⟨S1x256, .f32⟩ : BufTy).Contents (Elt F) → (⟨S50000x256, .f32⟩ : BufTy).Contents (Elt F)),
    binary main_v4 main_v6 main_v7 (addf : (⟨S50000x256, .f32⟩ : BufTy).Contents (Elt F) → (⟨S50000x256, .f32⟩ : BufTy).Contents (Elt F) → (⟨S50000x256, .f32⟩ : BufTy).Contents (Elt F)),
    binary main_arg3 main_arg6 main_v8 ((fun l r => Host.dotGeneral dot_S300000x16_S16x256_S300000x256_1_0_0_1_n_n none l r) : (⟨S300000x16, .f32⟩ : BufTy).Contents (Elt F) → (⟨S16x256, .f32⟩ : BufTy).Contents (Elt F) → (⟨S300000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S300000x256 ![0, 1] bcast_S1x256_S300000x256_0_1 : (⟨S1x256, .f32⟩ : BufTy).Contents (Elt F) → (⟨S300000x256, .f32⟩ : BufTy).Contents (Elt F)),
    binary main_v8 main_v10 main_v11 (addf : (⟨S300000x256, .f32⟩ : BufTy).Contents (Elt F) → (⟨S300000x256, .f32⟩ : BufTy).Contents (Elt F) → (⟨S300000x256, .f32⟩ : BufTy).Contents (Elt F)) ]

abbrev opsL0 : List (HloOp τ sig (Elt F)) :=
  [ nullary main_c (constantI S_ 32 0#32),
    unary main_c main_v12 (broadcastInDim S300000 ![] bcast_S_S300000 : (⟨S_, .i32⟩ : BufTy).Contents (Elt F) → (⟨S300000, .i32⟩ : BufTy).Contents (Elt F)),
    binary main_v1 main_v12 main_v13 (cmpi .slt : (⟨S300000, .i32⟩ : BufTy).Contents (Elt F) → (⟨S300000, .i32⟩ : BufTy).Contents (Elt F) → (⟨S300000, .i1⟩ : BufTy).Contents (Elt F)),
    nullary main_c_0 (constantI S_ 32 50000#32),
    unary main_c_0 main_v14 (broadcastInDim S300000 ![] bcast_S_S300000 : (⟨S_, .i32⟩ : BufTy).Contents (Elt F) → (⟨S300000, .i32⟩ : BufTy).Contents (Elt F)),
    binary main_v1 main_v14 main_v15 (addi : (⟨S300000, .i32⟩ : BufTy).Contents (Elt F) → (⟨S300000, .i32⟩ : BufTy).Contents (Elt F) → (⟨S300000, .i32⟩ : BufTy).Contents (Elt F)),
    ternary main_v13 main_v15 main_v1 main_v16 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v16 main_v17 (broadcastInDim S300000x1 ![0] bcast_S300000_S300000x1_0 : (⟨S300000, .i32⟩ : BufTy).Contents (Elt F) → (⟨S300000x1, .i32⟩ : BufTy).Contents (Elt F)),
    binary main_v7 main_v17 main_v18 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v18 main_v11 main_v19 (addf : (⟨S300000x256, .f32⟩ : BufTy).Contents (Elt F) → (⟨S300000x256, .f32⟩ : BufTy).Contents (Elt F) → (⟨S300000x256, .f32⟩ : BufTy).Contents (Elt F)),
    TRef.nullary main_call0.cst (constant S_ .f32 0x00000000#32),
    TRef.unary main_call0.cst main_call0.v0 (broadcastInDim S300000x256 ![] bcast_S_S300000x256),
    TRef.binary (.of main_v19 : TRef sig ⟨S300000x256, .f32⟩) main_call0.v0 main_call0.v1 maximumf,
    nullary main_cst (constant S_ .f32 0x00000000#32),
    unary main_cst main_v21 (broadcastInDim S50000x256 ![] bcast_S_S50000x256 : (⟨S_, .f32⟩ : BufTy).Contents (Elt F) → (⟨S50000x256, .f32⟩ : BufTy).Contents (Elt F)),
    unary main_v3 main_v22 (broadcastInDim S300000x1 ![0] bcast_S300000_S300000x1_0 : (⟨S300000, .i32⟩ : BufTy).Contents (Elt F) → (⟨S300000x1, .i32⟩ : BufTy).Contents (Elt F)),
    ternary main_v21 main_v22 main_v20 main_v23 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v7 main_v23 main_v24 (addf : (⟨S50000x256, .f32⟩ : BufTy).Contents (Elt F) → (⟨S50000x256, .f32⟩ : BufTy).Contents (Elt F) → (⟨S50000x256, .f32⟩ : BufTy).Contents (Elt F)),
    unary main_arg8 main_v25 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v25 main_v26 rfl shapeCasts_S1x256x256_S256x256,
    binary main_v24 main_v26 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v28 ((extractStridedSlice S1x256 ![0, 0] · slices_S4x256_S1x256_0_0) : (⟨S4x256, .f32⟩ : BufTy).Contents (Elt F) → (⟨S1x256, .f32⟩ : BufTy).Contents (Elt F)),
    reshape main_v28 main_v29 rfl shapeCasts_S1x256_S256,
    unary main_v29 main_v30 (broadcastInDim S1x256 ![1] bcast_S256_S1x256_1 : (⟨S256, .f32⟩ : BufTy).Contents (Elt F) → (⟨S1x256, .f32⟩ : BufTy).Contents (Elt F)),
    unary main_v30 main_v31 (broadcastInDim S50000x256 ![0, 1] bcast_S1x256_S50000x256_0_1 : (⟨S1x256, .f32⟩ : BufTy).Contents (Elt F) → (⟨S50000x256, .f32⟩ : BufTy).Contents (Elt F)),
    binary main_v27 main_v31 main_v32 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v32 : TRef sig ⟨S50000x256, .f32⟩) main_call1.v0 main_call1.v1 maximumf,
    unary main_arg10 main_v34 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v34 main_v35 rfl shapeCasts_S1x256x256_S256x256,
    binary main_v33 main_v35 main_v36 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v37 ((extractStridedSlice S1x256 ![0, 0] · slices_S4x256_S1x256_0_0) : (⟨S4x256, .f32⟩ : BufTy).Contents (Elt F) → (⟨S1x256, .f32⟩ : BufTy).Contents (Elt F)),
    reshape main_v37 main_v38 rfl shapeCasts_S1x256_S256,
    unary main_v38 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v36 main_v40 main_v41 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v41 main_cst_1 main_v42 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v43 (broadcastInDim S256 ![] bcast_S_S256 : (⟨S_, .f32⟩ : BufTy).Contents (Elt F) → (⟨S256, .f32⟩ : BufTy).Contents (Elt F)),
    binary main_v42 main_v43 main_v44 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary main_call2.cst (constant S_ .f32 0x00000000#32),
    TRef.binary (.of main_v41 : TRef sig ⟨S50000x256, .f32⟩) main_call2.cst main_call2.v0 (fun x v => Host.reduceAdd x v reducesTo_S50000x256_S256_d0 h_S_),
    TRef.unary main_call2.v0 main_call2.v1 (broadcastInDim S1x256 ![1] bcast_S256_S1x256_1),
    TRef.nullary main_call2.cst_0 (constant S_ .f32 0x47435000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S50000x256 ![0, 1] bcast_S1x256_S50000x256_0_1),
    TRef.binary (.of main_v41 : TRef sig ⟨S50000x256, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v44 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v41 main_v47 main_v48 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v49 (broadcastInDim S256 ![] bcast_S_S256 : (⟨S_, .f32⟩ : BufTy).Contents (Elt F) → (⟨S256, .f32⟩ : BufTy).Contents (Elt F)),
    binary main_v45 main_v49 main_v50 (addf : (⟨S256, .f32⟩ : BufTy).Contents (Elt F) → (⟨S256, .f32⟩ : BufTy).Contents (Elt F) → (⟨S256, .f32⟩ : BufTy).Contents (Elt F)),
    unary main_v50 main_v51 (Host.rsqrt : (⟨S256, .f32⟩ : BufTy).Contents (Elt F) → (⟨S256, .f32⟩ : BufTy).Contents (Elt F)),
    unary main_v51 main_v52 (broadcastInDim S1x256 ![1] bcast_S256_S1x256_1 : (⟨S256, .f32⟩ : BufTy).Contents (Elt F) → (⟨S1x256, .f32⟩ : BufTy).Contents (Elt F)),
    unary main_v52 main_v53 (broadcastInDim S50000x256 ![0, 1] bcast_S1x256_S50000x256_0_1 : (⟨S1x256, .f32⟩ : BufTy).Contents (Elt F) → (⟨S50000x256, .f32⟩ : BufTy).Contents (Elt F)),
    binary main_v48 main_v53 main_v54 (mulf : (⟨S50000x256, .f32⟩ : BufTy).Contents (Elt F) → (⟨S50000x256, .f32⟩ : BufTy).Contents (Elt F) → (⟨S50000x256, .f32⟩ : BufTy).Contents (Elt F)),
    unary main_arg12 main_v55 ((extractStridedSlice S1x256 ![0, 0] · slices_S4x256_S1x256_0_0) : (⟨S4x256, .f32⟩ : BufTy).Contents (Elt F) → (⟨S1x256, .f32⟩ : BufTy).Contents (Elt F)),
    reshape main_v55 main_v56 rfl shapeCasts_S1x256_S256,
    unary main_v56 main_v57 (broadcastInDim S1x256 ![1] bcast_S256_S1x256_1 : (⟨S256, .f32⟩ : BufTy).Contents (Elt F) → (⟨S1x256, .f32⟩ : BufTy).Contents (Elt F)),
    unary main_v57 main_v58 (broadcastInDim S50000x256 ![0, 1] bcast_S1x256_S50000x256_0_1 : (⟨S1x256, .f32⟩ : BufTy).Contents (Elt F) → (⟨S50000x256, .f32⟩ : BufTy).Contents (Elt F)),
    binary main_v54 main_v58 main_v59 (mulf : (⟨S50000x256, .f32⟩ : BufTy).Contents (Elt F) → (⟨S50000x256, .f32⟩ : BufTy).Contents (Elt F) → (⟨S50000x256, .f32⟩ : BufTy).Contents (Elt F)),
    unary main_arg13 main_v60 ((extractStridedSlice S1x256 ![0, 0] · slices_S4x256_S1x256_0_0) : (⟨S4x256, .f32⟩ : BufTy).Contents (Elt F) → (⟨S1x256, .f32⟩ : BufTy).Contents (Elt F)),
    reshape main_v60 main_v61 rfl shapeCasts_S1x256_S256,
    unary main_v61 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v59 main_v63 main_v64 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (.of main_v64 : TRef sig ⟨S50000x256, .f32⟩) main_call3.v0 main_call3.v1 maximumf ]

abbrev opsL1 : List (HloOp τ sig (Elt F)) :=
  [ nullary main_c_5 (constantI S_ 32 0#32),
    unary main_c_5 main_v66 (broadcastInDim S300000 ![] bcast_S_S300000 : (⟨S_, .i32⟩ : BufTy).Contents (Elt F) → (⟨S300000, .i32⟩ : BufTy).Contents (Elt F)),
    binary main_v1 main_v66 main_v67 (cmpi .slt : (⟨S300000, .i32⟩ : BufTy).Contents (Elt F) → (⟨S300000, .i32⟩ : BufTy).Contents (Elt F) → (⟨S300000, .i1⟩ : BufTy).Contents (Elt F)),
    nullary main_c_6 (constantI S_ 32 50000#32),
    unary main_c_6 main_v68 (broadcastInDim S300000 ![] bcast_S_S300000 : (⟨S_, .i32⟩ : BufTy).Contents (Elt F) → (⟨S300000, .i32⟩ : BufTy).Contents (Elt F)),
    binary main_v1 main_v68 main_v69 (addi : (⟨S300000, .i32⟩ : BufTy).Contents (Elt F) → (⟨S300000, .i32⟩ : BufTy).Contents (Elt F) → (⟨S300000, .i32⟩ : BufTy).Contents (Elt F)),
    ternary main_v67 main_v69 main_v1 main_v70 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v70 main_v71 (broadcastInDim S300000x1 ![0] bcast_S300000_S300000x1_0 : (⟨S300000, .i32⟩ : BufTy).Contents (Elt F) → (⟨S300000x1, .i32⟩ : BufTy).Contents (Elt F)),
    binary main_v65 main_v71 main_v72 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v72 main_v11 main_v73 (addf : (⟨S300000x256, .f32⟩ : BufTy).Contents (Elt F) → (⟨S300000x256, .f32⟩ : BufTy).Contents (Elt F) → (⟨S300000x256, .f32⟩ : BufTy).Contents (Elt F)),
    TRef.nullary main_call4.cst (constant S_ .f32 0x00000000#32),
    TRef.unary main_call4.cst main_call4.v0 (broadcastInDim S300000x256 ![] bcast_S_S300000x256),
    TRef.binary (.of main_v73 : TRef sig ⟨S300000x256, .f32⟩) main_call4.v0 main_call4.v1 maximumf,
    nullary main_cst_7 (constant S_ .f32 0x00000000#32),
    unary main_cst_7 main_v75 (broadcastInDim S50000x256 ![] bcast_S_S50000x256 : (⟨S_, .f32⟩ : BufTy).Contents (Elt F) → (⟨S50000x256, .f32⟩ : BufTy).Contents (Elt F)),
    unary main_v3 main_v76 (broadcastInDim S300000x1 ![0] bcast_S300000_S300000x1_0 : (⟨S300000, .i32⟩ : BufTy).Contents (Elt F) → (⟨S300000x1, .i32⟩ : BufTy).Contents (Elt F)),
    ternary main_v75 main_v76 main_v74 main_v77 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v65 main_v77 main_v78 (addf : (⟨S50000x256, .f32⟩ : BufTy).Contents (Elt F) → (⟨S50000x256, .f32⟩ : BufTy).Contents (Elt F) → (⟨S50000x256, .f32⟩ : BufTy).Contents (Elt F)),
    unary main_arg8 main_v79 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v79 main_v80 rfl shapeCasts_S1x256x256_S256x256,
    binary main_v78 main_v80 main_v81 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v82 ((extractStridedSlice S1x256 ![1, 0] · slices_S4x256_S1x256_1_0) : (⟨S4x256, .f32⟩ : BufTy).Contents (Elt F) → (⟨S1x256, .f32⟩ : BufTy).Contents (Elt F)),
    reshape main_v82 main_v83 rfl shapeCasts_S1x256_S256,
    unary main_v83 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v81 main_v85 main_v86 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v86 : TRef sig ⟨S50000x256, .f32⟩) main_call5.v0 main_call5.v1 maximumf,
    unary main_arg10 main_v88 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v88 main_v89 rfl shapeCasts_S1x256x256_S256x256,
    binary main_v87 main_v89 main_v90 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v91 ((extractStridedSlice S1x256 ![1, 0] · slices_S4x256_S1x256_1_0) : (⟨S4x256, .f32⟩ : BufTy).Contents (Elt F) → (⟨S1x256, .f32⟩ : BufTy).Contents (Elt F)),
    reshape main_v91 main_v92 rfl shapeCasts_S1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v90 main_v94 main_v95 (addf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v95 main_cst_8 main_v96 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_9 (constant S_ .f32 0x47435000#32),
    unary main_cst_9 main_v97 (broadcastInDim S256 ![] bcast_S_S256 : (⟨S_, .f32⟩ : BufTy).Contents (Elt F) → (⟨S256, .f32⟩ : BufTy).Contents (Elt F)),
    binary main_v96 main_v97 main_v98 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    TRef.nullary main_call6.cst (constant S_ .f32 0x00000000#32),
    TRef.binary (.of main_v95 : TRef sig ⟨S50000x256, .f32⟩) main_call6.cst main_call6.v0 (fun x v => Host.reduceAdd x v reducesTo_S50000x256_S256_d0 h_S_),
    TRef.unary main_call6.v0 main_call6.v1 (broadcastInDim S1x256 ![1] bcast_S256_S1x256_1),
    TRef.nullary main_call6.cst_0 (constant S_ .f32 0x47435000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S50000x256 ![0, 1] bcast_S1x256_S50000x256_0_1),
    TRef.binary (.of main_v95 : TRef sig ⟨S50000x256, .f32⟩) main_call6.v4 main_call6.v5 subf,
    TRef.binary main_call6.v5 main_call6.v5 main_call6.v6 mulf,
    TRef.unary (.of main_c_10 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S256 ![] bcast_S_S256),
    TRef.ternary main_call6.v12 main_call6.v11 main_call6.call0.v1 main_call6.call0.v2 (fun p a b => select (broadcastInDim S256 ![] bcast_S_S256 p) a b),
    unary main_v98 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v95 main_v101 main_v102 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v103 (broadcastInDim S256 ![] bcast_S_S256 : (⟨S_, .f32⟩ : BufTy).Contents (Elt F) → (⟨S256, .f32⟩ : BufTy).Contents (Elt F)),
    binary main_v99 main_v103 main_v104 (addf : (⟨S256, .f32⟩ : BufTy).Contents (Elt F) → (⟨S256, .f32⟩ : BufTy).Contents (Elt F) → (⟨S256, .f32⟩ : BufTy).Contents (Elt F)),
    unary main_v104 main_v105 (Host.rsqrt : (⟨S256, .f32⟩ : BufTy).Contents (Elt F) → (⟨S256, .f32⟩ : BufTy).Contents (Elt F)),
    unary main_v105 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v102 main_v107 main_v108 (mulf : (⟨S50000x256, .f32⟩ : BufTy).Contents (Elt F) → (⟨S50000x256, .f32⟩ : BufTy).Contents (Elt F) → (⟨S50000x256, .f32⟩ : BufTy).Contents (Elt F)),
    unary main_arg12 main_v109 ((extractStridedSlice S1x256 ![1, 0] · slices_S4x256_S1x256_1_0) : (⟨S4x256, .f32⟩ : BufTy).Contents (Elt F) → (⟨S1x256, .f32⟩ : BufTy).Contents (Elt F)),
    reshape main_v109 main_v110 rfl shapeCasts_S1x256_S256,
    unary main_v110 main_v111 (broadcastInDim S1x256 ![1] bcast_S256_S1x256_1 : (⟨S256, .f32⟩ : BufTy).Contents (Elt F) → (⟨S1x256, .f32⟩ : BufTy).Contents (Elt F)),
    unary main_v111 main_v112 (broadcastInDim S50000x256 ![0, 1] bcast_S1x256_S50000x256_0_1 : (⟨S1x256, .f32⟩ : BufTy).Contents (Elt F) → (⟨S50000x256, .f32⟩ : BufTy).Contents (Elt F)),
    binary main_v108 main_v112 main_v113 (mulf : (⟨S50000x256, .f32⟩ : BufTy).Contents (Elt F) → (⟨S50000x256, .f32⟩ : BufTy).Contents (Elt F) → (⟨S50000x256, .f32⟩ : BufTy).Contents (Elt F)),
    unary main_arg13 main_v114 ((extractStridedSlice S1x256 ![1, 0] · slices_S4x256_S1x256_1_0) : (⟨S4x256, .f32⟩ : BufTy).Contents (Elt F) → (⟨S1x256, .f32⟩ : BufTy).Contents (Elt F)),
    reshape main_v114 main_v115 rfl shapeCasts_S1x256_S256,
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v113 main_v117 main_v118 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v118 : TRef sig ⟨S50000x256, .f32⟩) main_call7.v0 main_call7.v1 maximumf ]

abbrev opsL2 : List (HloOp τ sig (Elt F)) :=
  [ nullary main_c_12 (constantI S_ 32 0#32),
    unary main_c_12 main_v120 (broadcastInDim S300000 ![] bcast_S_S300000 : (⟨S_, .i32⟩ : BufTy).Contents (Elt F) → (⟨S300000, .i32⟩ : BufTy).Contents (Elt F)),
    binary main_v1 main_v120 main_v121 (cmpi .slt : (⟨S300000, .i32⟩ : BufTy).Contents (Elt F) → (⟨S300000, .i32⟩ : BufTy).Contents (Elt F) → (⟨S300000, .i1⟩ : BufTy).Contents (Elt F)),
    nullary main_c_13 (constantI S_ 32 50000#32),
    unary main_c_13 main_v122 (broadcastInDim S300000 ![] bcast_S_S300000 : (⟨S_, .i32⟩ : BufTy).Contents (Elt F) → (⟨S300000, .i32⟩ : BufTy).Contents (Elt F)),
    binary main_v1 main_v122 main_v123 (addi : (⟨S300000, .i32⟩ : BufTy).Contents (Elt F) → (⟨S300000, .i32⟩ : BufTy).Contents (Elt F) → (⟨S300000, .i32⟩ : BufTy).Contents (Elt F)),
    ternary main_v121 main_v123 main_v1 main_v124 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v124 main_v125 (broadcastInDim S300000x1 ![0] bcast_S300000_S300000x1_0 : (⟨S300000, .i32⟩ : BufTy).Contents (Elt F) → (⟨S300000x1, .i32⟩ : BufTy).Contents (Elt F)),
    binary main_v119 main_v125 main_v126 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v126 main_v11 main_v127 (addf : (⟨S300000x256, .f32⟩ : BufTy).Contents (Elt F) → (⟨S300000x256, .f32⟩ : BufTy).Contents (Elt F) → (⟨S300000x256, .f32⟩ : BufTy).Contents (Elt F)),
    TRef.nullary main_call8.cst (constant S_ .f32 0x00000000#32),
    TRef.unary main_call8.cst main_call8.v0 (broadcastInDim S300000x256 ![] bcast_S_S300000x256),
    TRef.binary (.of main_v127 : TRef sig ⟨S300000x256, .f32⟩) main_call8.v0 main_call8.v1 maximumf,
    nullary main_cst_14 (constant S_ .f32 0x00000000#32),
    unary main_cst_14 main_v129 (broadcastInDim S50000x256 ![] bcast_S_S50000x256 : (⟨S_, .f32⟩ : BufTy).Contents (Elt F) → (⟨S50000x256, .f32⟩ : BufTy).Contents (Elt F)),
    unary main_v3 main_v130 (broadcastInDim S300000x1 ![0] bcast_S300000_S300000x1_0 : (⟨S300000, .i32⟩ : BufTy).Contents (Elt F) → (⟨S300000x1, .i32⟩ : BufTy).Contents (Elt F)),
    ternary main_v129 main_v130 main_v128 main_v131 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v119 main_v131 main_v132 (addf : (⟨S50000x256, .f32⟩ : BufTy).Contents (Elt F) → (⟨S50000x256, .f32⟩ : BufTy).Contents (Elt F) → (⟨S50000x256, .f32⟩ : BufTy).Contents (Elt F)),
    unary main_arg8 main_v133 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v133 main_v134 rfl shapeCasts_S1x256x256_S256x256,
    binary main_v132 main_v134 main_v135 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v136 ((extractStridedSlice S1x256 ![2, 0] · slices_S4x256_S1x256_2_0) : (⟨S4x256, .f32⟩ : BufTy).Contents (Elt F) → (⟨S1x256, .f32⟩ : BufTy).Contents (Elt F)),
    reshape main_v136 main_v137 rfl shapeCasts_S1x256_S256,
    unary main_v137 main_v138 (broadcastInDim S1x256 ![1] bcast_S256_S1x256_1 : (⟨S256, .f32⟩ : BufTy).Contents (Elt F) → (⟨S1x256, .f32⟩ : BufTy).Contents (Elt F)),
    unary main_v138 main_v139 (broadcastInDim S50000x256 ![0, 1] bcast_S1x256_S50000x256_0_1 : (⟨S1x256, .f32⟩ : BufTy).Contents (Elt F) → (⟨S50000x256, .f32⟩ : BufTy).Contents (Elt F)),
    binary main_v135 main_v139 main_v140 (addf : (⟨S50000x256, .f32⟩ : BufTy).Contents (Elt F) → (⟨S50000x256, .f32⟩ : BufTy).Contents (Elt F) → (⟨S50000x256, .f32⟩ : BufTy).Contents (Elt F)),
    TRef.nullary main_call9.cst (constant S_ .f32 0x00000000#32),
    TRef.unary main_call9.cst main_call9.v0 (broadcastInDim S50000x256 ![] bcast_S_S50000x256),
    TRef.binary (.of main_v140 : TRef sig ⟨S50000x256, .f32⟩) main_call9.v0 main_call9.v1 maximumf,
    unary main_arg10 main_v142 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v142 main_v143 rfl shapeCasts_S1x256x256_S256x256,
    binary main_v141 main_v143 main_v144 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v145 ((extractStridedSlice S1x256 ![2, 0] · slices_S4x256_S1x256_2_0) : (⟨S4x256, .f32⟩ : BufTy).Contents (Elt F) → (⟨S1x256, .f32⟩ : BufTy).Contents (Elt F)),
    reshape main_v145 main_v146 rfl shapeCasts_S1x256_S256,
    unary main_v146 main_v147 (broadcastInDim S1x256 ![1] bcast_S256_S1x256_1 : (⟨S256, .f32⟩ : BufTy).Contents (Elt F) → (⟨S1x256, .f32⟩ : BufTy).Contents (Elt F)),
    unary main_v147 main_v148 (broadcastInDim S50000x256 ![0, 1] bcast_S1x256_S50000x256_0_1 : (⟨S1x256, .f32⟩ : BufTy).Contents (Elt F) → (⟨S50000x256, .f32⟩ : BufTy).Contents (Elt F)),
    binary main_v144 main_v148 main_v149 (addf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x00000000#32),
    binary main_v149 main_cst_15 main_v150 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_16 (constant S_ .f32 0x47435000#32),
    unary main_cst_16 main_v151 (broadcastInDim S256 ![] bcast_S_S256 : (⟨S_, .f32⟩ : BufTy).Contents (Elt F) → (⟨S256, .f32⟩ : BufTy).Contents (Elt F)),
    binary main_v150 main_v151 main_v152 (Host.divf : (⟨S256, .f32⟩ : BufTy).Contents (Elt F) → (⟨S256, .f32⟩ : BufTy).Contents (Elt F) → (⟨S256, .f32⟩ : BufTy).Contents (Elt F)),
    nullary main_c_17 (constantI S_ 32 0#32),
    TRef.nullary main_call10.cst (constant S_ .f32 0x00000000#32),
    TRef.binary (.of main_v149 : TRef sig ⟨S50000x256, .f32⟩) main_call10.cst main_call10.v0 (fun x v => Host.reduceAdd x v reducesTo_S50000x256_S256_d0 h_S_),
    TRef.unary main_call10.v0 main_call10.v1 (broadcastInDim S1x256 ![1] bcast_S256_S1x256_1),
    TRef.nullary main_call10.cst_0 (constant S_ .f32 0x47435000#32),
    TRef.unary main_call10.cst_0 main_call10.v2 (broadcastInDim S1x256 ![] bcast_S_S1x256),
    TRef.binary main_call10.v1 main_call10.v2 main_call10.v3 Host.divf,
    TRef.unary main_call10.v3 main_call10.v4 (broadcastInDim S50000x256 ![0, 1] bcast_S1x256_S50000x256_0_1),
    TRef.binary (.of main_v149 : TRef sig ⟨S50000x256, .f32⟩) main_call10.v4 main_call10.v5 subf,
    TRef.binary main_call10.v5 main_call10.v5 main_call10.v6 mulf,
    TRef.unary (.of main_c_17 : TRef sig ⟨S_, .i32⟩) main_call10.v7 (sitofp .f32),
    TRef.nullary main_call10.cst_1 (constant S_ .f32 0x47435000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S50000x256_S256_d0 h_S_),
    TRef.unary main_call10.v8 main_call10.v10 (broadcastInDim S256 ![] bcast_S_S256),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S256 ![] bcast_S_S256),
    TRef.ternary main_call10.v12 main_call10.v11 main_call10.call0.v1 main_call10.call0.v2 (fun p a b => select (broadcastInDim S256 ![] bcast_S_S256 p) a b),
    unary main_v152 main_v154 (broadcastInDim S1x256 ![1] bcast_S256_S1x256_1 : (⟨S256, .f32⟩ : BufTy).Contents (Elt F) → (⟨S1x256, .f32⟩ : BufTy).Contents (Elt F)),
    unary main_v154 main_v155 (broadcastInDim S50000x256 ![0, 1] bcast_S1x256_S50000x256_0_1 : (⟨S1x256, .f32⟩ : BufTy).Contents (Elt F) → (⟨S50000x256, .f32⟩ : BufTy).Contents (Elt F)),
    binary main_v149 main_v155 main_v156 (subf : (⟨S50000x256, .f32⟩ : BufTy).Contents (Elt F) → (⟨S50000x256, .f32⟩ : BufTy).Contents (Elt F) → (⟨S50000x256, .f32⟩ : BufTy).Contents (Elt F)),
    nullary main_cst_18 (constant S_ .f32 0x3727C5AC#32),
    unary main_cst_18 main_v157 (broadcastInDim S256 ![] bcast_S_S256 : (⟨S_, .f32⟩ : BufTy).Contents (Elt F) → (⟨S256, .f32⟩ : BufTy).Contents (Elt F)),
    binary main_v153 main_v157 main_v158 (addf : (⟨S256, .f32⟩ : BufTy).Contents (Elt F) → (⟨S256, .f32⟩ : BufTy).Contents (Elt F) → (⟨S256, .f32⟩ : BufTy).Contents (Elt F)),
    unary main_v158 main_v159 (Host.rsqrt : (⟨S256, .f32⟩ : BufTy).Contents (Elt F) → (⟨S256, .f32⟩ : BufTy).Contents (Elt F)),
    unary main_v159 main_v160 (broadcastInDim S1x256 ![1] bcast_S256_S1x256_1 : (⟨S256, .f32⟩ : BufTy).Contents (Elt F) → (⟨S1x256, .f32⟩ : BufTy).Contents (Elt F)),
    unary main_v160 main_v161 (broadcastInDim S50000x256 ![0, 1] bcast_S1x256_S50000x256_0_1 : (⟨S1x256, .f32⟩ : BufTy).Contents (Elt F) → (⟨S50000x256, .f32⟩ : BufTy).Contents (Elt F)),
    binary main_v156 main_v161 main_v162 (mulf : (⟨S50000x256, .f32⟩ : BufTy).Contents (Elt F) → (⟨S50000x256, .f32⟩ : BufTy).Contents (Elt F) → (⟨S50000x256, .f32⟩ : BufTy).Contents (Elt F)),
    unary main_arg12 main_v163 ((extractStridedSlice S1x256 ![2, 0] · slices_S4x256_S1x256_2_0) : (⟨S4x256, .f32⟩ : BufTy).Contents (Elt F) → (⟨S1x256, .f32⟩ : BufTy).Contents (Elt F)),
    reshape main_v163 main_v164 rfl shapeCasts_S1x256_S256,
    unary main_v164 main_v165 (broadcastInDim S1x256 ![1] bcast_S256_S1x256_1 : (⟨S256, .f32⟩ : BufTy).Contents (Elt F) → (⟨S1x256, .f32⟩ : BufTy).Contents (Elt F)),
    unary main_v165 main_v166 (broadcastInDim S50000x256 ![0, 1] bcast_S1x256_S50000x256_0_1 : (⟨S1x256, .f32⟩ : BufTy).Contents (Elt F) → (⟨S50000x256, .f32⟩ : BufTy).Contents (Elt F)),
    binary main_v162 main_v166 main_v167 (mulf : (⟨S50000x256, .f32⟩ : BufTy).Contents (Elt F) → (⟨S50000x256, .f32⟩ : BufTy).Contents (Elt F) → (⟨S50000x256, .f32⟩ : BufTy).Contents (Elt F)),
    unary main_arg13 main_v168 ((extractStridedSlice S1x256 ![2, 0] · slices_S4x256_S1x256_2_0) : (⟨S4x256, .f32⟩ : BufTy).Contents (Elt F) → (⟨S1x256, .f32⟩ : BufTy).Contents (Elt F)),
    reshape main_v168 main_v169 rfl shapeCasts_S1x256_S256,
    unary main_v169 main_v170 (broadcastInDim S1x256 ![1] bcast_S256_S1x256_1 : (⟨S256, .f32⟩ : BufTy).Contents (Elt F) → (⟨S1x256, .f32⟩ : BufTy).Contents (Elt F)),
    unary main_v170 main_v171 (broadcastInDim S50000x256 ![0, 1] bcast_S1x256_S50000x256_0_1 : (⟨S1x256, .f32⟩ : BufTy).Contents (Elt F) → (⟨S50000x256, .f32⟩ : BufTy).Contents (Elt F)),
    binary main_v167 main_v171 main_v172 (addf : (⟨S50000x256, .f32⟩ : BufTy).Contents (Elt F) → (⟨S50000x256, .f32⟩ : BufTy).Contents (Elt F) → (⟨S50000x256, .f32⟩ : BufTy).Contents (Elt F)),
    TRef.nullary main_call11.cst (constant S_ .f32 0x00000000#32),
    TRef.unary main_call11.cst main_call11.v0 (broadcastInDim S50000x256 ![] bcast_S_S50000x256),
    TRef.binary (.of main_v172 : TRef sig ⟨S50000x256, .f32⟩) main_call11.v0 main_call11.v1 maximumf ]

abbrev opsL3 : List (HloOp τ sig (Elt F)) :=
  [ nullary main_c_19 (constantI S_ 32 0#32),
    unary main_c_19 main_v174 (broadcastInDim S300000 ![] bcast_S_S300000 : (⟨S_, .i32⟩ : BufTy).Contents (Elt F) → (⟨S300000, .i32⟩ : BufTy).Contents (Elt F)),
    binary main_v1 main_v174 main_v175 (cmpi .slt : (⟨S300000, .i32⟩ : BufTy).Contents (Elt F) → (⟨S300000, .i32⟩ : BufTy).Contents (Elt F) → (⟨S300000, .i1⟩ : BufTy).Contents (Elt F)),
    nullary main_c_20 (constantI S_ 32 50000#32),
    unary main_c_20 main_v176 (broadcastInDim S300000 ![] bcast_S_S300000 : (⟨S_, .i32⟩ : BufTy).Contents (Elt F) → (⟨S300000, .i32⟩ : BufTy).Contents (Elt F)),
    binary main_v1 main_v176 main_v177 (addi : (⟨S300000, .i32⟩ : BufTy).Contents (Elt F) → (⟨S300000, .i32⟩ : BufTy).Contents (Elt F) → (⟨S300000, .i32⟩ : BufTy).Contents (Elt F)),
    ternary main_v175 main_v177 main_v1 main_v178 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v178 main_v179 (broadcastInDim S300000x1 ![0] bcast_S300000_S300000x1_0 : (⟨S300000, .i32⟩ : BufTy).Contents (Elt F) → (⟨S300000x1, .i32⟩ : BufTy).Contents (Elt F)),
    binary main_v173 main_v179 main_v180 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v180 main_v11 main_v181 (addf : (⟨S300000x256, .f32⟩ : BufTy).Contents (Elt F) → (⟨S300000x256, .f32⟩ : BufTy).Contents (Elt F) → (⟨S300000x256, .f32⟩ : BufTy).Contents (Elt F)),
    TRef.nullary main_call12.cst (constant S_ .f32 0x00000000#32),
    TRef.unary main_call12.cst main_call12.v0 (broadcastInDim S300000x256 ![] bcast_S_S300000x256),
    TRef.binary (.of main_v181 : TRef sig ⟨S300000x256, .f32⟩) main_call12.v0 main_call12.v1 maximumf,
    nullary main_cst_21 (constant S_ .f32 0x00000000#32),
    unary main_cst_21 main_v183 (broadcastInDim S50000x256 ![] bcast_S_S50000x256 : (⟨S_, .f32⟩ : BufTy).Contents (Elt F) → (⟨S50000x256, .f32⟩ : BufTy).Contents (Elt F)),
    unary main_v3 main_v184 (broadcastInDim S300000x1 ![0] bcast_S300000_S300000x1_0 : (⟨S300000, .i32⟩ : BufTy).Contents (Elt F) → (⟨S300000x1, .i32⟩ : BufTy).Contents (Elt F)),
    ternary main_v183 main_v184 main_v182 main_v185 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v173 main_v185 main_v186 (addf : (⟨S50000x256, .f32⟩ : BufTy).Contents (Elt F) → (⟨S50000x256, .f32⟩ : BufTy).Contents (Elt F) → (⟨S50000x256, .f32⟩ : BufTy).Contents (Elt F)),
    unary main_arg8 main_v187 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v187 main_v188 rfl shapeCasts_S1x256x256_S256x256,
    binary main_v186 main_v188 main_v189 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v190 ((extractStridedSlice S1x256 ![3, 0] · slices_S4x256_S1x256_3_0) : (⟨S4x256, .f32⟩ : BufTy).Contents (Elt F) → (⟨S1x256, .f32⟩ : BufTy).Contents (Elt F)),
    reshape main_v190 main_v191 rfl shapeCasts_S1x256_S256,
    unary main_v191 main_v192 (broadcastInDim S1x256 ![1] bcast_S256_S1x256_1 : (⟨S256, .f32⟩ : BufTy).Contents (Elt F) → (⟨S1x256, .f32⟩ : BufTy).Contents (Elt F)),
    unary main_v192 main_v193 (broadcastInDim S50000x256 ![0, 1] bcast_S1x256_S50000x256_0_1 : (⟨S1x256, .f32⟩ : BufTy).Contents (Elt F) → (⟨S50000x256, .f32⟩ : BufTy).Contents (Elt F)),
    binary main_v189 main_v193 main_v194 (addf : (⟨S50000x256, .f32⟩ : BufTy).Contents (Elt F) → (⟨S50000x256, .f32⟩ : BufTy).Contents (Elt F) → (⟨S50000x256, .f32⟩ : BufTy).Contents (Elt F)),
    TRef.nullary main_call13.cst (constant S_ .f32 0x00000000#32),
    TRef.unary main_call13.cst main_call13.v0 (broadcastInDim S50000x256 ![] bcast_S_S50000x256),
    TRef.binary (.of main_v194 : TRef sig ⟨S50000x256, .f32⟩) main_call13.v0 main_call13.v1 maximumf,
    unary main_arg10 main_v196 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v196 main_v197 rfl shapeCasts_S1x256x256_S256x256,
    binary main_v195 main_v197 main_v198 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v199 ((extractStridedSlice S1x256 ![3, 0] · slices_S4x256_S1x256_3_0) : (⟨S4x256, .f32⟩ : BufTy).Contents (Elt F) → (⟨S1x256, .f32⟩ : BufTy).Contents (Elt F)),
    reshape main_v199 main_v200 rfl shapeCasts_S1x256_S256,
    unary main_v200 main_v201 (broadcastInDim S1x256 ![1] bcast_S256_S1x256_1 : (⟨S256, .f32⟩ : BufTy).Contents (Elt F) → (⟨S1x256, .f32⟩ : BufTy).Contents (Elt F)),
    unary main_v201 main_v202 (broadcastInDim S50000x256 ![0, 1] bcast_S1x256_S50000x256_0_1 : (⟨S1x256, .f32⟩ : BufTy).Contents (Elt F) → (⟨S50000x256, .f32⟩ : BufTy).Contents (Elt F)),
    binary main_v198 main_v202 main_v203 (addf : (⟨S50000x256, .f32⟩ : BufTy).Contents (Elt F) → (⟨S50000x256, .f32⟩ : BufTy).Contents (Elt F) → (⟨S50000x256, .f32⟩ : BufTy).Contents (Elt F)),
    nullary main_cst_22 (constant S_ .f32 0x00000000#32),
    binary main_v203 main_cst_22 main_v204 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_23 (constant S_ .f32 0x47435000#32),
    unary main_cst_23 main_v205 (broadcastInDim S256 ![] bcast_S_S256 : (⟨S_, .f32⟩ : BufTy).Contents (Elt F) → (⟨S256, .f32⟩ : BufTy).Contents (Elt F)),
    binary main_v204 main_v205 main_v206 (Host.divf : (⟨S256, .f32⟩ : BufTy).Contents (Elt F) → (⟨S256, .f32⟩ : BufTy).Contents (Elt F) → (⟨S256, .f32⟩ : BufTy).Contents (Elt F)),
    nullary main_c_24 (constantI S_ 32 0#32),
    TRef.nullary main_call14.cst (constant S_ .f32 0x00000000#32),
    TRef.binary (.of main_v203 : TRef sig ⟨S50000x256, .f32⟩) main_call14.cst main_call14.v0 (fun x v => Host.reduceAdd x v reducesTo_S50000x256_S256_d0 h_S_),
    TRef.unary main_call14.v0 main_call14.v1 (broadcastInDim S1x256 ![1] bcast_S256_S1x256_1),
    TRef.nullary main_call14.cst_0 (constant S_ .f32 0x47435000#32),
    TRef.unary main_call14.cst_0 main_call14.v2 (broadcastInDim S1x256 ![] bcast_S_S1x256),
    TRef.binary main_call14.v1 main_call14.v2 main_call14.v3 Host.divf,
    TRef.unary main_call14.v3 main_call14.v4 (broadcastInDim S50000x256 ![0, 1] bcast_S1x256_S50000x256_0_1),
    TRef.binary (.of main_v203 : TRef sig ⟨S50000x256, .f32⟩) main_call14.v4 main_call14.v5 subf,
    TRef.binary main_call14.v5 main_call14.v5 main_call14.v6 mulf,
    TRef.unary (.of main_c_24 : TRef sig ⟨S_, .i32⟩) main_call14.v7 (sitofp .f32),
    TRef.nullary main_call14.cst_1 (constant S_ .f32 0x47435000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S50000x256_S256_d0 h_S_),
    TRef.unary main_call14.v8 main_call14.v10 (broadcastInDim S256 ![] bcast_S_S256),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S256 ![] bcast_S_S256),
    TRef.ternary main_call14.v12 main_call14.v11 main_call14.call0.v1 main_call14.call0.v2 (fun p a b => select (broadcastInDim S256 ![] bcast_S_S256 p) a b),
    unary main_v206 main_v208 (broadcastInDim S1x256 ![1] bcast_S256_S1x256_1 : (⟨S256, .f32⟩ : BufTy).Contents (Elt F) → (⟨S1x256, .f32⟩ : BufTy).Contents (Elt F)),
    unary main_v208 main_v209 (broadcastInDim S50000x256 ![0, 1] bcast_S1x256_S50000x256_0_1 : (⟨S1x256, .f32⟩ : BufTy).Contents (Elt F) → (⟨S50000x256, .f32⟩ : BufTy).Contents (Elt F)),
    binary main_v203 main_v209 main_v210 (subf : (⟨S50000x256, .f32⟩ : BufTy).Contents (Elt F) → (⟨S50000x256, .f32⟩ : BufTy).Contents (Elt F) → (⟨S50000x256, .f32⟩ : BufTy).Contents (Elt F)),
    nullary main_cst_25 (constant S_ .f32 0x3727C5AC#32),
    unary main_cst_25 main_v211 (broadcastInDim S256 ![] bcast_S_S256 : (⟨S_, .f32⟩ : BufTy).Contents (Elt F) → (⟨S256, .f32⟩ : BufTy).Contents (Elt F)),
    binary main_v207 main_v211 main_v212 (addf : (⟨S256, .f32⟩ : BufTy).Contents (Elt F) → (⟨S256, .f32⟩ : BufTy).Contents (Elt F) → (⟨S256, .f32⟩ : BufTy).Contents (Elt F)),
    unary main_v212 main_v213 (Host.rsqrt : (⟨S256, .f32⟩ : BufTy).Contents (Elt F) → (⟨S256, .f32⟩ : BufTy).Contents (Elt F)),
    unary main_v213 main_v214 (broadcastInDim S1x256 ![1] bcast_S256_S1x256_1 : (⟨S256, .f32⟩ : BufTy).Contents (Elt F) → (⟨S1x256, .f32⟩ : BufTy).Contents (Elt F)),
    unary main_v214 main_v215 (broadcastInDim S50000x256 ![0, 1] bcast_S1x256_S50000x256_0_1 : (⟨S1x256, .f32⟩ : BufTy).Contents (Elt F) → (⟨S50000x256, .f32⟩ : BufTy).Contents (Elt F)),
    binary main_v210 main_v215 main_v216 (mulf : (⟨S50000x256, .f32⟩ : BufTy).Contents (Elt F) → (⟨S50000x256, .f32⟩ : BufTy).Contents (Elt F) → (⟨S50000x256, .f32⟩ : BufTy).Contents (Elt F)),
    unary main_arg12 main_v217 ((extractStridedSlice S1x256 ![3, 0] · slices_S4x256_S1x256_3_0) : (⟨S4x256, .f32⟩ : BufTy).Contents (Elt F) → (⟨S1x256, .f32⟩ : BufTy).Contents (Elt F)),
    reshape main_v217 main_v218 rfl shapeCasts_S1x256_S256,
    unary main_v218 main_v219 (broadcastInDim S1x256 ![1] bcast_S256_S1x256_1 : (⟨S256, .f32⟩ : BufTy).Contents (Elt F) → (⟨S1x256, .f32⟩ : BufTy).Contents (Elt F)),
    unary main_v219 main_v220 (broadcastInDim S50000x256 ![0, 1] bcast_S1x256_S50000x256_0_1 : (⟨S1x256, .f32⟩ : BufTy).Contents (Elt F) → (⟨S50000x256, .f32⟩ : BufTy).Contents (Elt F)),
    binary main_v216 main_v220 main_v221 (mulf : (⟨S50000x256, .f32⟩ : BufTy).Contents (Elt F) → (⟨S50000x256, .f32⟩ : BufTy).Contents (Elt F) → (⟨S50000x256, .f32⟩ : BufTy).Contents (Elt F)),
    unary main_arg13 main_v222 ((extractStridedSlice S1x256 ![3, 0] · slices_S4x256_S1x256_3_0) : (⟨S4x256, .f32⟩ : BufTy).Contents (Elt F) → (⟨S1x256, .f32⟩ : BufTy).Contents (Elt F)),
    reshape main_v222 main_v223 rfl shapeCasts_S1x256_S256,
    unary main_v223 main_v224 (broadcastInDim S1x256 ![1] bcast_S256_S1x256_1 : (⟨S256, .f32⟩ : BufTy).Contents (Elt F) → (⟨S1x256, .f32⟩ : BufTy).Contents (Elt F)),
    unary main_v224 main_v225 (broadcastInDim S50000x256 ![0, 1] bcast_S1x256_S50000x256_0_1 : (⟨S1x256, .f32⟩ : BufTy).Contents (Elt F) → (⟨S50000x256, .f32⟩ : BufTy).Contents (Elt F)),
    binary main_v221 main_v225 main_v226 (addf : (⟨S50000x256, .f32⟩ : BufTy).Contents (Elt F) → (⟨S50000x256, .f32⟩ : BufTy).Contents (Elt F) → (⟨S50000x256, .f32⟩ : BufTy).Contents (Elt F)),
    TRef.nullary main_call15.cst (constant S_ .f32 0x00000000#32),
    TRef.unary main_call15.cst main_call15.v0 (broadcastInDim S50000x256 ![] bcast_S_S50000x256),
    TRef.binary (.of main_v226 : TRef sig ⟨S50000x256, .f32⟩) main_call15.v0 main_call15.v1 maximumf ]

abbrev opsT : List (HloOp τ sig (Elt F)) :=
  [ nullary main_cst_26 (constant S_ .f32 0x00000000#32),
    unary main_cst_26 main_v228 (broadcastInDim S128x256 ![] bcast_S_S128x256 : (⟨S_, .f32⟩ : BufTy).Contents (Elt F) → (⟨S128x256, .f32⟩ : BufTy).Contents (Elt F)),
    unary main_arg2 main_v229 (broadcastInDim S50000x1 ![0] bcast_S50000_S50000x1_0 : (⟨S50000, .i32⟩ : BufTy).Contents (Elt F) → (⟨S50000x1, .i32⟩ : BufTy).Contents (Elt F)),
    ternary main_v228 main_v229 main_v227 main_v230 ((fun x i u => Host.scatterAdd scatter_S128x256_S50000x1_S50000x256_1_0_0_1 x i u) : (⟨S128x256, .f32⟩ : BufTy).Contents (Elt F) → (⟨S50000x1, .i32⟩ : BufTy).Contents (Elt F) → (⟨S50000x256, .f32⟩ : BufTy).Contents (Elt F) → (⟨S128x256, .f32⟩ : BufTy).Contents (Elt F)),
    binary main_v230 main_arg14 main_v231 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg15 main_v232 (broadcastInDim S1x128 ![1] bcast_S128_S1x128_1 : (⟨S128, .f32⟩ : BufTy).Contents (Elt F) → (⟨S1x128, .f32⟩ : BufTy).Contents (Elt F)),
    unary main_v232 main_v233 (broadcastInDim S128x128 ![0, 1] bcast_S1x128_S128x128_0_1 : (⟨S1x128, .f32⟩ : BufTy).Contents (Elt F) → (⟨S128x128, .f32⟩ : BufTy).Contents (Elt F)),
    binary main_v231 main_v233 main_v234 (addf : (⟨S128x128, .f32⟩ : BufTy).Contents (Elt F) → (⟨S128x128, .f32⟩ : BufTy).Contents (Elt F) → (⟨S128x128, .f32⟩ : BufTy).Contents (Elt F)),
    TRef.nullary main_call16.cst (constant S_ .f32 0x00000000#32),
    TRef.unary main_call16.cst main_call16.v0 (broadcastInDim S128x128 ![] bcast_S_S128x128),
    TRef.binary (.of main_v234 : TRef sig ⟨S128x128, .f32⟩) main_call16.v0 main_call16.v1 maximumf,
    binary main_v235 main_arg16 main_v236 ((fun l r => Host.dotGeneral dot_S128x128_S128x12_S128x12_1_0_0_1_n_n none l r) : (⟨S128x128, .f32⟩ : BufTy).Contents (Elt F) → (⟨S128x12, .f32⟩ : BufTy).Contents (Elt F) → (⟨S128x12, .f32⟩ : BufTy).Contents (Elt F)),
    unary main_arg17 main_v237 (broadcastInDim S1x12 ![1] bcast_S12_S1x12_1 : (⟨S12, .f32⟩ : BufTy).Contents (Elt F) → (⟨S1x12, .f32⟩ : BufTy).Contents (Elt F)),
    unary main_v237 main_v238 (broadcastInDim S128x12 ![0, 1] bcast_S1x12_S128x12_0_1 : (⟨S1x12, .f32⟩ : BufTy).Contents (Elt F) → (⟨S128x12, .f32⟩ : BufTy).Contents (Elt F)),
    binary main_v236 main_v238 main_v239 (addf : (⟨S128x12, .f32⟩ : BufTy).Contents (Elt F) → (⟨S128x12, .f32⟩ : BufTy).Contents (Elt F) → (⟨S128x12, .f32⟩ : BufTy).Contents (Elt F)) ]

abbrev ops : List (HloOp τ sig (Elt F)) := opsA ++ opsL0 ++ opsL1 ++ opsL2 ++ opsL3 ++ opsT

def win0 : List (HloOp τ sig (Elt F)) :=
  [ unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    binary main_arg0 main_arg4 main_v4 ((fun l r => Host.dotGeneral dot_S50000x32_S32x256_S50000x256_1_0_0_1_n_n none l r) : (⟨S50000x32, .f32⟩ : BufTy).Contents (Elt F) → (⟨S32x256, .f32⟩ : BufTy).Contents (Elt F) → (⟨S50000x256, .f32⟩ : BufTy).Contents (Elt F)),
    unary main_arg5 main_v5 (broadcastInDim S1x256 ![1] bcast_S256_S1x256_1 : (⟨S256, .f32⟩ : BufTy).Contents (Elt F) → (⟨S1x256, .f32⟩ : BufTy).Contents (Elt F)),
    unary main_v5 main_v6 (broadcastInDim S50000x256 ![0, 1] bcast_S1x256_S50000x256_0_1 : (⟨S1x256, .f32⟩ : BufTy).Contents (Elt F) → (⟨S50000x256, .f32⟩ : BufTy).Contents (Elt F)),
    binary main_v4 main_v6 main_v7 (addf : (⟨S50000x256, .f32⟩ : BufTy).Contents (Elt F) → (⟨S50000x256, .f32⟩ : BufTy).Contents (Elt F) → (⟨S50000x256, .f32⟩ : BufTy).Contents (Elt F)),
    binary main_arg3 main_arg6 main_v8 ((fun l r => Host.dotGeneral dot_S300000x16_S16x256_S300000x256_1_0_0_1_n_n none l r) : (⟨S300000x16, .f32⟩ : BufTy).Contents (Elt F) → (⟨S16x256, .f32⟩ : BufTy).Contents (Elt F) → (⟨S300000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S300000x256 ![0, 1] bcast_S1x256_S300000x256_0_1 : (⟨S1x256, .f32⟩ : BufTy).Contents (Elt F) → (⟨S300000x256, .f32⟩ : BufTy).Contents (Elt F)),
    binary main_v8 main_v10 main_v11 (addf : (⟨S300000x256, .f32⟩ : BufTy).Contents (Elt F) → (⟨S300000x256, .f32⟩ : BufTy).Contents (Elt F) → (⟨S300000x256, .f32⟩ : BufTy).Contents (Elt F)),
    nullary main_c (constantI S_ 32 0#32),
    unary main_c main_v12 (broadcastInDim S300000 ![] bcast_S_S300000 : (⟨S_, .i32⟩ : BufTy).Contents (Elt F) → (⟨S300000, .i32⟩ : BufTy).Contents (Elt F)),
    binary main_v1 main_v12 main_v13 (cmpi .slt : (⟨S300000, .i32⟩ : BufTy).Contents (Elt F) → (⟨S300000, .i32⟩ : BufTy).Contents (Elt F) → (⟨S300000, .i1⟩ : BufTy).Contents (Elt F)),
    nullary main_c_0 (constantI S_ 32 50000#32),
    unary main_c_0 main_v14 (broadcastInDim S300000 ![] bcast_S_S300000 : (⟨S_, .i32⟩ : BufTy).Contents (Elt F) → (⟨S300000, .i32⟩ : BufTy).Contents (Elt F)),
    binary main_v1 main_v14 main_v15 (addi : (⟨S300000, .i32⟩ : BufTy).Contents (Elt F) → (⟨S300000, .i32⟩ : BufTy).Contents (Elt F) → (⟨S300000, .i32⟩ : BufTy).Contents (Elt F)),
    ternary main_v13 main_v15 main_v1 main_v16 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v16 main_v17 (broadcastInDim S300000x1 ![0] bcast_S300000_S300000x1_0 : (⟨S300000, .i32⟩ : BufTy).Contents (Elt F) → (⟨S300000x1, .i32⟩ : BufTy).Contents (Elt F)),
    binary main_v7 main_v17 main_v18 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v18 main_v11 main_v19 (addf : (⟨S300000x256, .f32⟩ : BufTy).Contents (Elt F) → (⟨S300000x256, .f32⟩ : BufTy).Contents (Elt F) → (⟨S300000x256, .f32⟩ : BufTy).Contents (Elt F)),
    TRef.nullary main_call0.cst (constant S_ .f32 0x00000000#32),
    TRef.unary main_call0.cst main_call0.v0 (broadcastInDim S300000x256 ![] bcast_S_S300000x256),
    TRef.binary (.of main_v19 : TRef sig ⟨S300000x256, .f32⟩) main_call0.v0 main_call0.v1 maximumf,
    nullary main_cst (constant S_ .f32 0x00000000#32),
    unary main_cst main_v21 (broadcastInDim S50000x256 ![] bcast_S_S50000x256 : (⟨S_, .f32⟩ : BufTy).Contents (Elt F) → (⟨S50000x256, .f32⟩ : BufTy).Contents (Elt F)),
    unary main_v3 main_v22 (broadcastInDim S300000x1 ![0] bcast_S300000_S300000x1_0 : (⟨S300000, .i32⟩ : BufTy).Contents (Elt F) → (⟨S300000x1, .i32⟩ : BufTy).Contents (Elt F)),
    ternary main_v21 main_v22 main_v20 main_v23 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v7 main_v23 main_v24 (addf : (⟨S50000x256, .f32⟩ : BufTy).Contents (Elt F) → (⟨S50000x256, .f32⟩ : BufTy).Contents (Elt F) → (⟨S50000x256, .f32⟩ : BufTy).Contents (Elt F)),
    unary main_arg8 main_v25 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v25 main_v26 rfl shapeCasts_S1x256x256_S256x256,
    binary main_v24 main_v26 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v28 ((extractStridedSlice S1x256 ![0, 0] · slices_S4x256_S1x256_0_0) : (⟨S4x256, .f32⟩ : BufTy).Contents (Elt F) → (⟨S1x256, .f32⟩ : BufTy).Contents (Elt F)),
    reshape main_v28 main_v29 rfl shapeCasts_S1x256_S256,
    unary main_v29 main_v30 (broadcastInDim S1x256 ![1] bcast_S256_S1x256_1 : (⟨S256, .f32⟩ : BufTy).Contents (Elt F) → (⟨S1x256, .f32⟩ : BufTy).Contents (Elt F)),
    unary main_v30 main_v31 (broadcastInDim S50000x256 ![0, 1] bcast_S1x256_S50000x256_0_1 : (⟨S1x256, .f32⟩ : BufTy).Contents (Elt F) → (⟨S50000x256, .f32⟩ : BufTy).Contents (Elt F)),
    binary main_v27 main_v31 main_v32 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v32 : TRef sig ⟨S50000x256, .f32⟩) main_call1.v0 main_call1.v1 maximumf,
    unary main_arg10 main_v34 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v34 main_v35 rfl shapeCasts_S1x256x256_S256x256,
    binary main_v33 main_v35 main_v36 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v37 ((extractStridedSlice S1x256 ![0, 0] · slices_S4x256_S1x256_0_0) : (⟨S4x256, .f32⟩ : BufTy).Contents (Elt F) → (⟨S1x256, .f32⟩ : BufTy).Contents (Elt F)),
    reshape main_v37 main_v38 rfl shapeCasts_S1x256_S256,
    unary main_v38 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v36 main_v40 main_v41 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v41 main_cst_1 main_v42 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v43 (broadcastInDim S256 ![] bcast_S_S256 : (⟨S_, .f32⟩ : BufTy).Contents (Elt F) → (⟨S256, .f32⟩ : BufTy).Contents (Elt F)),
    binary main_v42 main_v43 main_v44 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary main_call2.cst (constant S_ .f32 0x00000000#32),
    TRef.binary (.of main_v41 : TRef sig ⟨S50000x256, .f32⟩) main_call2.cst main_call2.v0 (fun x v => Host.reduceAdd x v reducesTo_S50000x256_S256_d0 h_S_),
    TRef.unary main_call2.v0 main_call2.v1 (broadcastInDim S1x256 ![1] bcast_S256_S1x256_1),
    TRef.nullary main_call2.cst_0 (constant S_ .f32 0x47435000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S50000x256 ![0, 1] bcast_S1x256_S50000x256_0_1),
    TRef.binary (.of main_v41 : TRef sig ⟨S50000x256, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v44 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v41 main_v47 main_v48 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v49 (broadcastInDim S256 ![] bcast_S_S256 : (⟨S_, .f32⟩ : BufTy).Contents (Elt F) → (⟨S256, .f32⟩ : BufTy).Contents (Elt F)),
    binary main_v45 main_v49 main_v50 (addf : (⟨S256, .f32⟩ : BufTy).Contents (Elt F) → (⟨S256, .f32⟩ : BufTy).Contents (Elt F) → (⟨S256, .f32⟩ : BufTy).Contents (Elt F)),
    unary main_v50 main_v51 (Host.rsqrt : (⟨S256, .f32⟩ : BufTy).Contents (Elt F) → (⟨S256, .f32⟩ : BufTy).Contents (Elt F)),
    unary main_v51 main_v52 (broadcastInDim S1x256 ![1] bcast_S256_S1x256_1 : (⟨S256, .f32⟩ : BufTy).Contents (Elt F) → (⟨S1x256, .f32⟩ : BufTy).Contents (Elt F)) ]

def win1 : List (HloOp τ sig (Elt F)) :=
  [ unary main_v52 main_v53 (broadcastInDim S50000x256 ![0, 1] bcast_S1x256_S50000x256_0_1 : (⟨S1x256, .f32⟩ : BufTy).Contents (Elt F) → (⟨S50000x256, .f32⟩ : BufTy).Contents (Elt F)),
    binary main_v48 main_v53 main_v54 (mulf : (⟨S50000x256, .f32⟩ : BufTy).Contents (Elt F) → (⟨S50000x256, .f32⟩ : BufTy).Contents (Elt F) → (⟨S50000x256, .f32⟩ : BufTy).Contents (Elt F)),
    unary main_arg12 main_v55 ((extractStridedSlice S1x256 ![0, 0] · slices_S4x256_S1x256_0_0) : (⟨S4x256, .f32⟩ : BufTy).Contents (Elt F) → (⟨S1x256, .f32⟩ : BufTy).Contents (Elt F)),
    reshape main_v55 main_v56 rfl shapeCasts_S1x256_S256,
    unary main_v56 main_v57 (broadcastInDim S1x256 ![1] bcast_S256_S1x256_1 : (⟨S256, .f32⟩ : BufTy).Contents (Elt F) → (⟨S1x256, .f32⟩ : BufTy).Contents (Elt F)),
    unary main_v57 main_v58 (broadcastInDim S50000x256 ![0, 1] bcast_S1x256_S50000x256_0_1 : (⟨S1x256, .f32⟩ : BufTy).Contents (Elt F) → (⟨S50000x256, .f32⟩ : BufTy).Contents (Elt F)),
    binary main_v54 main_v58 main_v59 (mulf : (⟨S50000x256, .f32⟩ : BufTy).Contents (Elt F) → (⟨S50000x256, .f32⟩ : BufTy).Contents (Elt F) → (⟨S50000x256, .f32⟩ : BufTy).Contents (Elt F)),
    unary main_arg13 main_v60 ((extractStridedSlice S1x256 ![0, 0] · slices_S4x256_S1x256_0_0) : (⟨S4x256, .f32⟩ : BufTy).Contents (Elt F) → (⟨S1x256, .f32⟩ : BufTy).Contents (Elt F)),
    reshape main_v60 main_v61 rfl shapeCasts_S1x256_S256,
    unary main_v61 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v59 main_v63 main_v64 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (.of main_v64 : TRef sig ⟨S50000x256, .f32⟩) main_call3.v0 main_call3.v1 maximumf,
    nullary main_c_5 (constantI S_ 32 0#32),
    unary main_c_5 main_v66 (broadcastInDim S300000 ![] bcast_S_S300000 : (⟨S_, .i32⟩ : BufTy).Contents (Elt F) → (⟨S300000, .i32⟩ : BufTy).Contents (Elt F)),
    binary main_v1 main_v66 main_v67 (cmpi .slt : (⟨S300000, .i32⟩ : BufTy).Contents (Elt F) → (⟨S300000, .i32⟩ : BufTy).Contents (Elt F) → (⟨S300000, .i1⟩ : BufTy).Contents (Elt F)),
    nullary main_c_6 (constantI S_ 32 50000#32),
    unary main_c_6 main_v68 (broadcastInDim S300000 ![] bcast_S_S300000 : (⟨S_, .i32⟩ : BufTy).Contents (Elt F) → (⟨S300000, .i32⟩ : BufTy).Contents (Elt F)),
    binary main_v1 main_v68 main_v69 (addi : (⟨S300000, .i32⟩ : BufTy).Contents (Elt F) → (⟨S300000, .i32⟩ : BufTy).Contents (Elt F) → (⟨S300000, .i32⟩ : BufTy).Contents (Elt F)),
    ternary main_v67 main_v69 main_v1 main_v70 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v70 main_v71 (broadcastInDim S300000x1 ![0] bcast_S300000_S300000x1_0 : (⟨S300000, .i32⟩ : BufTy).Contents (Elt F) → (⟨S300000x1, .i32⟩ : BufTy).Contents (Elt F)),
    binary main_v65 main_v71 main_v72 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v72 main_v11 main_v73 (addf : (⟨S300000x256, .f32⟩ : BufTy).Contents (Elt F) → (⟨S300000x256, .f32⟩ : BufTy).Contents (Elt F) → (⟨S300000x256, .f32⟩ : BufTy).Contents (Elt F)),
    TRef.nullary main_call4.cst (constant S_ .f32 0x00000000#32),
    TRef.unary main_call4.cst main_call4.v0 (broadcastInDim S300000x256 ![] bcast_S_S300000x256),
    TRef.binary (.of main_v73 : TRef sig ⟨S300000x256, .f32⟩) main_call4.v0 main_call4.v1 maximumf,
    nullary main_cst_7 (constant S_ .f32 0x00000000#32),
    unary main_cst_7 main_v75 (broadcastInDim S50000x256 ![] bcast_S_S50000x256 : (⟨S_, .f32⟩ : BufTy).Contents (Elt F) → (⟨S50000x256, .f32⟩ : BufTy).Contents (Elt F)),
    unary main_v3 main_v76 (broadcastInDim S300000x1 ![0] bcast_S300000_S300000x1_0 : (⟨S300000, .i32⟩ : BufTy).Contents (Elt F) → (⟨S300000x1, .i32⟩ : BufTy).Contents (Elt F)),
    ternary main_v75 main_v76 main_v74 main_v77 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v65 main_v77 main_v78 (addf : (⟨S50000x256, .f32⟩ : BufTy).Contents (Elt F) → (⟨S50000x256, .f32⟩ : BufTy).Contents (Elt F) → (⟨S50000x256, .f32⟩ : BufTy).Contents (Elt F)),
    unary main_arg8 main_v79 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v79 main_v80 rfl shapeCasts_S1x256x256_S256x256,
    binary main_v78 main_v80 main_v81 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v82 ((extractStridedSlice S1x256 ![1, 0] · slices_S4x256_S1x256_1_0) : (⟨S4x256, .f32⟩ : BufTy).Contents (Elt F) → (⟨S1x256, .f32⟩ : BufTy).Contents (Elt F)),
    reshape main_v82 main_v83 rfl shapeCasts_S1x256_S256,
    unary main_v83 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v81 main_v85 main_v86 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v86 : TRef sig ⟨S50000x256, .f32⟩) main_call5.v0 main_call5.v1 maximumf,
    unary main_arg10 main_v88 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v88 main_v89 rfl shapeCasts_S1x256x256_S256x256,
    binary main_v87 main_v89 main_v90 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v91 ((extractStridedSlice S1x256 ![1, 0] · slices_S4x256_S1x256_1_0) : (⟨S4x256, .f32⟩ : BufTy).Contents (Elt F) → (⟨S1x256, .f32⟩ : BufTy).Contents (Elt F)),
    reshape main_v91 main_v92 rfl shapeCasts_S1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v90 main_v94 main_v95 (addf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v95 main_cst_8 main_v96 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_9 (constant S_ .f32 0x47435000#32),
    unary main_cst_9 main_v97 (broadcastInDim S256 ![] bcast_S_S256 : (⟨S_, .f32⟩ : BufTy).Contents (Elt F) → (⟨S256, .f32⟩ : BufTy).Contents (Elt F)),
    binary main_v96 main_v97 main_v98 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    TRef.nullary main_call6.cst (constant S_ .f32 0x00000000#32),
    TRef.binary (.of main_v95 : TRef sig ⟨S50000x256, .f32⟩) main_call6.cst main_call6.v0 (fun x v => Host.reduceAdd x v reducesTo_S50000x256_S256_d0 h_S_),
    TRef.unary main_call6.v0 main_call6.v1 (broadcastInDim S1x256 ![1] bcast_S256_S1x256_1),
    TRef.nullary main_call6.cst_0 (constant S_ .f32 0x47435000#32),
    TRef.unary main_call6.cst_0 main_call6.v2 (broadcastInDim S1x256 ![] bcast_S_S1x256),
    TRef.binary main_call6.v1 main_call6.v2 main_call6.v3 Host.divf,
    TRef.unary main_call6.v3 main_call6.v4 (broadcastInDim S50000x256 ![0, 1] bcast_S1x256_S50000x256_0_1),
    TRef.binary (.of main_v95 : TRef sig ⟨S50000x256, .f32⟩) main_call6.v4 main_call6.v5 subf,
    TRef.binary main_call6.v5 main_call6.v5 main_call6.v6 mulf,
    TRef.unary (.of main_c_10 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x256_S256_d0 h_S_),
    TRef.unary main_call6.v8 main_call6.v10 (broadcastInDim S256 ![] bcast_S_S256),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S256 ![] bcast_S_S256),
    TRef.ternary main_call6.v12 main_call6.v11 main_call6.call0.v1 main_call6.call0.v2 (fun p a b => select (broadcastInDim S256 ![] bcast_S_S256 p) a b),
    unary main_v98 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v95 main_v101 main_v102 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v103 (broadcastInDim S256 ![] bcast_S_S256 : (⟨S_, .f32⟩ : BufTy).Contents (Elt F) → (⟨S256, .f32⟩ : BufTy).Contents (Elt F)),
    binary main_v99 main_v103 main_v104 (addf : (⟨S256, .f32⟩ : BufTy).Contents (Elt F) → (⟨S256, .f32⟩ : BufTy).Contents (Elt F) → (⟨S256, .f32⟩ : BufTy).Contents (Elt F)),
    unary main_v104 main_v105 (Host.rsqrt : (⟨S256, .f32⟩ : BufTy).Contents (Elt F) → (⟨S256, .f32⟩ : BufTy).Contents (Elt F)) ]

def win2 : List (HloOp τ sig (Elt F)) :=
  [ unary main_v105 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v102 main_v107 main_v108 (mulf : (⟨S50000x256, .f32⟩ : BufTy).Contents (Elt F) → (⟨S50000x256, .f32⟩ : BufTy).Contents (Elt F) → (⟨S50000x256, .f32⟩ : BufTy).Contents (Elt F)),
    unary main_arg12 main_v109 ((extractStridedSlice S1x256 ![1, 0] · slices_S4x256_S1x256_1_0) : (⟨S4x256, .f32⟩ : BufTy).Contents (Elt F) → (⟨S1x256, .f32⟩ : BufTy).Contents (Elt F)),
    reshape main_v109 main_v110 rfl shapeCasts_S1x256_S256,
    unary main_v110 main_v111 (broadcastInDim S1x256 ![1] bcast_S256_S1x256_1 : (⟨S256, .f32⟩ : BufTy).Contents (Elt F) → (⟨S1x256, .f32⟩ : BufTy).Contents (Elt F)),
    unary main_v111 main_v112 (broadcastInDim S50000x256 ![0, 1] bcast_S1x256_S50000x256_0_1 : (⟨S1x256, .f32⟩ : BufTy).Contents (Elt F) → (⟨S50000x256, .f32⟩ : BufTy).Contents (Elt F)),
    binary main_v108 main_v112 main_v113 (mulf : (⟨S50000x256, .f32⟩ : BufTy).Contents (Elt F) → (⟨S50000x256, .f32⟩ : BufTy).Contents (Elt F) → (⟨S50000x256, .f32⟩ : BufTy).Contents (Elt F)),
    unary main_arg13 main_v114 ((extractStridedSlice S1x256 ![1, 0] · slices_S4x256_S1x256_1_0) : (⟨S4x256, .f32⟩ : BufTy).Contents (Elt F) → (⟨S1x256, .f32⟩ : BufTy).Contents (Elt F)),
    reshape main_v114 main_v115 rfl shapeCasts_S1x256_S256,
    unary main_v115 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v113 main_v117 main_v118 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v118 : TRef sig ⟨S50000x256, .f32⟩) main_call7.v0 main_call7.v1 maximumf,
    nullary main_c_12 (constantI S_ 32 0#32),
    unary main_c_12 main_v120 (broadcastInDim S300000 ![] bcast_S_S300000 : (⟨S_, .i32⟩ : BufTy).Contents (Elt F) → (⟨S300000, .i32⟩ : BufTy).Contents (Elt F)),
    binary main_v1 main_v120 main_v121 (cmpi .slt : (⟨S300000, .i32⟩ : BufTy).Contents (Elt F) → (⟨S300000, .i32⟩ : BufTy).Contents (Elt F) → (⟨S300000, .i1⟩ : BufTy).Contents (Elt F)),
    nullary main_c_13 (constantI S_ 32 50000#32),
    unary main_c_13 main_v122 (broadcastInDim S300000 ![] bcast_S_S300000 : (⟨S_, .i32⟩ : BufTy).Contents (Elt F) → (⟨S300000, .i32⟩ : BufTy).Contents (Elt F)),
    binary main_v1 main_v122 main_v123 (addi : (⟨S300000, .i32⟩ : BufTy).Contents (Elt F) → (⟨S300000, .i32⟩ : BufTy).Contents (Elt F) → (⟨S300000, .i32⟩ : BufTy).Contents (Elt F)),
    ternary main_v121 main_v123 main_v1 main_v124 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v124 main_v125 (broadcastInDim S300000x1 ![0] bcast_S300000_S300000x1_0 : (⟨S300000, .i32⟩ : BufTy).Contents (Elt F) → (⟨S300000x1, .i32⟩ : BufTy).Contents (Elt F)),
    binary main_v119 main_v125 main_v126 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v126 main_v11 main_v127 (addf : (⟨S300000x256, .f32⟩ : BufTy).Contents (Elt F) → (⟨S300000x256, .f32⟩ : BufTy).Contents (Elt F) → (⟨S300000x256, .f32⟩ : BufTy).Contents (Elt F)),
    TRef.nullary main_call8.cst (constant S_ .f32 0x00000000#32),
    TRef.unary main_call8.cst main_call8.v0 (broadcastInDim S300000x256 ![] bcast_S_S300000x256),
    TRef.binary (.of main_v127 : TRef sig ⟨S300000x256, .f32⟩) main_call8.v0 main_call8.v1 maximumf,
    nullary main_cst_14 (constant S_ .f32 0x00000000#32),
    unary main_cst_14 main_v129 (broadcastInDim S50000x256 ![] bcast_S_S50000x256 : (⟨S_, .f32⟩ : BufTy).Contents (Elt F) → (⟨S50000x256, .f32⟩ : BufTy).Contents (Elt F)),
    unary main_v3 main_v130 (broadcastInDim S300000x1 ![0] bcast_S300000_S300000x1_0 : (⟨S300000, .i32⟩ : BufTy).Contents (Elt F) → (⟨S300000x1, .i32⟩ : BufTy).Contents (Elt F)),
    ternary main_v129 main_v130 main_v128 main_v131 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v119 main_v131 main_v132 (addf : (⟨S50000x256, .f32⟩ : BufTy).Contents (Elt F) → (⟨S50000x256, .f32⟩ : BufTy).Contents (Elt F) → (⟨S50000x256, .f32⟩ : BufTy).Contents (Elt F)),
    unary main_arg8 main_v133 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v133 main_v134 rfl shapeCasts_S1x256x256_S256x256,
    binary main_v132 main_v134 main_v135 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v136 ((extractStridedSlice S1x256 ![2, 0] · slices_S4x256_S1x256_2_0) : (⟨S4x256, .f32⟩ : BufTy).Contents (Elt F) → (⟨S1x256, .f32⟩ : BufTy).Contents (Elt F)),
    reshape main_v136 main_v137 rfl shapeCasts_S1x256_S256,
    unary main_v137 main_v138 (broadcastInDim S1x256 ![1] bcast_S256_S1x256_1 : (⟨S256, .f32⟩ : BufTy).Contents (Elt F) → (⟨S1x256, .f32⟩ : BufTy).Contents (Elt F)),
    unary main_v138 main_v139 (broadcastInDim S50000x256 ![0, 1] bcast_S1x256_S50000x256_0_1 : (⟨S1x256, .f32⟩ : BufTy).Contents (Elt F) → (⟨S50000x256, .f32⟩ : BufTy).Contents (Elt F)),
    binary main_v135 main_v139 main_v140 (addf : (⟨S50000x256, .f32⟩ : BufTy).Contents (Elt F) → (⟨S50000x256, .f32⟩ : BufTy).Contents (Elt F) → (⟨S50000x256, .f32⟩ : BufTy).Contents (Elt F)),
    TRef.nullary main_call9.cst (constant S_ .f32 0x00000000#32),
    TRef.unary main_call9.cst main_call9.v0 (broadcastInDim S50000x256 ![] bcast_S_S50000x256),
    TRef.binary (.of main_v140 : TRef sig ⟨S50000x256, .f32⟩) main_call9.v0 main_call9.v1 maximumf,
    unary main_arg10 main_v142 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v142 main_v143 rfl shapeCasts_S1x256x256_S256x256,
    binary main_v141 main_v143 main_v144 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v145 ((extractStridedSlice S1x256 ![2, 0] · slices_S4x256_S1x256_2_0) : (⟨S4x256, .f32⟩ : BufTy).Contents (Elt F) → (⟨S1x256, .f32⟩ : BufTy).Contents (Elt F)),
    reshape main_v145 main_v146 rfl shapeCasts_S1x256_S256,
    unary main_v146 main_v147 (broadcastInDim S1x256 ![1] bcast_S256_S1x256_1 : (⟨S256, .f32⟩ : BufTy).Contents (Elt F) → (⟨S1x256, .f32⟩ : BufTy).Contents (Elt F)),
    unary main_v147 main_v148 (broadcastInDim S50000x256 ![0, 1] bcast_S1x256_S50000x256_0_1 : (⟨S1x256, .f32⟩ : BufTy).Contents (Elt F) → (⟨S50000x256, .f32⟩ : BufTy).Contents (Elt F)),
    binary main_v144 main_v148 main_v149 (addf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x00000000#32),
    binary main_v149 main_cst_15 main_v150 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_16 (constant S_ .f32 0x47435000#32),
    unary main_cst_16 main_v151 (broadcastInDim S256 ![] bcast_S_S256 : (⟨S_, .f32⟩ : BufTy).Contents (Elt F) → (⟨S256, .f32⟩ : BufTy).Contents (Elt F)),
    binary main_v150 main_v151 main_v152 (Host.divf : (⟨S256, .f32⟩ : BufTy).Contents (Elt F) → (⟨S256, .f32⟩ : BufTy).Contents (Elt F) → (⟨S256, .f32⟩ : BufTy).Contents (Elt F)),
    nullary main_c_17 (constantI S_ 32 0#32),
    TRef.nullary main_call10.cst (constant S_ .f32 0x00000000#32),
    TRef.binary (.of main_v149 : TRef sig ⟨S50000x256, .f32⟩) main_call10.cst main_call10.v0 (fun x v => Host.reduceAdd x v reducesTo_S50000x256_S256_d0 h_S_),
    TRef.unary main_call10.v0 main_call10.v1 (broadcastInDim S1x256 ![1] bcast_S256_S1x256_1),
    TRef.nullary main_call10.cst_0 (constant S_ .f32 0x47435000#32),
    TRef.unary main_call10.cst_0 main_call10.v2 (broadcastInDim S1x256 ![] bcast_S_S1x256),
    TRef.binary main_call10.v1 main_call10.v2 main_call10.v3 Host.divf,
    TRef.unary main_call10.v3 main_call10.v4 (broadcastInDim S50000x256 ![0, 1] bcast_S1x256_S50000x256_0_1),
    TRef.binary (.of main_v149 : TRef sig ⟨S50000x256, .f32⟩) main_call10.v4 main_call10.v5 subf,
    TRef.binary main_call10.v5 main_call10.v5 main_call10.v6 mulf,
    TRef.unary (.of main_c_17 : TRef sig ⟨S_, .i32⟩) main_call10.v7 (sitofp .f32),
    TRef.nullary main_call10.cst_1 (constant S_ .f32 0x47435000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S50000x256_S256_d0 h_S_),
    TRef.unary main_call10.v8 main_call10.v10 (broadcastInDim S256 ![] bcast_S_S256),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S256 ![] bcast_S_S256),
    TRef.ternary main_call10.v12 main_call10.v11 main_call10.call0.v1 main_call10.call0.v2 (fun p a b => select (broadcastInDim S256 ![] bcast_S_S256 p) a b),
    unary main_v152 main_v154 (broadcastInDim S1x256 ![1] bcast_S256_S1x256_1 : (⟨S256, .f32⟩ : BufTy).Contents (Elt F) → (⟨S1x256, .f32⟩ : BufTy).Contents (Elt F)),
    unary main_v154 main_v155 (broadcastInDim S50000x256 ![0, 1] bcast_S1x256_S50000x256_0_1 : (⟨S1x256, .f32⟩ : BufTy).Contents (Elt F) → (⟨S50000x256, .f32⟩ : BufTy).Contents (Elt F)),
    binary main_v149 main_v155 main_v156 (subf : (⟨S50000x256, .f32⟩ : BufTy).Contents (Elt F) → (⟨S50000x256, .f32⟩ : BufTy).Contents (Elt F) → (⟨S50000x256, .f32⟩ : BufTy).Contents (Elt F)),
    nullary main_cst_18 (constant S_ .f32 0x3727C5AC#32),
    unary main_cst_18 main_v157 (broadcastInDim S256 ![] bcast_S_S256 : (⟨S_, .f32⟩ : BufTy).Contents (Elt F) → (⟨S256, .f32⟩ : BufTy).Contents (Elt F)),
    binary main_v153 main_v157 main_v158 (addf : (⟨S256, .f32⟩ : BufTy).Contents (Elt F) → (⟨S256, .f32⟩ : BufTy).Contents (Elt F) → (⟨S256, .f32⟩ : BufTy).Contents (Elt F)) ]

def win3 : List (HloOp τ sig (Elt F)) :=
  [ unary main_v158 main_v159 (Host.rsqrt : (⟨S256, .f32⟩ : BufTy).Contents (Elt F) → (⟨S256, .f32⟩ : BufTy).Contents (Elt F)),
    unary main_v159 main_v160 (broadcastInDim S1x256 ![1] bcast_S256_S1x256_1 : (⟨S256, .f32⟩ : BufTy).Contents (Elt F) → (⟨S1x256, .f32⟩ : BufTy).Contents (Elt F)),
    unary main_v160 main_v161 (broadcastInDim S50000x256 ![0, 1] bcast_S1x256_S50000x256_0_1 : (⟨S1x256, .f32⟩ : BufTy).Contents (Elt F) → (⟨S50000x256, .f32⟩ : BufTy).Contents (Elt F)),
    binary main_v156 main_v161 main_v162 (mulf : (⟨S50000x256, .f32⟩ : BufTy).Contents (Elt F) → (⟨S50000x256, .f32⟩ : BufTy).Contents (Elt F) → (⟨S50000x256, .f32⟩ : BufTy).Contents (Elt F)),
    unary main_arg12 main_v163 ((extractStridedSlice S1x256 ![2, 0] · slices_S4x256_S1x256_2_0) : (⟨S4x256, .f32⟩ : BufTy).Contents (Elt F) → (⟨S1x256, .f32⟩ : BufTy).Contents (Elt F)),
    reshape main_v163 main_v164 rfl shapeCasts_S1x256_S256,
    unary main_v164 main_v165 (broadcastInDim S1x256 ![1] bcast_S256_S1x256_1 : (⟨S256, .f32⟩ : BufTy).Contents (Elt F) → (⟨S1x256, .f32⟩ : BufTy).Contents (Elt F)),
    unary main_v165 main_v166 (broadcastInDim S50000x256 ![0, 1] bcast_S1x256_S50000x256_0_1 : (⟨S1x256, .f32⟩ : BufTy).Contents (Elt F) → (⟨S50000x256, .f32⟩ : BufTy).Contents (Elt F)),
    binary main_v162 main_v166 main_v167 (mulf : (⟨S50000x256, .f32⟩ : BufTy).Contents (Elt F) → (⟨S50000x256, .f32⟩ : BufTy).Contents (Elt F) → (⟨S50000x256, .f32⟩ : BufTy).Contents (Elt F)),
    unary main_arg13 main_v168 ((extractStridedSlice S1x256 ![2, 0] · slices_S4x256_S1x256_2_0) : (⟨S4x256, .f32⟩ : BufTy).Contents (Elt F) → (⟨S1x256, .f32⟩ : BufTy).Contents (Elt F)),
    reshape main_v168 main_v169 rfl shapeCasts_S1x256_S256,
    unary main_v169 main_v170 (broadcastInDim S1x256 ![1] bcast_S256_S1x256_1 : (⟨S256, .f32⟩ : BufTy).Contents (Elt F) → (⟨S1x256, .f32⟩ : BufTy).Contents (Elt F)),
    unary main_v170 main_v171 (broadcastInDim S50000x256 ![0, 1] bcast_S1x256_S50000x256_0_1 : (⟨S1x256, .f32⟩ : BufTy).Contents (Elt F) → (⟨S50000x256, .f32⟩ : BufTy).Contents (Elt F)),
    binary main_v167 main_v171 main_v172 (addf : (⟨S50000x256, .f32⟩ : BufTy).Contents (Elt F) → (⟨S50000x256, .f32⟩ : BufTy).Contents (Elt F) → (⟨S50000x256, .f32⟩ : BufTy).Contents (Elt F)),
    TRef.nullary main_call11.cst (constant S_ .f32 0x00000000#32),
    TRef.unary main_call11.cst main_call11.v0 (broadcastInDim S50000x256 ![] bcast_S_S50000x256),
    TRef.binary (.of main_v172 : TRef sig ⟨S50000x256, .f32⟩) main_call11.v0 main_call11.v1 maximumf,
    nullary main_c_19 (constantI S_ 32 0#32),
    unary main_c_19 main_v174 (broadcastInDim S300000 ![] bcast_S_S300000 : (⟨S_, .i32⟩ : BufTy).Contents (Elt F) → (⟨S300000, .i32⟩ : BufTy).Contents (Elt F)),
    binary main_v1 main_v174 main_v175 (cmpi .slt : (⟨S300000, .i32⟩ : BufTy).Contents (Elt F) → (⟨S300000, .i32⟩ : BufTy).Contents (Elt F) → (⟨S300000, .i1⟩ : BufTy).Contents (Elt F)),
    nullary main_c_20 (constantI S_ 32 50000#32),
    unary main_c_20 main_v176 (broadcastInDim S300000 ![] bcast_S_S300000 : (⟨S_, .i32⟩ : BufTy).Contents (Elt F) → (⟨S300000, .i32⟩ : BufTy).Contents (Elt F)),
    binary main_v1 main_v176 main_v177 (addi : (⟨S300000, .i32⟩ : BufTy).Contents (Elt F) → (⟨S300000, .i32⟩ : BufTy).Contents (Elt F) → (⟨S300000, .i32⟩ : BufTy).Contents (Elt F)),
    ternary main_v175 main_v177 main_v1 main_v178 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v178 main_v179 (broadcastInDim S300000x1 ![0] bcast_S300000_S300000x1_0 : (⟨S300000, .i32⟩ : BufTy).Contents (Elt F) → (⟨S300000x1, .i32⟩ : BufTy).Contents (Elt F)),
    binary main_v173 main_v179 main_v180 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    binary main_v180 main_v11 main_v181 (addf : (⟨S300000x256, .f32⟩ : BufTy).Contents (Elt F) → (⟨S300000x256, .f32⟩ : BufTy).Contents (Elt F) → (⟨S300000x256, .f32⟩ : BufTy).Contents (Elt F)),
    TRef.nullary main_call12.cst (constant S_ .f32 0x00000000#32),
    TRef.unary main_call12.cst main_call12.v0 (broadcastInDim S300000x256 ![] bcast_S_S300000x256),
    TRef.binary (.of main_v181 : TRef sig ⟨S300000x256, .f32⟩) main_call12.v0 main_call12.v1 maximumf,
    nullary main_cst_21 (constant S_ .f32 0x00000000#32),
    unary main_cst_21 main_v183 (broadcastInDim S50000x256 ![] bcast_S_S50000x256 : (⟨S_, .f32⟩ : BufTy).Contents (Elt F) → (⟨S50000x256, .f32⟩ : BufTy).Contents (Elt F)),
    unary main_v3 main_v184 (broadcastInDim S300000x1 ![0] bcast_S300000_S300000x1_0 : (⟨S300000, .i32⟩ : BufTy).Contents (Elt F) → (⟨S300000x1, .i32⟩ : BufTy).Contents (Elt F)),
    ternary main_v183 main_v184 main_v182 main_v185 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    binary main_v173 main_v185 main_v186 (addf : (⟨S50000x256, .f32⟩ : BufTy).Contents (Elt F) → (⟨S50000x256, .f32⟩ : BufTy).Contents (Elt F) → (⟨S50000x256, .f32⟩ : BufTy).Contents (Elt F)),
    unary main_arg8 main_v187 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v187 main_v188 rfl shapeCasts_S1x256x256_S256x256,
    binary main_v186 main_v188 main_v189 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg9 main_v190 ((extractStridedSlice S1x256 ![3, 0] · slices_S4x256_S1x256_3_0) : (⟨S4x256, .f32⟩ : BufTy).Contents (Elt F) → (⟨S1x256, .f32⟩ : BufTy).Contents (Elt F)),
    reshape main_v190 main_v191 rfl shapeCasts_S1x256_S256,
    unary main_v191 main_v192 (broadcastInDim S1x256 ![1] bcast_S256_S1x256_1 : (⟨S256, .f32⟩ : BufTy).Contents (Elt F) → (⟨S1x256, .f32⟩ : BufTy).Contents (Elt F)),
    unary main_v192 main_v193 (broadcastInDim S50000x256 ![0, 1] bcast_S1x256_S50000x256_0_1 : (⟨S1x256, .f32⟩ : BufTy).Contents (Elt F) → (⟨S50000x256, .f32⟩ : BufTy).Contents (Elt F)),
    binary main_v189 main_v193 main_v194 (addf : (⟨S50000x256, .f32⟩ : BufTy).Contents (Elt F) → (⟨S50000x256, .f32⟩ : BufTy).Contents (Elt F) → (⟨S50000x256, .f32⟩ : BufTy).Contents (Elt F)),
    TRef.nullary main_call13.cst (constant S_ .f32 0x00000000#32),
    TRef.unary main_call13.cst main_call13.v0 (broadcastInDim S50000x256 ![] bcast_S_S50000x256),
    TRef.binary (.of main_v194 : TRef sig ⟨S50000x256, .f32⟩) main_call13.v0 main_call13.v1 maximumf,
    unary main_arg10 main_v196 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v196 main_v197 rfl shapeCasts_S1x256x256_S256x256,
    binary main_v195 main_v197 main_v198 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v199 ((extractStridedSlice S1x256 ![3, 0] · slices_S4x256_S1x256_3_0) : (⟨S4x256, .f32⟩ : BufTy).Contents (Elt F) → (⟨S1x256, .f32⟩ : BufTy).Contents (Elt F)),
    reshape main_v199 main_v200 rfl shapeCasts_S1x256_S256,
    unary main_v200 main_v201 (broadcastInDim S1x256 ![1] bcast_S256_S1x256_1 : (⟨S256, .f32⟩ : BufTy).Contents (Elt F) → (⟨S1x256, .f32⟩ : BufTy).Contents (Elt F)),
    unary main_v201 main_v202 (broadcastInDim S50000x256 ![0, 1] bcast_S1x256_S50000x256_0_1 : (⟨S1x256, .f32⟩ : BufTy).Contents (Elt F) → (⟨S50000x256, .f32⟩ : BufTy).Contents (Elt F)),
    binary main_v198 main_v202 main_v203 (addf : (⟨S50000x256, .f32⟩ : BufTy).Contents (Elt F) → (⟨S50000x256, .f32⟩ : BufTy).Contents (Elt F) → (⟨S50000x256, .f32⟩ : BufTy).Contents (Elt F)),
    nullary main_cst_22 (constant S_ .f32 0x00000000#32),
    binary main_v203 main_cst_22 main_v204 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_23 (constant S_ .f32 0x47435000#32),
    unary main_cst_23 main_v205 (broadcastInDim S256 ![] bcast_S_S256 : (⟨S_, .f32⟩ : BufTy).Contents (Elt F) → (⟨S256, .f32⟩ : BufTy).Contents (Elt F)),
    binary main_v204 main_v205 main_v206 (Host.divf : (⟨S256, .f32⟩ : BufTy).Contents (Elt F) → (⟨S256, .f32⟩ : BufTy).Contents (Elt F) → (⟨S256, .f32⟩ : BufTy).Contents (Elt F)),
    nullary main_c_24 (constantI S_ 32 0#32),
    TRef.nullary main_call14.cst (constant S_ .f32 0x00000000#32),
    TRef.binary (.of main_v203 : TRef sig ⟨S50000x256, .f32⟩) main_call14.cst main_call14.v0 (fun x v => Host.reduceAdd x v reducesTo_S50000x256_S256_d0 h_S_),
    TRef.unary main_call14.v0 main_call14.v1 (broadcastInDim S1x256 ![1] bcast_S256_S1x256_1),
    TRef.nullary main_call14.cst_0 (constant S_ .f32 0x47435000#32),
    TRef.unary main_call14.cst_0 main_call14.v2 (broadcastInDim S1x256 ![] bcast_S_S1x256),
    TRef.binary main_call14.v1 main_call14.v2 main_call14.v3 Host.divf,
    TRef.unary main_call14.v3 main_call14.v4 (broadcastInDim S50000x256 ![0, 1] bcast_S1x256_S50000x256_0_1),
    TRef.binary (.of main_v203 : TRef sig ⟨S50000x256, .f32⟩) main_call14.v4 main_call14.v5 subf,
    TRef.binary main_call14.v5 main_call14.v5 main_call14.v6 mulf,
    TRef.unary (.of main_c_24 : TRef sig ⟨S_, .i32⟩) main_call14.v7 (sitofp .f32),
    TRef.nullary main_call14.cst_1 (constant S_ .f32 0x47435000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S50000x256_S256_d0 h_S_),
    TRef.unary main_call14.v8 main_call14.v10 (broadcastInDim S256 ![] bcast_S_S256),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S256 ![] bcast_S_S256),
    TRef.ternary main_call14.v12 main_call14.v11 main_call14.call0.v1 main_call14.call0.v2 (fun p a b => select (broadcastInDim S256 ![] bcast_S_S256 p) a b),
    unary main_v206 main_v208 (broadcastInDim S1x256 ![1] bcast_S256_S1x256_1 : (⟨S256, .f32⟩ : BufTy).Contents (Elt F) → (⟨S1x256, .f32⟩ : BufTy).Contents (Elt F)),
    unary main_v208 main_v209 (broadcastInDim S50000x256 ![0, 1] bcast_S1x256_S50000x256_0_1 : (⟨S1x256, .f32⟩ : BufTy).Contents (Elt F) → (⟨S50000x256, .f32⟩ : BufTy).Contents (Elt F)),
    binary main_v203 main_v209 main_v210 (subf : (⟨S50000x256, .f32⟩ : BufTy).Contents (Elt F) → (⟨S50000x256, .f32⟩ : BufTy).Contents (Elt F) → (⟨S50000x256, .f32⟩ : BufTy).Contents (Elt F)),
    nullary main_cst_25 (constant S_ .f32 0x3727C5AC#32),
    unary main_cst_25 main_v211 (broadcastInDim S256 ![] bcast_S_S256 : (⟨S_, .f32⟩ : BufTy).Contents (Elt F) → (⟨S256, .f32⟩ : BufTy).Contents (Elt F)) ]

def win4 : List (HloOp τ sig (Elt F)) :=
  [ binary main_v207 main_v211 main_v212 (addf : (⟨S256, .f32⟩ : BufTy).Contents (Elt F) → (⟨S256, .f32⟩ : BufTy).Contents (Elt F) → (⟨S256, .f32⟩ : BufTy).Contents (Elt F)),
    unary main_v212 main_v213 (Host.rsqrt : (⟨S256, .f32⟩ : BufTy).Contents (Elt F) → (⟨S256, .f32⟩ : BufTy).Contents (Elt F)),
    unary main_v213 main_v214 (broadcastInDim S1x256 ![1] bcast_S256_S1x256_1 : (⟨S256, .f32⟩ : BufTy).Contents (Elt F) → (⟨S1x256, .f32⟩ : BufTy).Contents (Elt F)),
    unary main_v214 main_v215 (broadcastInDim S50000x256 ![0, 1] bcast_S1x256_S50000x256_0_1 : (⟨S1x256, .f32⟩ : BufTy).Contents (Elt F) → (⟨S50000x256, .f32⟩ : BufTy).Contents (Elt F)),
    binary main_v210 main_v215 main_v216 (mulf : (⟨S50000x256, .f32⟩ : BufTy).Contents (Elt F) → (⟨S50000x256, .f32⟩ : BufTy).Contents (Elt F) → (⟨S50000x256, .f32⟩ : BufTy).Contents (Elt F)),
    unary main_arg12 main_v217 ((extractStridedSlice S1x256 ![3, 0] · slices_S4x256_S1x256_3_0) : (⟨S4x256, .f32⟩ : BufTy).Contents (Elt F) → (⟨S1x256, .f32⟩ : BufTy).Contents (Elt F)),
    reshape main_v217 main_v218 rfl shapeCasts_S1x256_S256,
    unary main_v218 main_v219 (broadcastInDim S1x256 ![1] bcast_S256_S1x256_1 : (⟨S256, .f32⟩ : BufTy).Contents (Elt F) → (⟨S1x256, .f32⟩ : BufTy).Contents (Elt F)),
    unary main_v219 main_v220 (broadcastInDim S50000x256 ![0, 1] bcast_S1x256_S50000x256_0_1 : (⟨S1x256, .f32⟩ : BufTy).Contents (Elt F) → (⟨S50000x256, .f32⟩ : BufTy).Contents (Elt F)),
    binary main_v216 main_v220 main_v221 (mulf : (⟨S50000x256, .f32⟩ : BufTy).Contents (Elt F) → (⟨S50000x256, .f32⟩ : BufTy).Contents (Elt F) → (⟨S50000x256, .f32⟩ : BufTy).Contents (Elt F)),
    unary main_arg13 main_v222 ((extractStridedSlice S1x256 ![3, 0] · slices_S4x256_S1x256_3_0) : (⟨S4x256, .f32⟩ : BufTy).Contents (Elt F) → (⟨S1x256, .f32⟩ : BufTy).Contents (Elt F)),
    reshape main_v222 main_v223 rfl shapeCasts_S1x256_S256,
    unary main_v223 main_v224 (broadcastInDim S1x256 ![1] bcast_S256_S1x256_1 : (⟨S256, .f32⟩ : BufTy).Contents (Elt F) → (⟨S1x256, .f32⟩ : BufTy).Contents (Elt F)),
    unary main_v224 main_v225 (broadcastInDim S50000x256 ![0, 1] bcast_S1x256_S50000x256_0_1 : (⟨S1x256, .f32⟩ : BufTy).Contents (Elt F) → (⟨S50000x256, .f32⟩ : BufTy).Contents (Elt F)),
    binary main_v221 main_v225 main_v226 (addf : (⟨S50000x256, .f32⟩ : BufTy).Contents (Elt F) → (⟨S50000x256, .f32⟩ : BufTy).Contents (Elt F) → (⟨S50000x256, .f32⟩ : BufTy).Contents (Elt F)),
    TRef.nullary main_call15.cst (constant S_ .f32 0x00000000#32),
    TRef.unary main_call15.cst main_call15.v0 (broadcastInDim S50000x256 ![] bcast_S_S50000x256),
    TRef.binary (.of main_v226 : TRef sig ⟨S50000x256, .f32⟩) main_call15.v0 main_call15.v1 maximumf,
    nullary main_cst_26 (constant S_ .f32 0x00000000#32),
    unary main_cst_26 main_v228 (broadcastInDim S128x256 ![] bcast_S_S128x256 : (⟨S_, .f32⟩ : BufTy).Contents (Elt F) → (⟨S128x256, .f32⟩ : BufTy).Contents (Elt F)),
    unary main_arg2 main_v229 (broadcastInDim S50000x1 ![0] bcast_S50000_S50000x1_0 : (⟨S50000, .i32⟩ : BufTy).Contents (Elt F) → (⟨S50000x1, .i32⟩ : BufTy).Contents (Elt F)),
    ternary main_v228 main_v229 main_v227 main_v230 ((fun x i u => Host.scatterAdd scatter_S128x256_S50000x1_S50000x256_1_0_0_1 x i u) : (⟨S128x256, .f32⟩ : BufTy).Contents (Elt F) → (⟨S50000x1, .i32⟩ : BufTy).Contents (Elt F) → (⟨S50000x256, .f32⟩ : BufTy).Contents (Elt F) → (⟨S128x256, .f32⟩ : BufTy).Contents (Elt F)),
    binary main_v230 main_arg14 main_v231 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    unary main_arg15 main_v232 (broadcastInDim S1x128 ![1] bcast_S128_S1x128_1 : (⟨S128, .f32⟩ : BufTy).Contents (Elt F) → (⟨S1x128, .f32⟩ : BufTy).Contents (Elt F)),
    unary main_v232 main_v233 (broadcastInDim S128x128 ![0, 1] bcast_S1x128_S128x128_0_1 : (⟨S1x128, .f32⟩ : BufTy).Contents (Elt F) → (⟨S128x128, .f32⟩ : BufTy).Contents (Elt F)),
    binary main_v231 main_v233 main_v234 (addf : (⟨S128x128, .f32⟩ : BufTy).Contents (Elt F) → (⟨S128x128, .f32⟩ : BufTy).Contents (Elt F) → (⟨S128x128, .f32⟩ : BufTy).Contents (Elt F)),
    TRef.nullary main_call16.cst (constant S_ .f32 0x00000000#32),
    TRef.unary main_call16.cst main_call16.v0 (broadcastInDim S128x128 ![] bcast_S_S128x128),
    TRef.binary (.of main_v234 : TRef sig ⟨S128x128, .f32⟩) main_call16.v0 main_call16.v1 maximumf,
    binary main_v235 main_arg16 main_v236 ((fun l r => Host.dotGeneral dot_S128x128_S128x12_S128x12_1_0_0_1_n_n none l r) : (⟨S128x128, .f32⟩ : BufTy).Contents (Elt F) → (⟨S128x12, .f32⟩ : BufTy).Contents (Elt F) → (⟨S128x12, .f32⟩ : BufTy).Contents (Elt F)),
    unary main_arg17 main_v237 (broadcastInDim S1x12 ![1] bcast_S12_S1x12_1 : (⟨S12, .f32⟩ : BufTy).Contents (Elt F) → (⟨S1x12, .f32⟩ : BufTy).Contents (Elt F)),
    unary main_v237 main_v238 (broadcastInDim S128x12 ![0, 1] bcast_S1x12_S128x12_0_1 : (⟨S1x12, .f32⟩ : BufTy).Contents (Elt F) → (⟨S128x12, .f32⟩ : BufTy).Contents (Elt F)),
    binary main_v236 main_v238 main_v239 (addf : (⟨S128x12, .f32⟩ : BufTy).Contents (Elt F) → (⟨S128x12, .f32⟩ : BufTy).Contents (Elt F) → (⟨S128x12, .f32⟩ : BufTy).Contents (Elt F)) ]

theorem opsA_sub : (opsA : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

theorem opsL0_sub : (opsL0 : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

theorem opsL1_sub : (opsL1 : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

theorem opsL2_sub : (opsL2 : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

theorem opsL3_sub : (opsL3 : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

theorem opsT_sub : (opsT : List (HloOp τ sig (Elt F))).Forall fun op => op.bufs ⊆ tcRefs τ sig := by
  simp only [List.forall_cons, List.Forall, TRef.nullary, TRef.unary, TRef.binary, nullary_bufs_sub, unary_bufs_sub, reshape_bufs_sub,
    binary_bufs_sub, ternary_bufs_sub, and_self]

end Cert.ReferenceIdeal.RefRun

end
-- ==== Proof.RefRun.lean ====
import proofs.«430164_j87205015978673_1_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq win0 := by
  simp only [main_part0, win0, fn_relu.body, fn_relu_0.body, fn_var.body, fn_where.body, seq, bind_assoc, pure_bind]
  rfl

set_option maxRecDepth 8192 in
theorem main_part1_eq (c : Dev nD) : main_part1 (F := F) c = seq win1 := by
  simp only [main_part1, win1, fn_relu.body, fn_relu_0.body, fn_var.body, fn_where.body, seq, bind_assoc, pure_bind]
  rfl

set_option maxRecDepth 8192 in
theorem main_part2_eq (c : Dev nD) : main_part2 (F := F) c = seq win2 := by
  simp only [main_part2, win2, fn_relu.body, fn_relu_0.body, fn_var.body, fn_where.body, seq, bind_assoc, pure_bind]
  rfl

set_option maxRecDepth 8192 in
theorem main_part3_eq (c : Dev nD) : main_part3 (F := F) c = seq win3 := by
  simp only [main_part3, win3, fn_relu.body, fn_relu_0.body, fn_var.body, fn_where.body, seq, bind_assoc, pure_bind]
  rfl

set_option maxRecDepth 8192 in
theorem main_part4_eq (c : Dev nD) : main_part4 (F := F) c = seq win4 := by
  simp only [main_part4, win4, fn_relu_0.body, fn_relu_1.body, seq, bind_assoc, pure_bind]

set_option maxRecDepth 8192 in
theorem ops_windows : (ops : List (HloOp τ sig (Elt F))) = win0 ++ (win1 ++ (win2 ++ (win3 ++ win4))) := by
  simp only [ops, opsA, opsL0, opsL1, opsL2, opsL3, opsT, win0, win1, win2, win3, win4, List.cons_append, List.nil_append]

theorem main_eq (c : Dev nD) : main (F := F) c = seq ops := by
  rw [ops_windows, seq_append, seq_append, seq_append, seq_append, ← main_part0_eq c, ← main_part1_eq c,
    ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨opsA_sub, opsL0_sub⟩, opsL1_sub⟩, opsL2_sub⟩, opsL3_sub⟩, opsT_sub⟩

set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsL0_fresh : ∀ op ∈ (opsL0 : List (HloOp τ sig (Elt F))), op.fresh = ∅ := by
  intro _ h; (repeat (cases h with | head => rfl | tail _ h => ?_)); exact nomatch h
set_option maxRecDepth 8192 in
theorem opsL1_fresh : ∀ op ∈ (opsL1 : List (HloOp τ sig (Elt F))), op.fresh = ∅ := by
  intro _ h; (repeat (cases h with | head => rfl | tail _ h => ?_)); exact nomatch h
set_option maxRecDepth 8192 in
theorem opsL2_fresh : ∀ op ∈ (opsL2 : List (HloOp τ sig (Elt F))), op.fresh = ∅ := by
  intro _ h; (repeat (cases h with | head => rfl | tail _ h => ?_)); exact nomatch h
set_option maxRecDepth 8192 in
theorem opsL3_fresh : ∀ op ∈ (opsL3 : List (HloOp τ sig (Elt F))), op.fresh = ∅ := by
  intro _ h; (repeat (cases h with | head => rfl | tail _ h => ?_)); exact nomatch h
set_option maxRecDepth 8192 in
theorem opsT_fresh : ∀ op ∈ (opsT : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  List.forall_mem_append.mpr ⟨List.forall_mem_append.mpr ⟨List.forall_mem_append.mpr ⟨List.forall_mem_append.mpr
    ⟨List.forall_mem_append.mpr ⟨opsA_fresh, opsL0_fresh⟩, opsL1_fresh⟩, opsL2_fresh⟩, opsL3_fresh⟩, opsT_fresh⟩

/-- Every weakly fair execution of @main ends with each buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RInputs.lean ====
import proofs.«430164_j87205015978673_1_alg».proof.Proof.RefRunOps
import proofs.«430164_j87205015978673_1_alg».proof.Proof.Spec
import Idealize.ShloMosaic.Lib.Pipeline.Frame

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (m : (ℓ : Loc nD τ sig) → Buf (Elt Ideal) ℓ)

/-- The eighteen arguments gathered into the record the mathematics is stated over. -/
def inputsR (d : Dev nD) : Cert.Spec.Inputs where
  x := m ((d.tc : Thread nD τ).loc main_arg0)
  ei := m ((d.tc : Thread nD τ).loc main_arg1)
  batch := m ((d.tc : Thread nD τ).loc main_arg2)
  eattr := m ((d.tc : Thread nD τ).loc main_arg3)
  nodeW := m ((d.tc : Thread nD τ).loc main_arg4)
  nodeB := m ((d.tc : Thread nD τ).loc main_arg5)
  edgeW := m ((d.tc : Thread nD τ).loc main_arg6)
  edgeB := m ((d.tc : Thread nD τ).loc main_arg7)
  w1 := m ((d.tc : Thread nD τ).loc main_arg8)
  b1 := m ((d.tc : Thread nD τ).loc main_arg9)
  w2 := m ((d.tc : Thread nD τ).loc main_arg10)
  b2 := m ((d.tc : Thread nD τ).loc main_arg11)
  gamma := m ((d.tc : Thread nD τ).loc main_arg12)
  beta := m ((d.tc : Thread nD τ).loc main_arg13)
  hw1 := m ((d.tc : Thread nD τ).loc main_arg14)
  hb1 := m ((d.tc : Thread nD τ).loc main_arg15)
  hw2 := m ((d.tc : Thread nD τ).loc main_arg16)
  hb2 := m ((d.tc : Thread nD τ).loc main_arg17)

/-- The values held before the first stretch and after each of the six. -/
abbrev B0 (d : Dev nD) : Valuation τ sig (Elt Ideal) := launchContents m d
def B1 (d : Dev nD) : Valuation τ sig (Elt Ideal) := after (opsA (F := Ideal)) (B0 m d)
def B2 (d : Dev nD) : Valuation τ sig (Elt Ideal) := after (opsL0 (F := Ideal)) (B1 m d)
def B3 (d : Dev nD) : Valuation τ sig (Elt Ideal) := after (opsL1 (F := Ideal)) (B2 m d)
def B4 (d : Dev nD) : Valuation τ sig (Elt Ideal) := after (opsL2 (F := Ideal)) (B3 m d)
def B5 (d : Dev nD) : Valuation τ sig (Elt Ideal) := after (opsL3 (F := Ideal)) (B4 m d)
def B6 (d : Dev nD) : Valuation τ sig (Elt Ideal) := after (opsT (F := Ideal)) (B5 m d)

theorem after_ops (d : Dev nD) : after (ops (F := Ideal)) (launchContents m d) = B6 m d := by
  unfold B6 B5 B4 B3 B2 B1
  simp only [ops, StableHlo.after_append]

end Cert.ReferenceIdeal.RefVal

end
-- ==== Proof.RefValEnds.lean ====
import proofs.«430164_j87205015978673_1_alg».proof.Proof.RefRunOps
import proofs.«430164_j87205015978673_1_alg».proof.Proof.Spec
import proofs.«430164_j87205015978673_1_alg».proof.Proof.LibLin
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

variable (W : Valuation τ sig (Elt Ideal))

/-- The node embedding x · W + b. -/
theorem RA_h : after (opsA (F := Ideal)) W (Proc.devRef .tc main_v7)
    = Cert.Spec.lin (W (Proc.devRef .tc main_arg0)) (W (Proc.devRef .tc main_arg4)) (Cert.Spec.row (W (Proc.devRef .tc main_arg5))) := by
  show after opsA W (Proc.devRef .tc main_v7) = _
  after_results
  exact Cert.LibLin.dot_bias_eq_lin dot_S50000x32_S32x256_S50000x256_1_0_0_1_n_n rfl none _ _ _ _ _

/-- The edge embedding. -/
theorem RA_ea : after (opsA (F := Ideal)) W (Proc.devRef .tc main_v11)
    = Cert.Spec.lin (W (Proc.devRef .tc main_arg3)) (W (Proc.devRef .tc main_arg6)) (Cert.Spec.row (W (Proc.devRef .tc main_arg7))) := by
  show after opsA W (Proc.devRef .tc main_v11) = _
  after_results
  exact Cert.LibLin.dot_bias_eq_lin dot_S300000x16_S16x256_S300000x256_1_0_0_1_n_n rfl none _ _ _ _ _

/-- Rows 0 and 1 of the edge list: every edge's source and destination node. -/
theorem RA_src : after (opsA (F := Ideal)) W (Proc.devRef .tc main_v1)
    = (fun i => W (Proc.devRef .tc main_arg1) (ix2 0 (i 0)) : Cert.Spec.IVct 300000) := by
  show after opsA W (Proc.devRef .tc main_v1) = _
  after_results
  exact Cert.LibLin.slice_cast_eq_row (0 : Fin 2) ![0, 0] rfl rfl _ _ _

theorem RA_dst : after (opsA (F := Ideal)) W (Proc.devRef .tc main_v3)
    = (fun i => W (Proc.devRef .tc main_arg1) (ix2 1 (i 0)) : Cert.Spec.IVct 300000) := by
  show after opsA W (Proc.devRef .tc main_v3) = _
  after_results
  exact Cert.LibLin.slice_cast_eq_row (1 : Fin 2) ![1, 0] rfl rfl _ _ _

/-- The head applied to the node features summed by graph. -/
theorem RT_out : after (opsT (F := Ideal)) W (Proc.devRef .tc main_v239)
    = Cert.Spec.head (Cert.Spec.segsum (Cert.Spec.idxCol (W (Proc.devRef .tc main_arg2))) (W (Proc.devRef .tc main_v227)))
        (W (Proc.devRef .tc main_arg14)) (W (Proc.devRef .tc main_arg15)) (W (Proc.devRef .tc main_arg16)) (W (Proc.devRef .tc main_arg17)) := by
  show after opsT W (Proc.devRef .tc main_v239) = _
  after_results
  simp only [TRef.toBuf, TRef.ofBuf, cast_eq]
  rw [Cert.LibLin.scatter_zero_eq_segsum scatter_S128x256_S50000x1_S50000x256_1_0_0_1_wf
      scatter_S128x256_S50000x1_S50000x256_1_0_0_1 rfl bcast_S_S128x256 bcast_S50000_S50000x1_0,
    Cert.LibLin.dot_bias_eq_lin dot_S128x256_S256x128_S128x128_1_0_0_1_n_n rfl none bcast_S128_S1x128_1 bcast_S1x128_S128x128_0_1,
    Cert.LibLin.max_zero_eq_relu bcast_S_S128x128,
    Cert.LibLin.dot_bias_eq_lin dot_S128x128_S128x12_S128x12_1_0_0_1_n_n rfl none bcast_S12_S1x12_1 bcast_S1x12_S128x12_0_1]
  rfl

end Cert.ReferenceIdeal.RefVal

end
-- ==== Proof.RefValKeep.lean ====
import proofs.«430164_j87205015978673_1_alg».proof.Proof.RefRunOps
import Idealize.ShloMosaic.Lib.StableHlo.Run

noncomputable section

namespace Cert.ReferenceIdeal.RefVal

open Cert.ReferenceIdeal Cert.ReferenceIdeal.RefRun Idealize.ShloMosaic Idealize.SL.Sem Idealize.ShloMosaic.StableHlo

variable {F : FTy → Type} [FloatOps F]

/-- Every operation of the line defines one value, whose index is at least `lo`. -/
def WritesFrom (lo : Nat) (l : List (HloOp τ sig (Elt F))) : Prop :=
  l.Forall fun op => ∃ y : Ref sig .tc, op.writes = {Proc.devRef .tc y} ∧ lo ≤ y.idx.val

/-- Such a line leaves every value of index below `lo` as it was: no operation of it defines that value. -/
theorem WritesFrom.keep {lo : Nat} {l : List (HloOp τ sig (Elt F))} (h : WritesFrom lo l)
    (W : Valuation τ sig (Elt F)) (r : Ref sig .tc) (hr : r.idx.val < lo) :
    after l W (Proc.devRef .tc r) = W (Proc.devRef .tc r) :=
  after_of_forall_not_mem l W fun op hop hb => by
    obtain ⟨y, hy, hlo⟩ := List.forall_iff_forall_mem.mp h op hop
    rw [hy, Finset.mem_singleton] at hb
    obtain rfl := Proc.devRef_injective _ hb
    exact Nat.not_le.mpr hr hlo

theorem wA : WritesFrom 18 (opsA (F := F)) := by
  unfold WritesFrom
  repeat' apply And.intro
  all_goals exact ⟨_, rfl, by decide⟩

theorem wL0 : WritesFrom 30 (opsL0 (F := F)) := by
  unfold WritesFrom
  repeat' apply And.intro
  all_goals exact ⟨_, rfl, by decide⟩

theorem wL1 : WritesFrom 30 (opsL1 (F := F)) := by
  unfold WritesFrom
  repeat' apply And.intro
  all_goals exact ⟨_, rfl, by decide⟩

theorem wL2 : WritesFrom 30 (opsL2 (F := F)) := by
  unfold WritesFrom
  repeat' apply And.intro
  all_goals exact ⟨_, rfl, by decide⟩

theorem wL3 : WritesFrom 30 (opsL3 (F := F)) := by
  unfold WritesFrom
  repeat' apply And.intro
  all_goals exact ⟨_, rfl, by decide⟩

theorem wT : WritesFrom 30 (opsT (F := F)) := by
  unfold WritesFrom
  repeat' apply And.intro
  all_goals exact ⟨_, rfl, by decide⟩

end Cert.ReferenceIdeal.RefVal

end
-- ==== Proof.RValAt.lean ====
import proofs.«430164_j87205015978673_1_alg».proof.Proof.RInputs
import proofs.«430164_j87205015978673_1_alg».proof.Proof.RefValEnds
import proofs.«430164_j87205015978673_1_alg».proof.Proof.RefValKeep

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

/-- The first stretch leaves the arguments as they were. -/
theorem b1_arg (r : Ref sig .tc) (hr : r.idx.val < 18) :
    B1 m d (Proc.devRef .tc r) = m ((d.tc : Thread nD τ).loc r) :=
  wA.keep (B0 m d) r hr

theorem b1_v1 : B1 m d (Proc.devRef .tc main_v1) = Cert.Spec.src1 (inputsR m d) := RA_src (B0 m d)
theorem b1_v3 : B1 m d (Proc.devRef .tc main_v3) = Cert.Spec.dst1 (inputsR m d) := RA_dst (B0 m d)
theorem b1_v11 : B1 m d (Proc.devRef .tc main_v11) = Cert.Spec.ea (inputsR m d) := RA_ea (B0 m d)

/-- Below index 30 the values are as the first stretch left them. -/
def Low (W : Valuation τ sig (Elt Ideal)) : Prop :=
  ∀ r : Ref sig .tc, r.idx.val < 30 → W (Proc.devRef .tc r) = B1 m d (Proc.devRef .tc r)

variable {m d}

/-- A line that defines values from index 30 on keeps them so. -/
theorem Low.after {W : Valuation τ sig (Elt Ideal)} (hW : Low m d W) {l : List (HloOp τ sig (Elt Ideal))}
    (hl : WritesFrom 30 l) : Low m d (after l W) :=
  fun r hr => (hl.keep W r hr).trans (hW r hr)

theorem Low.arg {W : Valuation τ sig (Elt Ideal)} (hW : Low m d W) (r : Ref sig .tc) (hr : r.idx.val < 18) :
    W (Proc.devRef .tc r) = m ((d.tc : Thread nD τ).loc r) :=
  (hW r (Nat.lt_trans hr (by decide))).trans (b1_arg m d r hr)

variable (m d)

theorem low1 : Low m d (B1 m d) := fun _ _ => rfl
theorem low2 : Low m d (B2 m d) := (low1 m d).after wL0
theorem low3 : Low m d (B3 m d) := (low2 m d).after wL1
theorem low4 : Low m d (B4 m d) := (low3 m d).after wL2
theorem low5 : Low m d (B5 m d) := (low4 m d).after wL3

/-- The whole list leaves the arguments as they were. -/
theorem arg (r : Ref sig .tc) (hr : r.idx.val < 18) :
    after (ops (F := Ideal)) (launchContents m d) (Proc.devRef .tc r) = m ((d.tc : Thread nD τ).loc r) := by
  rw [after_ops m d]
  exact ((low5 m d).after wT).arg r hr

end Cert.ReferenceIdeal.RefVal

end
-- ==== Proof.RefValL0.lean ====
import proofs.«430164_j87205015978673_1_alg».proof.Proof.RefRunOps
import proofs.«430164_j87205015978673_1_alg».proof.Proof.Spec
import proofs.«430164_j87205015978673_1_alg».proof.Proof.LibLin
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

namespace Layer

/-- A vector laid out as a single row reads the vector at the column. -/
theorem bc1_apply (v : FVec Ideal S256 .f32) (r : Fin 1) (c : Fin 256) :
    broadcastInDim S1x256 ![1] bcast_S256_S1x256_1 v (ix2 r c) = v (ix1 c) :=
  broadcastInDim_apply ![1] bcast_S256_S1x256_1 v (ix2 r c) (ix1 c) (fun a => by
    match a with
    | ⟨0, _⟩ =>
      show c.val = if (256 : Nat) = 1 then 0 else c.val
      rw [if_neg (by decide)])

/-- A vector laid out as a single column reads the vector at the row. -/
theorem bcCol_apply (v : IVec S300000 32) (e : Fin 300000) (u : Fin 1) :
    broadcastInDim S300000x1 ![0] bcast_S300000_S300000x1_0 v (ix2 e u) = v (ix1 e) :=
  broadcastInDim_apply ![0] bcast_S300000_S300000x1_0 v (ix2 e u) (ix1 e) (fun a => by
    match a with
    | ⟨0, _⟩ =>
      show e.val = if (300000 : Nat) = 1 then 0 else e.val
      rw [if_neg (by decide)])

/-- The source indices as a column, a negative one shifted up by the number of nodes. -/
abbrev srcCol (s : IVec S300000 32) : IVec S300000x1 32 :=
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 50000#32))) s)

theorem srcCol_apply (s : IVec S300000 32) (e : Fin 300000) (u : Fin 1) :
    srcCol s (ix2 e u) = LibRows.wrapN 50000 (s (ix1 e)) := by
  unfold srcCol
  rw [bcCol_apply]
  exact LibRows.wrap_word 50000 (s (ix1 e))

/-- Gathering rows at that column is `takeClamp` at the raw indices. -/
theorem take_eq (h : FVec Ideal S50000x256 .f32) (s : IVec S300000 32) :
    Host.gather gather_S50000x256_S300000x1_S300000x256_1_0_n_n_0_1_1256 h (srcCol s)
      = Spec.takeClamp Spec.nodes_pos h (Spec.idxCol s) := by
  funext i
  obtain ⟨p, q, rfl⟩ : ∃ (p : Fin 300000) (q : Fin 256), i = ix2 p q := ⟨i 0, i 1, eq_ix2 i⟩
  have hd : gather_S50000x256_S300000x1_S300000x256_1_0_n_n_0_1_1256
      = LibRows.rowGatherDims 50000 256 300000 gather_S50000x256_S300000x1_S300000x256_1_0_n_n_0_1_1256_wf := rfl
  rw [hd, LibRows.gather_rows_apply Spec.nodes_pos, srcCol_apply]
  rfl

abbrev zeroN : FVec Ideal S50000x256 .f32 :=
  broadcastInDim S50000x256 ![] bcast_S_S50000x256 (constant (F := Ideal) S_ .f32 0x00000000#32)
abbrev zeroE : FVec Ideal S300000x256 .f32 :=
  broadcastInDim S300000x256 ![] bcast_S_S300000x256 (constant (F := Ideal) S_ .f32 0x00000000#32)

/-- The messages max (h[src] + ea) 0. -/
abbrev msgT (h : FVec Ideal S50000x256 .f32) (ea : FVec Ideal S300000x256 .f32) (s : IVec S300000 32) :
    FVec Ideal S300000x256 .f32 :=
  maximumf (addf (Host.gather gather_S50000x256_S300000x1_S300000x256_1_0_n_n_0_1_1256 h (srcCol s)) ea) zeroE

theorem msgT_eq (h : FVec Ideal S50000x256 .f32) (ea : FVec Ideal S300000x256 .f32) (s : IVec S300000 32) :
    msgT h ea s = Spec.msgf (Spec.takeClamp Spec.nodes_pos h (Spec.idxCol s)) ea := by
  unfold msgT zeroE
  rw [LibLin.max_zero_eq_relu, take_eq]
  rfl

/-- The messages summed into the rows their destinations name. -/
abbrev aggT (h : FVec Ideal S50000x256 .f32) (ea : FVec Ideal S300000x256 .f32) (s d : IVec S300000 32) :
    FVec Ideal S50000x256 .f32 :=
  Host.scatterAdd scatter_S50000x256_S300000x1_S300000x256_1_0_0_1 zeroN
    (broadcastInDim S300000x1 ![0] bcast_S300000_S300000x1_0 d) (msgT h ea s)

theorem aggT_eq (h : FVec Ideal S50000x256 .f32) (ea : FVec Ideal S300000x256 .f32) (s d : IVec S300000 32) :
    aggT h ea s d
      = Spec.segsum (Spec.idxCol d) (Spec.msgf (Spec.takeClamp Spec.nodes_pos h (Spec.idxCol s)) ea) := by
  unfold aggT zeroN
  rw [LibLin.scatter_zero_eq_segsum scatter_S50000x256_S300000x1_S300000x256_1_0_0_1_wf
    scatter_S50000x256_S300000x1_S300000x256_1_0_0_1 rfl, msgT_eq]

/-- Slab `off` of a stack of four matrices. -/
abbrev slabT (off : Nat) (hs : S4x256x256.Slices ![off, 0, 0] S1x256x256) (w : FVec Ideal S4x256x256 .f32) :
    FVec Ideal S256x256 .f32 :=
  shapeCast S256x256 (extractStridedSlice S1x256x256 ![off, 0, 0] w hs) shapeCasts_S1x256x256_S256x256

theorem slabT_eq (l : Fin 4) (off : Nat) (hl : l.val = off) (hs : S4x256x256.Slices ![off, 0, 0] S1x256x256)
    (w : FVec Ideal S4x256x256 .f32) : slabT off hs w = Spec.slab l w := by
  funext i
  obtain ⟨a, b, rfl⟩ : ∃ (a : Fin 256) (b : Fin 256), i = ix2 a b := ⟨i 0, i 1, eq_ix2 i⟩
  unfold slabT
  rw [shapeCast_1ab_ab_apply]
  exact extractStridedSlice_apply ![off, 0, 0] w hs (ix3 (0 : Fin 1) a b) (ix3 l a b) (fun ax => by
    match ax with
    | ⟨0, _⟩ =>
      show l.val = off + 0
      omega
    | ⟨1, _⟩ =>
      show a.val = 0 + a.val
      omega
    | ⟨2, _⟩ =>
      show b.val = 0 + b.val
      omega)

/-- Row `off` of a stack of four vectors. -/
abbrev vecT (off : Nat) (hs : S4x256.Slices ![off, 0] S1x256) (b : FVec Ideal S4x256 .f32) : FVec Ideal S256 .f32 :=
  shapeCast S256 (extractStridedSlice S1x256 ![off, 0] b hs) shapeCasts_S1x256_S256

theorem vecT_apply (l : Fin 4) (off : Nat) (hl : l.val = off) (hs : S4x256.Slices ![off, 0] S1x256)
    (b : FVec Ideal S4x256 .f32) (c : Fin 256) : vecT off hs b (ix1 c) = b (ix2 l c) := by
  unfold vecT
  rw [shapeCast_1a_a_apply]
  exact slice2_axis0_apply off b hs (0 : Fin 1) c l (by
    show l.val = off + 0
    omega)

theorem row_vecT_eq (l : Fin 4) (off : Nat) (hl : l.val = off) (hs : S4x256.Slices ![off, 0] S1x256)
    (b : FVec Ideal S4x256 .f32) : Spec.row (vecT off hs b) = Spec.slabRow l b := by
  funext i
  obtain ⟨r, c, rfl⟩ : ∃ (r : Fin 1) (c : Fin 256), i = ix2 r c := ⟨i 0, i 1, eq_ix2 i⟩
  exact vecT_apply l off hl hs b c

abbrev rowT (off : Nat) (hs : S4x256.Slices ![off, 0] S1x256) (b : FVec Ideal S4x256 .f32) : FVec Ideal S1x256 .f32 :=
  broadcastInDim S1x256 ![1] bcast_S256_S1x256_1 (vecT off hs b)

theorem rowT_eq (l : Fin 4) (off : Nat) (hl : l.val = off) (hs : S4x256.Slices ![off, 0] S1x256)
    (b : FVec Ideal S4x256 .f32) : rowT off hs b = Spec.slabRow l b := by
  funext i
  obtain ⟨r, c, rfl⟩ : ∃ (r : Fin 1) (c : Fin 256), i = ix2 r c := ⟨i 0, i 1, eq_ix2 i⟩
  unfold rowT
  rw [bc1_apply]
  exact vecT_apply l off hl hs b c

/-- The two-layer perceptron on h + agg. -/
abbrev zT (off : Nat) (hw : S4x256x256.Slices ![off, 0, 0] S1x256x256) (hb : S4x256.Slices ![off, 0] S1x256)
    (h : FVec Ideal S50000x256 .f32) (ea : FVec Ideal S300000x256 .f32) (s d : IVec S300000 32)
    (w1 : FVec Ideal S4x256x256 .f32) (b1 : FVec Ideal S4x256 .f32) (w2 : FVec Ideal S4x256x256 .f32)
    (b2 : FVec Ideal S4x256 .f32) : FVec Ideal S50000x256 .f32 :=
  addf
    (Host.dotGeneral dot_S50000x256_S256x256_S50000x256_1_0_0_1_n_n none
      (maximumf
        (addf
          (Host.dotGeneral dot_S50000x256_S256x256_S50000x256_1_0_0_1_n_n none (addf h (aggT h ea s d)) (slabT off hw w1))
          (broadcastInDim S50000x256 ![0, 1] bcast_S1x256_S50000x256_0_1 (rowT off hb b1)))
        zeroN)
      (slabT off hw w2))
    (broadcastInDim S50000x256 ![0, 1] bcast_S1x256_S50000x256_0_1 (rowT off hb b2))

theorem zT_eq (l : Fin 4) (off : Nat) (hl : l.val = off) (hw : S4x256x256.Slices ![off, 0, 0] S1x256x256)
    (hb : S4x256.Slices ![off, 0] S1x256)
    (h : FVec Ideal S50000x256 .f32) (ea : FVec Ideal S300000x256 .f32) (s d : IVec S300000 32)
    (w1 : FVec Ideal S4x256x256 .f32) (b1 : FVec Ideal S4x256 .f32) (w2 : FVec Ideal S4x256x256 .f32)
    (b2 : FVec Ideal S4x256 .f32) :
    zT off hw hb h ea s d w1 b1 w2 b2
      = Spec.mlp h (Spec.segsum (Spec.idxCol d) (Spec.msgf (Spec.takeClamp Spec.nodes_pos h (Spec.idxCol s)) ea))
          (Spec.slab l w1) (Spec.slabRow l b1) (Spec.slab l w2) (Spec.slabRow l b2) := by
  unfold zT rowT zeroN
  rw [LibLin.dot_bias_eq_lin dot_S50000x256_S256x256_S50000x256_1_0_0_1_n_n rfl none bcast_S256_S1x256_1
      bcast_S1x256_S50000x256_0_1 (addf h (aggT h ea s d)) (slabT off hw w1) (vecT off hb b1),
    LibLin.max_zero_eq_relu,
    LibLin.dot_bias_eq_lin dot_S50000x256_S256x256_S50000x256_1_0_0_1_n_n rfl none bcast_S256_S1x256_1
      bcast_S1x256_S50000x256_0_1 _ (slabT off hw w2) (vecT off hb b2),
    aggT_eq, slabT_eq l off hl hw w1, slabT_eq l off hl hw w2, row_vecT_eq l off hl hb b1, row_vecT_eq l off hl hb b2]
  rfl

/-- A column sum started from zero is the sum over the rows. -/
theorem reduce_apply (z : FVec Ideal S50000x256 .f32) (c : Fin 256) :
    Host.reduceAdd z (constant (F := Ideal) S_ .f32 0x00000000#32) reducesTo_S50000x256_S256_d0 h_S_ (ix1 c)
      = ∑ r : Fin 50000, z (ix2 r c) := by
  show Ideal.hostReduceAdd reducesTo_S50000x256_S256_d0 z (Ideal.ofBits .f32 0x00000000#32) (ix1 c) = _
  rw [Ideal.hostReduceAdd_single reducesTo_S50000x256_S256_d0 (by decide : S50000x256.Reduces [0] S256),
    Ideal.ofBits_zero_f32, zero_add]
  refine Finset.sum_congr rfl fun r _ => congrArg z ?_
  funext a
  refine Fin.ext ?_
  match a with
  | ⟨0, _⟩ => rfl
  | ⟨1, _⟩ => rfl

/-- The variance's divisor: 50000 less zero degrees of freedom. -/
def cntE : EReal := Ideal.ofBits .f32 0x47435000#32 - FloatOps.sitofp (F := Ideal) .f32 (0#32 : BitVec 32)

theorem ofBits_nodes : Ideal.ofBits .f32 0x47435000#32 = ((50000 : ℝ) : EReal) := by
  simp [Ideal.ofBits, Ideal.ieee, -EReal.coe_mul]; norm_num

theorem cntE_eq : cntE = Spec.nNodes := by
  unfold cntE Spec.nNodes
  have h0 : FloatOps.sitofp (F := Ideal) .f32 (0#32 : BitVec 32) = 0 := by
    show ((((0#32 : BitVec 32).toInt : ℤ) : ℝ) : EReal) = 0
    simp
  rw [h0, sub_zero]

/-- It is positive, so the variance is the quotient and never the junk value. -/
theorem cntE_pos : FloatOps.cmpf (F := Ideal) (φ := .f32) .ogt cntE (Ideal.ofBits .f32 0x00000000#32) = 1#1 := by
  rw [cntE_eq, Ideal.ofBits_zero_f32]
  unfold Spec.nNodes
  rw [ofBits_nodes]
  show BitVec.ofBool (decide ((0 : EReal) < ((50000 : ℝ) : EReal))) = 1#1
  rw [decide_eq_true (EReal.coe_pos.mpr (by norm_num))]
  rfl

/-- The column means, as a vector here and as a one-row matrix below. -/
abbrev meanV (z : FVec Ideal S50000x256 .f32) : FVec Ideal S256 .f32 :=
  Host.divf (Host.reduceAdd z (constant (F := Ideal) S_ .f32 0x00000000#32) reducesTo_S50000x256_S256_d0 h_S_)
    (broadcastInDim S256 ![] bcast_S_S256 (constant (F := Ideal) S_ .f32 0x47435000#32))

theorem meanV_apply (z : FVec Ideal S50000x256 .f32) (c : Fin 256) : meanV z (ix1 c) = Spec.mean z (ix2 0 c) :=
  congrArg (fun t => Ideal.div t Spec.nNodes) (reduce_apply z c)

abbrev meanM (z : FVec Ideal S50000x256 .f32) : FVec Ideal S1x256 .f32 :=
  Host.divf
    (broadcastInDim S1x256 ![1] bcast_S256_S1x256_1
      (Host.reduceAdd z (constant (F := Ideal) S_ .f32 0x00000000#32) reducesTo_S50000x256_S256_d0 h_S_))
    (broadcastInDim S1x256 ![] bcast_S_S1x256 (constant (F := Ideal) S_ .f32 0x47435000#32))

theorem meanM_eq (z : FVec Ideal S50000x256 .f32) : meanM z = Spec.mean z := by
  funext i
  obtain ⟨r, c, rfl⟩ : ∃ (r : Fin 1) (c : Fin 256), i = ix2 r c := ⟨i 0, i 1, eq_ix2 i⟩
  exact congrArg (fun t => Ideal.div t Spec.nNodes) ((bc1_apply _ r c).trans (reduce_apply z c))

abbrev cntT : FVec Ideal S_ .f32 :=
  subf (constant (F := Ideal) S_ .f32 0x47435000#32) (sitofp (F := Ideal) .f32 (constantI S_ 32 0#32))

/-- The column variances: the mean squared deviation from the column mean. -/
abbrev varV (z : FVec Ideal S50000x256 .f32) : FVec Ideal S256 .f32 :=
  select
    (broadcastInDim S256 ![] bcast_S_S256 (cmpf .ogt cntT (constant (F := Ideal) S_ .f32 0x00000000#32)))
    (Host.divf
      (Host.reduceAdd
        (mulf (subf z (broadcastInDim S50000x256 ![0, 1] bcast_S1x256_S50000x256_0_1 (meanM z)))
          (subf z (broadcastInDim S50000x256 ![0, 1] bcast_S1x256_S50000x256_0_1 (meanM z))))
        (constant (F := Ideal) S_ .f32 0x00000000#32) reducesTo_S50000x256_S256_d0 h_S_)
      (broadcastInDim S256 ![] bcast_S_S256 cntT))
    (broadcastInDim S256 ![] bcast_S_S256 (id (constant (F := Ideal) S_ .f32 0x7FC00000#32)))

theorem varV_apply (z : FVec Ideal S50000x256 .f32) (c : Fin 256) : varV z (ix1 c) = Spec.varR z (ix2 0 c) := by
  show Scalar.select (FloatOps.cmpf (F := Ideal) (φ := .f32) .ogt cntE (Ideal.ofBits .f32 0x00000000#32))
      (Ideal.div
        (Host.reduceAdd
          (mulf (subf z (broadcastInDim S50000x256 ![0, 1] bcast_S1x256_S50000x256_0_1 (meanM z)))
            (subf z (broadcastInDim S50000x256 ![0, 1] bcast_S1x256_S50000x256_0_1 (meanM z))))
          (constant (F := Ideal) S_ .f32 0x00000000#32) reducesTo_S50000x256_S256_d0 h_S_ (ix1 c))
        cntE)
      (Ideal.ofBits .f32 0x7FC00000#32) = _
  rw [cntE_pos, select_one, cntE_eq, reduce_apply, meanM_eq]
  refine congrArg (fun t => Ideal.div t Spec.nNodes) (Finset.sum_congr rfl fun r _ => ?_)
  rw [mulf_apply, subf_apply, broadcastInDim_oneRow_apply]

/-- The output: z normalised by its column statistics, rescaled, shifted and rectified. -/
abbrev hT (z : FVec Ideal S50000x256 .f32) (g b : FVec Ideal S1x256 .f32) : FVec Ideal S50000x256 .f32 :=
  maximumf
    (addf
      (mulf
        (mulf
          (subf z
            (broadcastInDim S50000x256 ![0, 1] bcast_S1x256_S50000x256_0_1
              (broadcastInDim S1x256 ![1] bcast_S256_S1x256_1 (meanV z))))
          (broadcastInDim S50000x256 ![0, 1] bcast_S1x256_S50000x256_0_1
            (broadcastInDim S1x256 ![1] bcast_S256_S1x256_1
              (Host.rsqrt
                (addf (varV z)
                  (broadcastInDim S256 ![] bcast_S_S256 (constant (F := Ideal) S_ .f32 0x3727C5AC#32)))))))
        (broadcastInDim S50000x256 ![0, 1] bcast_S1x256_S50000x256_0_1 g))
      (broadcastInDim S50000x256 ![0, 1] bcast_S1x256_S50000x256_0_1 b))
    zeroN

theorem hT_eq (z : FVec Ideal S50000x256 .f32) (g b : FVec Ideal S1x256 .f32) :
    hT z g b = Spec.bn z (Spec.mean z) (Spec.varR z) g b := by
  funext i
  obtain ⟨p, q, rfl⟩ : ∃ (p : Fin 50000) (q : Fin 256), i = ix2 p q := ⟨i 0, i 1, eq_ix2 i⟩
  unfold hT zeroN
  rw [LibLin.max_zero_eq_relu]
  simp only [addf_apply, mulf_apply, subf_apply]
  rw [broadcastInDim_oneRow_apply, broadcastInDim_oneRow_apply, broadcastInDim_oneRow_apply, broadcastInDim_oneRow_apply,
    bc1_apply, bc1_apply, meanV_apply]
  show Spec.relu ((z (ix2 p q) - Spec.mean z (ix2 0 q)) * Ideal.rsqrt (varV z (ix1 q) + Spec.eps) * g (ix2 0 q) + b (ix2 0 q)) = _
  rw [varV_apply]
  rfl

end Layer

open Layer

variable (W : Valuation τ sig (Elt Ideal))

/-- Layer `l` of the model on node features `h`, its other inputs the values `W` holds. -/
abbrev layerOf (l : Fin 4) (h : FVec Ideal S50000x256 .f32) : FVec Ideal S50000x256 .f32 :=
  Cert.Spec.layerR Cert.Spec.nodes_pos h (W (Proc.devRef .tc main_v11))
    (Cert.Spec.idxCol (W (Proc.devRef .tc main_v1))) (Cert.Spec.idxCol (W (Proc.devRef .tc main_v3)))
    (Cert.Spec.slab l (W (Proc.devRef .tc main_arg8))) (Cert.Spec.slabRow l (W (Proc.devRef .tc main_arg9)))
    (Cert.Spec.slab l (W (Proc.devRef .tc main_arg10))) (Cert.Spec.slabRow l (W (Proc.devRef .tc main_arg11)))
    (Cert.Spec.slabRow l (W (Proc.devRef .tc main_arg12))) (Cert.Spec.slabRow l (W (Proc.devRef .tc main_arg13)))

/-- The same layer as the program computes it, the slabs cut at offset `off = l`. -/
theorem layerT_eq (l : Fin 4) (off : Nat) (hl : l.val = off) (hw : S4x256x256.Slices ![off, 0, 0] S1x256x256)
    (hb : S4x256.Slices ![off, 0] S1x256) (h : FVec Ideal S50000x256 .f32) :
    hT (zT off hw hb h (W (Proc.devRef .tc main_v11)) (W (Proc.devRef .tc main_v1)) (W (Proc.devRef .tc main_v3))
          (W (Proc.devRef .tc main_arg8)) (W (Proc.devRef .tc main_arg9))
          (W (Proc.devRef .tc main_arg10)) (W (Proc.devRef .tc main_arg11)))
        (rowT off hb (W (Proc.devRef .tc main_arg12))) (rowT off hb (W (Proc.devRef .tc main_arg13)))
      = layerOf W l h := by
  rw [hT_eq, zT_eq l off hl, rowT_eq l off hl, rowT_eq l off hl]
  rfl

theorem RL0_h : after (opsL0 (F := Ideal)) W (Proc.devRef .tc main_v65) = layerOf W 0 (W (Proc.devRef .tc main_v7)) := by
  show after _ W _ = _
  after_results_simp
  simp only [TRef.ofBuf, TRef.toBuf, cast_eq]
  exact layerT_eq W 0 0 rfl _ _ _

end Cert.ReferenceIdeal.RefVal

end
-- ==== Proof.RefValL1.lean ====
import proofs.«430164_j87205015978673_1_alg».proof.Proof.RefValL0

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (W : Valuation τ sig (Elt Ideal))

theorem RL1_h : after (opsL1 (F := Ideal)) W (Proc.devRef .tc main_v119) = layerOf W 1 (W (Proc.devRef .tc main_v65)) := by
  show after _ W _ = _
  after_results_simp
  simp only [TRef.ofBuf, TRef.toBuf, cast_eq]
  exact layerT_eq W 1 1 rfl _ _ _

end Cert.ReferenceIdeal.RefVal

end
-- ==== Proof.RefValL2.lean ====
import proofs.«430164_j87205015978673_1_alg».proof.Proof.RefValL0

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (W : Valuation τ sig (Elt Ideal))

theorem RL2_h : after (opsL2 (F := Ideal)) W (Proc.devRef .tc main_v173) = layerOf W 2 (W (Proc.devRef .tc main_v119)) := by
  show after _ W _ = _
  after_results_simp
  simp only [TRef.ofBuf, TRef.toBuf, cast_eq]
  exact layerT_eq W 2 2 rfl _ _ _

end Cert.ReferenceIdeal.RefVal

end
-- ==== Proof.RefValL3.lean ====
import proofs.«430164_j87205015978673_1_alg».proof.Proof.RefValL0

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (W : Valuation τ sig (Elt Ideal))

theorem RL3_h : after (opsL3 (F := Ideal)) W (Proc.devRef .tc main_v227) = layerOf W 3 (W (Proc.devRef .tc main_v173)) := by
  show after _ W _ = _
  after_results_simp
  simp only [TRef.ofBuf, TRef.toBuf, cast_eq]
  exact layerT_eq W 3 3 rfl _ _ _

end Cert.ReferenceIdeal.RefVal

end
-- ==== Proof.RVal.lean ====
import proofs.«430164_j87205015978673_1_alg».proof.Proof.RValAt
import proofs.«430164_j87205015978673_1_alg».proof.Proof.RefValEnds
import proofs.«430164_j87205015978673_1_alg».proof.Proof.RefValL0
import proofs.«430164_j87205015978673_1_alg».proof.Proof.RefValL1
import proofs.«430164_j87205015978673_1_alg».proof.Proof.RefValL2
import proofs.«430164_j87205015978673_1_alg».proof.Proof.RefValL3

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD)

variable {m d}

/-- Over such values the layer is the reference's step on the arguments. -/
theorem Low.layerOf_eq {W : Valuation τ sig (Elt Ideal)} (hW : Low m d W) (l : Fin 4) (h : FVec Ideal S50000x256 .f32) :
    layerOf W l h = Cert.Spec.stepR (inputsR m d) l h := by
  unfold layerOf
  rw [hW main_v11 (by decide), hW main_v1 (by decide), hW main_v3 (by decide), b1_v11, b1_v1, b1_v3,
    hW.arg main_arg8 (by decide), hW.arg main_arg9 (by decide), hW.arg main_arg10 (by decide),
    hW.arg main_arg11 (by decide), hW.arg main_arg12 (by decide), hW.arg main_arg13 (by decide)]
  rfl

variable (m d)

theorem hR_0 : B1 m d (Proc.devRef .tc main_v7) = Cert.Spec.h0 (inputsR m d) := RA_h (B0 m d)

theorem hR_1 : B2 m d (Proc.devRef .tc main_v65) = Cert.Spec.stepR (inputsR m d) 0 (Cert.Spec.h0 (inputsR m d)) := by
  rw [show B2 m d = after (opsL0 (F := Ideal)) (B1 m d) from rfl, RL0_h, (low1 m d).layerOf_eq, hR_0]

theorem hR_2 : B3 m d (Proc.devRef .tc main_v119)
    = Cert.Spec.stepR (inputsR m d) 1 (Cert.Spec.stepR (inputsR m d) 0 (Cert.Spec.h0 (inputsR m d))) := by
  rw [show B3 m d = after (opsL1 (F := Ideal)) (B2 m d) from rfl, RL1_h, (low2 m d).layerOf_eq, hR_1]

theorem hR_3 : B4 m d (Proc.devRef .tc main_v173)
    = Cert.Spec.stepR (inputsR m d) 2 (Cert.Spec.stepR (inputsR m d) 1 (Cert.Spec.stepR (inputsR m d) 0 (Cert.Spec.h0 (inputsR m d)))) := by
  rw [show B4 m d = after (opsL2 (F := Ideal)) (B3 m d) from rfl, RL2_h, (low3 m d).layerOf_eq, hR_2]

theorem hR_4 : B5 m d (Proc.devRef .tc main_v227)
    = Cert.Spec.stepR (inputsR m d) 3 (Cert.Spec.stepR (inputsR m d) 2 (Cert.Spec.stepR (inputsR m d) 1
        (Cert.Spec.stepR (inputsR m d) 0 (Cert.Spec.h0 (inputsR m d))))) := by
  rw [show B5 m d = after (opsL3 (F := Ideal)) (B4 m d) from rfl, RL3_h, (low4 m d).layerOf_eq, hR_3]

/-- The whole list's result is `Rmodel` of the arguments. -/
theorem value (d : Dev nD) : after (ops (F := Ideal)) (launchContents m d) (Proc.devRef .tc main_v239) = Cert.Spec.Rmodel (inputsR m d) := by
  rw [after_ops m d, show B6 m d = after (opsT (F := Ideal)) (B5 m d) from rfl, RT_out, hR_4,
    (low5 m d).arg main_arg2 (by decide), (low5 m d).arg main_arg14 (by decide), (low5 m d).arg main_arg15 (by decide),
    (low5 m d).arg main_arg16 (by decide), (low5 m d).arg main_arg17 (by decide)]
  rfl

end Cert.ReferenceIdeal.RefVal

end
-- ==== Proof.Bridge.lean ====
import Mathlib.Data.EReal.Basic
import Mathlib.Data.EReal.Operations
import Mathlib.Data.EReal.Inv
import Mathlib.Algebra.BigOperators.Group.Finset.Basic
import Mathlib.Algebra.BigOperators.Ring.Finset
import Mathlib.Tactic.Ring
import Mathlib.Tactic.Positivity
import Mathlib.Tactic.NormNum
import Idealize.ShloMosaic.PureOps.Ideal
import proofs.«430164_j87205015978673_1_alg».proof.Proof.Spec

noncomputable section

namespace Cert.Spec

open Idealize.ShloMosaic Idealize.ShloMosaic.ValueIdx Cert.LibRows

-- An extended real that is a real number; sums, differences, products, the rectifier and finite sums keep it so.
def Rl (v : EReal) : Prop := ∃ r : ℝ, v = (r : EReal)

theorem Rl.zero : Rl 0 := ⟨0, rfl⟩

theorem Rl.add {a b : EReal} : Rl a → Rl b → Rl (a + b) := by
  rintro ⟨x, rfl⟩ ⟨y, rfl⟩; exact ⟨x + y, rfl⟩

theorem Rl.sub {a b : EReal} : Rl a → Rl b → Rl (a - b) := by
  rintro ⟨x, rfl⟩ ⟨y, rfl⟩; exact ⟨x - y, rfl⟩

theorem Rl.mul {a b : EReal} : Rl a → Rl b → Rl (a * b) := by
  rintro ⟨x, rfl⟩ ⟨y, rfl⟩; exact ⟨x * y, rfl⟩

theorem Rl.max0 {a : EReal} (ha : Rl a) : Rl (max a 0) := by
  rcases max_cases a 0 with h | h <;> rw [h.1]
  exacts [ha, Rl.zero]

theorem Rl.sum {ι : Type} (s : Finset ι) (f : ι → EReal) (h : ∀ i ∈ s, Rl (f i)) : Rl (∑ i ∈ s, f i) :=
  Finset.sum_induction f Rl (fun _ _ => Rl.add) Rl.zero h

theorem coe_sum {ι : Type} (s : Finset ι) (f : ι → ℝ) : ((∑ i ∈ s, f i : ℝ) : EReal) = ∑ i ∈ s, (f i : EReal) :=
  map_sum (⟨⟨(↑), rfl⟩, EReal.coe_add⟩ : ℝ →+ EReal) f s

-- nNodes is the real number 50000.
theorem coe_div_nodes (x : ℝ) : Ideal.div (x : EReal) nNodes = ((x / 50000 : ℝ) : EReal) := by
  have hn : nNodes = ((50000 : ℝ) : EReal) := by simp [nNodes, Ideal.ofBits, Ideal.ieee, -EReal.coe_mul]; norm_num
  rw [hn, Ideal.div_coe (by norm_num), ← EReal.coe_mul, mul_one_div]

theorem Rl.div_nodes {a : EReal} : Rl a → Rl (Ideal.div a nNodes) := by
  rintro ⟨x, rfl⟩; exact ⟨_, coe_div_nodes x⟩

-- ε is a positive real number, so the reciprocal square root at a nonnegative real number plus ε is a real number.
theorem Rl.rsqrt_add_eps {v : ℝ} (hv : 0 ≤ v) : Rl (Ideal.rsqrt ((v : EReal) + eps)) := by
  have he : eps = ((1 * (2 ^ 23 + 2606508 : Nat) * (2 : ℝ) ^ ((110 : Int) - 127 - 23) : ℝ) : EReal) := by
    simp [eps, Ideal.ofBits, Ideal.ieee, -EReal.coe_mul]
  have hp : 0 < v + (1 * (2 ^ 23 + 2606508 : Nat) * (2 : ℝ) ^ ((110 : Int) - 127 - 23) : ℝ) :=
    add_pos_of_nonneg_of_pos hv (by positivity)
  rw [he, ← EReal.coe_add, Ideal.rsqrt_coe, if_neg (not_lt.mpr hp.le), if_neg hp.ne']
  exact ⟨_, rfl⟩

-- For 50000 real numbers E[f²] − (E f)² and E[(f − E f)²] are one real number, and it is not negative.
theorem var_real (f : Fin 50000 → ℝ) : let m := Ideal.div (∑ r, (f r : EReal)) nNodes
    ∃ v : ℝ, 0 ≤ v ∧ Ideal.div (∑ r, (f r : EReal) * (f r : EReal)) nNodes - m * m = (v : EReal)
      ∧ Ideal.div (∑ r, ((f r : EReal) - m) * ((f r : EReal) - m)) nNodes = (v : EReal) := by
  dsimp only
  refine ⟨(∑ r, (f r - (∑ r, f r) / 50000) * (f r - (∑ r, f r) / 50000)) / 50000,
    div_nonneg (Finset.sum_nonneg fun _ _ => mul_self_nonneg _) (by norm_num), ?_, ?_⟩
  all_goals simp only [← coe_sum, ← EReal.coe_mul, ← EReal.coe_sub, coe_div_nodes]
  refine congrArg _ ?_
  simp only [sub_mul, mul_sub, Finset.sum_sub_distrib, ← Finset.sum_mul, ← Finset.mul_sum, Finset.sum_const,
    Finset.card_univ, Fintype.card_fin, nsmul_eq_mul, Nat.cast_ofNat]
  ring

theorem var_spec {c : Nat} {z : Mat 50000 c} (hz : IsReal z) (i : (⟨2, ![1, c]⟩ : Shape).Idx) :
    ∃ v : ℝ, 0 ≤ v ∧ varK z i = (v : EReal) ∧ varR z i = (v : EReal) := by
  obtain ⟨Z, rfl⟩ : ∃ Z : _ → ℝ, z = fun j => (Z j : EReal) := ⟨fun j => (hz j).choose, funext fun j => (hz j).choose_spec⟩
  exact var_real fun r => Z (ix2 r (i 1))

theorem isReal_lin {n k c : Nat} {x : Mat n k} {w : Mat k c} {b : Mat 1 c}
    (hx : IsReal x) (hw : IsReal w) (hb : IsReal b) : IsReal (lin x w b) :=
  fun _ => Rl.add (Rl.sum _ _ fun _ _ => Rl.mul (hx _) (hw _)) (hb _)

-- Where every index word, read signed, names a row, nothing is wrapped, filled or clamped.
theorem takeFill_eq_takeClamp {n c e : Nat} (hn : 0 < n) (h : Mat n c) (idx : IdxCol e)
    (hidx : ∀ t : Fin e, 0 ≤ (idx (ix2 t 0)).toInt ∧ (idx (ix2 t 0)).toInt < (n : Int)) :
    takeFill hn h idx = takeClamp hn h idx := by
  funext i
  have hw : wrapN n (idx (ix2 (i 0) 0)) = idx (ix2 (i 0) 0) := if_neg (not_lt.mpr (hidx (i 0)).1)
  simp only [takeFill, takeClamp]
  rw [hw, if_pos ⟨(hidx (i 0)).1, by have := (hidx (i 0)).2; omega⟩]

-- A layer keeps real numbers real, and on real numbers with every source index a node its two readings agree.
theorem step_eq (I : Inputs) (hI : Good I) (l : Fin 4) {h : Mat 50000 256} (hh : IsReal h) :
    stepK I l h = stepR I l h ∧ IsReal (stepR I l h) := by
  have hz : IsReal (mlp h (segsum (dst I) (msgf (takeClamp nodes_pos h (src I)) (ea I))) (slab l I.w1) (slabRow l I.b1)
      (slab l I.w2) (slabRow l I.b2)) :=
    isReal_lin (fun i => Rl.max0 (isReal_lin (fun j => Rl.add (hh j) (Rl.sum _ _ fun _ _ => by
      split
      · exact Rl.max0 (Rl.add (hh _) (isReal_lin hI.eattr hI.edgeW (fun _ => hI.edgeB _) _))
      · exact Rl.zero)) (fun _ => hI.w1 _) (fun _ => hI.b1 _) i)) (fun _ => hI.w2 _) (fun _ => hI.b2 _)
  have hv : varK _ = varR _ := funext fun i => by obtain ⟨v, -, hK, hR⟩ := var_spec hz i; rw [hK, hR]
  simp only [stepK, stepR, layerK, layerR]
  rw [takeFill_eq_takeClamp nodes_pos h (src I) fun t => hI.src t, hv]
  refine ⟨rfl, fun i => ?_⟩
  obtain ⟨v, hv, -, hR⟩ := var_spec hz (ix2 0 (i 1))
  exact Rl.max0 (Rl.add (Rl.mul (Rl.mul (Rl.sub (hz i) (Rl.div_nodes (Rl.sum _ _ fun _ _ => hz _)))
    (hR ▸ Rl.rsqrt_add_eps hv)) (hI.gamma _)) (hI.beta _))

-- On good inputs the two readings agree, layer by layer.
theorem bridge (I : Inputs) (hI : Good I) : Kmodel I = Rmodel I := by
  have r0 : IsReal (h0 I) := isReal_lin hI.x hI.nodeW (fun _ => hI.nodeB _)
  obtain ⟨e1, r1⟩ := step_eq I hI 0 r0
  obtain ⟨e2, r2⟩ := step_eq I hI 1 r1
  obtain ⟨e3, r3⟩ := step_eq I hI 2 r2
  unfold Kmodel Rmodel
  rw [e1, e2, e3, (step_eq I hI 3 r3).1]

end Cert.Spec

end
-- ==== Proof.PreDecode.lean ====
import proofs.«430164_j87205015978673_1_alg».proof.Pre_finite_inputs
import proofs.«430164_j87205015978673_1_alg».proof.Proof.Spec
import Idealize.ShloMosaic.Lib.ReduceAll
import Idealize.ShloMosaic.Lib.ValueIdx
import Idealize.ShloMosaic.Lib.ValueLayout

namespace Cert.PreDecode

open Idealize.ShloMosaic Idealize.ShloMosaic.ValueIdx Cert.Pre_finite_inputs

instance : Subsingleton S_.Idx := ⟨fun a b => funext fun d => d.elim0⟩

-- An extended real with max x (−x) strictly below +∞ is neither +∞ nor −∞, so it is a real number.
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  have hlt : max x (-x) < ⊤ := by
    by_contra hn
    simp [ht, Ideal.cmp, hn] at h
  rw [max_lt_iff] at hlt
  exact ⟨x.toReal, (EReal.coe_toReal hlt.1.ne fun hb => by simp [hb] at hlt).symm⟩

-- If the conjunction over all entries of |x| < +∞ is true, every entry is a real number.
theorem real_of_all {s : Shape} {axes : List (Fin s.rank)} {x : FVec Ideal s .f32}
    {hb : S_.BroadcastsInDim s (![] : Fin 0 → Fin s.rank)} {hr : s.ReducesTo axes S_} {hu : 0 < S_.numel}
    {init : IVec S_ 1}
    (e : Host.reduce IntOp.andi
        (cmpf .olt (Host.absf x) (broadcastInDim s ![] hb (constant (F := Ideal) S_ .f32 0x7F800000#32))) init hr hu ix0 = 1#1)
    (i : s.Idx) : ∃ r : ℝ, x i = (r : EReal) :=
  real_of_abs_lt_inf (x i) (Host.reduce_andi_all _ init hr hu ix0 e i)

-- If the conjunction over row 0 of the comparison of each word with c is true, every word of row 0 compares so with c.
theorem row0_of_all {p : CmpIPredicate} {c : BitVec 32} {a1 : IVec S2x300000 32} {hs : S2x300000.Slices ![0, 0] S1x300000}
    {hc : S1x300000.ShapeCasts S300000} {hb : S_.BroadcastsInDim S300000 (![] : Fin 0 → Fin S300000.rank)}
    {hr : S300000.ReducesTo [0] S_} {hu : 0 < S_.numel} {init : IVec S_ 1}
    (h : Host.reduce IntOp.andi
        (cmpi p (shapeCast S300000 (extractStridedSlice S1x300000 ![0, 0] a1 hs) hc)
          (broadcastInDim S300000 ![] hb (constantI S_ 32 c))) init hr hu ix0 = 1#1)
    (e : Fin 300000) : IntOp.cmpi p (a1 (ix2 0 e)) c = 1#1 := by
  have h1 : IntOp.cmpi p (shapeCast S300000 (extractStridedSlice S1x300000 ![0, 0] a1 hs) hc (ix1 e)) c = 1#1 :=
    Host.reduce_andi_all _ init hr hu ix0 h (ix1 e)
  rwa [shapeCast_1a_a_apply, slice2_axis0_apply 0 a1 hs 0 e 0 rfl] at h1

-- The precondition is a conjunction of eighteen such statements, one for each float argument and two for the source indices.
theorem good_of_fn [Cert.Pre_finite_inputs.Facts] (a0 : FVec Ideal S50000x32 .f32) (a1 : IVec S2x300000 32) (a2 : IVec S50000 32) (a3 : FVec Ideal S300000x16 .f32) (a4 : FVec Ideal S32x256 .f32) (a5 : FVec Ideal S256 .f32) (a6 : FVec Ideal S16x256 .f32) (a7 : FVec Ideal S256 .f32) (a8 : FVec Ideal S4x256x256 .f32) (a9 : FVec Ideal S4x256 .f32) (a10 : FVec Ideal S4x256x256 .f32) (a11 : FVec Ideal S4x256 .f32) (a12 : FVec Ideal S4x256 .f32) (a13 : FVec Ideal S4x256 .f32) (a14 : FVec Ideal S256x128 .f32) (a15 : FVec Ideal S128 .f32) (a16 : FVec Ideal S128x12 .f32) (a17 : FVec Ideal S12 .f32)
    (h : Cert.Pre_finite_inputs.fn (F := Ideal) a0 a1 a2 a3 a4 a5 a6 a7 a8 a9 a10 a11 a12 a13 a14 a15 a16 a17 = fun _ => 1#1) :
    Cert.Spec.Good { x := a0, ei := a1, batch := a2, eattr := a3, nodeW := a4, nodeB := a5, edgeW := a6, edgeB := a7, w1 := a8, b1 := a9, w2 := a10, b2 := a11, gamma := a12, beta := a13, hw1 := a14, hb1 := a15, hw2 := a16, hb2 := a17 } := by
  have e := congrFun h ix0
  dsimp only [fn, fn_part1, fn_part2, fn_part3, fn_part4, fn_part5] at e
  simp only [andi, IntOp.andi_eq_one, and_assoc] at e
  obtain ⟨h0, h3, h4, h5, h6, h7, h8, h9, h10, h11, h12, h13, h14, h15, h16, h17, hge, hlt⟩ := e
  exact ⟨real_of_all h0, real_of_all h3, real_of_all h4, real_of_all h5, real_of_all h6, real_of_all h7, real_of_all h8,
    real_of_all h9, real_of_all h10, real_of_all h11, real_of_all h12, real_of_all h13, real_of_all h14, real_of_all h15,
    real_of_all h16, real_of_all h17, fun e => ⟨IntOp.cmpi_sge.1 (row0_of_all hge e), IntOp.cmpi_slt.1 (row0_of_all hlt e)⟩⟩

end Cert.PreDecode
-- ==== Proof.lean ====
import proofs.«430164_j87205015978673_1_alg».proof.Defs
import proofs.«430164_j87205015978673_1_alg».proof.Proof.Gen.Kernel
import proofs.«430164_j87205015978673_1_alg».proof.Proof.Gen.Kernel.Skeleton
import proofs.«430164_j87205015978673_1_alg».proof.Proof.Gen.Kernel.Launch
import proofs.«430164_j87205015978673_1_alg».proof.Proof.Gen.Kernel.Points
import proofs.«430164_j87205015978673_1_alg».proof.Proof.Gen.Kernel.Frame
import proofs.«430164_j87205015978673_1_alg».proof.Proof.Gen.KernelIdeal
import proofs.«430164_j87205015978673_1_alg».proof.Proof.Gen.KernelIdeal.Skeleton
import proofs.«430164_j87205015978673_1_alg».proof.Proof.Gen.KernelIdeal.Launch
import proofs.«430164_j87205015978673_1_alg».proof.Proof.Gen.KernelIdeal.Points
import proofs.«430164_j87205015978673_1_alg».proof.Proof.Gen.KernelIdeal.Frame
import proofs.«430164_j87205015978673_1_alg».proof.Proof.Gen.ReferenceIdeal
import proofs.«430164_j87205015978673_1_alg».proof.Proof.Gen.Pre_finite_inputs
import proofs.«430164_j87205015978673_1_alg».proof.Proof.KRun
import proofs.«430164_j87205015978673_1_alg».proof.Proof.KVal
import proofs.«430164_j87205015978673_1_alg».proof.Proof.RefRun
import proofs.«430164_j87205015978673_1_alg».proof.Proof.RVal
import proofs.«430164_j87205015978673_1_alg».proof.Proof.Bridge
import proofs.«430164_j87205015978673_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => by
  refine (θ_run Cert.ReferenceIdeal.defs _ _).mono (fun _ h c => ?_) (Cert.ReferenceIdeal.RefRun.run (F := Ideal) m ρ)
  have k (r : Ref Cert.ReferenceIdeal.sig .tc) (hr : r.idx.val < 18) := (h c r).trans (Cert.ReferenceIdeal.RefVal.arg m c r hr)
  exact ⟨k Cert.ReferenceIdeal.main_arg0 (by decide), k Cert.ReferenceIdeal.main_arg1 (by decide), k Cert.ReferenceIdeal.main_arg2 (by decide), k Cert.ReferenceIdeal.main_arg3 (by decide), k Cert.ReferenceIdeal.main_arg4 (by decide), k Cert.ReferenceIdeal.main_arg5 (by decide),
    k Cert.ReferenceIdeal.main_arg6 (by decide), k Cert.ReferenceIdeal.main_arg7 (by decide), k Cert.ReferenceIdeal.main_arg8 (by decide), k Cert.ReferenceIdeal.main_arg9 (by decide), k Cert.ReferenceIdeal.main_arg10 (by decide), k Cert.ReferenceIdeal.main_arg11 (by decide),
    k Cert.ReferenceIdeal.main_arg12 (by decide), k Cert.ReferenceIdeal.main_arg13 (by decide), k Cert.ReferenceIdeal.main_arg14 (by decide), k Cert.ReferenceIdeal.main_arg15 (by decide), k Cert.ReferenceIdeal.main_arg16 (by decide), k Cert.ReferenceIdeal.main_arg17 (by decide)⟩

theorem good_of_pre (m : (ℓ : Loc Cert.KernelIdeal.nD Cert.KernelIdeal.τ Cert.KernelIdeal.sig) → Buf (Elt Ideal) ℓ) (hpre : Cert.Pre_KernelIdeal m)
    (c : Dev Cert.KernelIdeal.nD) : Cert.Spec.Good (Cert.KernelIdeal.Val.inputsK m c) :=
  Cert.PreDecode.good_of_fn _ _ _ _ _ _ _ _ _ _ _ _ _ _ _ _ _ _ (hpre c)

theorem algebraic : Cert.algebraic_KernelIdeal_ReferenceIdeal := by
  intro m g m' g' hpre hagree
  refine ⟨fun c => Cert.Spec.Kmodel (Cert.KernelIdeal.Val.inputsK m c), ?_, ?_⟩
  · exact (θ_run Cert.KernelIdeal.defs _ _).mono (fun _ h c => ⟨(h c).1.trans (Cert.KernelIdeal.Val.value m g c), (h c).2⟩)
      (Cert.KernelIdeal.Gen.run_result (F := Ideal) m g)
  · refine (θ_run Cert.ReferenceIdeal.defs _ _).mono (fun _ h c => ?_) (Cert.ReferenceIdeal.RefRun.run (F := Ideal) m' g')
    have k (r : Ref Cert.ReferenceIdeal.sig .tc) (hr : r.idx.val < 18) := (h c r).trans (Cert.ReferenceIdeal.RefVal.arg m' c r hr)
    refine ⟨?_, k Cert.ReferenceIdeal.main_arg0 (by decide), k Cert.ReferenceIdeal.main_arg1 (by decide), k Cert.ReferenceIdeal.main_arg2 (by decide), k Cert.ReferenceIdeal.main_arg3 (by decide), k Cert.ReferenceIdeal.main_arg4 (by decide), k Cert.ReferenceIdeal.main_arg5 (by decide),
      k Cert.ReferenceIdeal.main_arg6 (by decide), k Cert.ReferenceIdeal.main_arg7 (by decide), k Cert.ReferenceIdeal.main_arg8 (by decide), k Cert.ReferenceIdeal.main_arg9 (by decide), k Cert.ReferenceIdeal.main_arg10 (by decide), k Cert.ReferenceIdeal.main_arg11 (by decide),
      k Cert.ReferenceIdeal.main_arg12 (by decide), k Cert.ReferenceIdeal.main_arg13 (by decide), k Cert.ReferenceIdeal.main_arg14 (by decide), k Cert.ReferenceIdeal.main_arg15 (by decide), k Cert.ReferenceIdeal.main_arg16 (by decide), k Cert.ReferenceIdeal.main_arg17 (by decide)⟩
    obtain ⟨e0, e1, e2, e3, e4, e5, e6, e7, e8, e9, e10, e11, e12, e13, e14, e15, e16, e17⟩ := hagree c
    rw [h c Cert.ReferenceIdeal.main_v239, Cert.ReferenceIdeal.RefVal.value m' c,
      show Cert.ReferenceIdeal.RefVal.inputsR m' c = Cert.KernelIdeal.Val.inputsK m c by
        unfold Cert.ReferenceIdeal.RefVal.inputsR Cert.KernelIdeal.Val.inputsK
        rw [e0, e1, e2, e3, e4, e5, e6, e7, e8, e9, e10, e11, e12, e13, e14, e15, e16, e17]]
    exact (Cert.Spec.bridge _ (good_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
